-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v212) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S64 .f32) (main_arg17 : FVec F S64x2 .f32) (main_arg18 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg17
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg18
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x64 .f32) (main_arg16 : FVec F S64 .f32) (main_arg17 : FVec F S64x2 .f32) (main_arg18 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_arg17 main_arg18 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x1600000 32) (main_arg2 : IVec S50000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x64 .f32) (main_arg16 : FVec F S64 .f32) (main_arg17 : FVec F S64x2 .f32) (main_arg18 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S2000x128 : Shape := ⟨2, ![2000, 128]⟩
abbrev S1650000x128 : Shape := ⟨2, ![1650000, 128]⟩
abbrev S1x128 : Shape := ⟨2, ![1, 128]⟩
abbrev S50000x1 : Shape := ⟨2, ![50000, 1]⟩
abbrev S64x128 : Shape := ⟨2, ![64, 128]⟩
abbrev S1x64 : Shape := ⟨2, ![1, 64]⟩
abbrev S2000x1 : Shape := ⟨2, ![2000, 1]⟩
abbrev S2000x64 : Shape := ⟨2, ![2000, 64]⟩
abbrev S64x2000 : Shape := ⟨2, ![64, 2000]⟩
abbrev S64x1 : Shape := ⟨2, ![64, 1]⟩
abbrev S1x2 : Shape := ⟨2, ![1, 2]⟩
abbrev S64x64 : Shape := ⟨2, ![64, 64]⟩

abbrev nBuf : Space → Nat
  | .hbm => 167
  | .vmem => 69
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S64x2, .f32⟩
  | 18 => ⟨S2, .f32⟩
  | 19 => ⟨S50000, .i32⟩
  | 20 => ⟨S1x1600000, .i32⟩
  | 21 => ⟨S1600000, .i32⟩
  | 22 => ⟨S1650000, .i32⟩
  | 23 => ⟨S1x1600000, .i32⟩
  | 24 => ⟨S1600000, .i32⟩
  | 25 => ⟨S1650000, .i32⟩
  | 26 => ⟨S_, .f32⟩
  | 27 => ⟨S1650000, .f32⟩
  | 28 => ⟨S_, .f32⟩
  | 29 => ⟨S50000, .f32⟩
  | 30 => ⟨S1650000x1, .i32⟩
  | 31 => ⟨S50000, .f32⟩
  | 32 => ⟨S_, .f32⟩
  | 33 => ⟨S50000, .f32⟩
  | 34 => ⟨S50000, .i1⟩
  | 35 => ⟨S_, .f32⟩
  | 36 => ⟨S50000, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S1650000, .f32⟩
  | 62 => ⟨S50000x128, .f32⟩
  | 63 => ⟨S_, .i32⟩
  | 64 => ⟨S1650000, .i32⟩
  | 65 => ⟨S1650000, .i1⟩
  | 66 => ⟨S_, .i32⟩
  | 67 => ⟨S1650000, .i32⟩
  | 68 => ⟨S1650000, .i32⟩
  | 69 => ⟨S1650000, .i32⟩
  | 70 => ⟨S1650000x1, .i32⟩
  | 71 => ⟨S1650000x128, .f32⟩
  | 72 => ⟨S1650000x1, .f32⟩
  | 73 => ⟨S1650000x128, .f32⟩
  | 74 => ⟨S1650000x128, .f32⟩
  | 75 => ⟨S_, .f32⟩
  | 76 => ⟨S50000x128, .f32⟩
  | 77 => ⟨S1650000x1, .i32⟩
  | 78 => ⟨S50000x128, .f32⟩
  | 79 => ⟨S1x128, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S50000x128, .f32⟩
  | 93 => ⟨S50000x128, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000x128, .f32⟩
  | 103 => ⟨S1650000x1, .f32⟩
  | 104 => ⟨S1650000x128, .f32⟩
  | 105 => ⟨S1650000x128, .f32⟩
  | 106 => ⟨S_, .f32⟩
  | 107 => ⟨S50000x128, .f32⟩
  | 108 => ⟨S1650000x1, .i32⟩
  | 109 => ⟨S50000x128, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S50000x128, .f32⟩
  | 124 => ⟨S50000x128, .f32⟩
  | 125 => ⟨S_, .i32⟩
  | 126 => ⟨S1650000, .i32⟩
  | 127 => ⟨S1650000, .i1⟩
  | _ => ⟨S50000x128, .f32⟩

abbrev hbmTy0_1 (i : Nat) : BufTy := match i % 128 with
  | 0 => ⟨S_, .i32⟩
  | 1 => ⟨S1650000, .i32⟩
  | 2 => ⟨S1650000, .i32⟩
  | 3 => ⟨S1650000, .i32⟩
  | 4 => ⟨S1650000x1, .i32⟩
  | 5 => ⟨S1650000x128, .f32⟩
  | 6 => ⟨S1650000x1, .f32⟩
  | 7 => ⟨S1650000x128, .f32⟩
  | 8 => ⟨S1650000x128, .f32⟩
  | 9 => ⟨S_, .f32⟩
  | 10 => ⟨S50000x128, .f32⟩
  | 11 => ⟨S1650000x1, .i32⟩
  | 12 => ⟨S50000x128, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S1x128, .f32⟩
  | 24 => ⟨S1x128, .f32⟩
  | 25 => ⟨S1x128, .f32⟩
  | 26 => ⟨S50000x128, .f32⟩
  | 27 => ⟨S50000x1, .i32⟩
  | 28 => ⟨S64x128, .f32⟩
  | 29 => ⟨S1x64, .f32⟩
  | 30 => ⟨S64x1, .f32⟩
  | 31 => ⟨S_, .f32⟩
  | 32 => ⟨S64x1, .f32⟩
  | 33 => ⟨S64x1, .f32⟩
  | 34 => ⟨S64x128, .f32⟩
  | 35 => ⟨S64x128, .f32⟩
  | 36 => ⟨S1x64, .f32⟩
  | 37 => ⟨S1x2, .f32⟩
  | 38 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x1, .i32⟩
  | .local _ .vmem, ⟨60, _⟩ => ⟨S2000x1, .i32⟩
  | .local _ .vmem, ⟨61, _⟩ => ⟨S64x128, .f32⟩
  | .local _ .vmem, ⟨62, _⟩ => ⟨S1x64, .f32⟩
  | .local _ .vmem, ⟨63, _⟩ => ⟨S64x128, .f32⟩
  | .local _ .vmem, ⟨64, _⟩ => ⟨S128x64, .f32⟩
  | .local _ .vmem, ⟨65, _⟩ => ⟨S1x64, .f32⟩
  | .local _ .vmem, ⟨66, _⟩ => ⟨S64x2, .f32⟩
  | .local _ .vmem, ⟨67, _⟩ => ⟨S1x2, .f32⟩
  | .local _ .vmem, ⟨68, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_c : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_v24 : Ref sig .tc := ⟨.hbm, 53, rfl⟩
abbrev main_v25 : Ref sig .tc := ⟨.hbm, 54, rfl⟩
abbrev main_c_6 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47_0 : Ref sig .tc := ⟨.hbm, 80, rfl⟩
abbrev main_v47_1 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_cst_11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_v58 : Ref sig .tc := ⟨.hbm, 95, rfl⟩
abbrev main_v59 : Ref sig .tc := ⟨.hbm, 96, rfl⟩
abbrev main_c_13 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72_0 : Ref sig .tc := ⟨.hbm, 111, rfl⟩
abbrev main_v72_1 : Ref sig .tc := ⟨.hbm, 112, rfl⟩
abbrev main_cst_15 : Ref sig .tc := ⟨.hbm, 113, rfl⟩
abbrev main_v73 : Ref sig .tc := ⟨.hbm, 114, rfl⟩
abbrev main_v74 : Ref sig .tc := ⟨.hbm, 115, rfl⟩
abbrev main_cst_16 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_17 : Ref sig .tc := ⟨.hbm, 125, rfl⟩
abbrev main_v83 : Ref sig .tc := ⟨.hbm, 126, rfl⟩
abbrev main_v84 : Ref sig .tc := ⟨.hbm, 127, rfl⟩
abbrev main_c_18 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_19 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97_0 : Ref sig .tc := ⟨.hbm, 142, rfl⟩
abbrev main_v97_1 : Ref sig .tc := ⟨.hbm, 143, rfl⟩
abbrev main_cst_20 : Ref sig .tc := ⟨.hbm, 144, rfl⟩
abbrev main_v98 : Ref sig .tc := ⟨.hbm, 145, rfl⟩
abbrev main_v99 : Ref sig .tc := ⟨.hbm, 146, rfl⟩
abbrev main_cst_21 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108_0 : Ref sig .tc := ⟨.hbm, 156, rfl⟩
abbrev main_v108_1 : Ref sig .tc := ⟨.hbm, 157, rfl⟩
abbrev main_v109 : Ref sig .tc := ⟨.hbm, 158, rfl⟩
abbrev main_cst_22 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_stg3_0 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg3_0 : Ref sig .tc := ⟨.vmem, 52, rfl⟩
abbrev cc8_stg4_0 : Ref sig .tc := ⟨.vmem, 53, rfl⟩
abbrev cc8_stg5_0 : Ref sig .tc := ⟨.vmem, 54, rfl⟩
abbrev cc8_stg6_0 : Ref sig .tc := ⟨.vmem, 55, rfl⟩
abbrev cc8_stg6_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg1_1 : Ref sig .tc := ⟨.vmem, 60, rfl⟩
abbrev cc9_stg2_0 : Ref sig .tc := ⟨.vmem, 61, rfl⟩
abbrev cc9_stg3_0 : Ref sig .tc := ⟨.vmem, 62, rfl⟩
abbrev cc10_stg0_0 : Ref sig .tc := ⟨.vmem, 63, rfl⟩
abbrev cc10_stg1_0 : Ref sig .tc := ⟨.vmem, 64, rfl⟩
abbrev cc10_stg2_0 : Ref sig .tc := ⟨.vmem, 65, rfl⟩
abbrev cc10_stg3_0 : Ref sig .tc := ⟨.vmem, 66, rfl⟩
abbrev cc10_stg4_0 : Ref sig .tc := ⟨.vmem, 67, rfl⟩
abbrev cc10_stg5_0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc7_sem3_0 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem3_0 : DmaSem sig := 52
abbrev cc8_sem4_0 : DmaSem sig := 53
abbrev cc8_sem5_0 : DmaSem sig := 54
abbrev cc8_sem6_0 : DmaSem sig := 55
abbrev cc8_sem6_1 : DmaSem sig := 56
abbrev cc9_sem0_0 : DmaSem sig := 57
abbrev cc9_sem0_1 : DmaSem sig := 58
abbrev cc9_sem1_0 : DmaSem sig := 59
abbrev cc9_sem1_1 : DmaSem sig := 60
abbrev cc9_sem2_0 : DmaSem sig := 61
abbrev cc9_sem3_0 : DmaSem sig := 62
abbrev cc10_sem0_0 : DmaSem sig := 63
abbrev cc10_sem1_0 : DmaSem sig := 64
abbrev cc10_sem2_0 : DmaSem sig := 65
abbrev cc10_sem3_0 : DmaSem sig := 66
abbrev cc10_sem4_0 : DmaSem sig := 67
abbrev cc10_sem5_0 : DmaSem sig := 68

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S2000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x128 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S128x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x2 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x2 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x2 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S50000_S50000x1 : S50000.ShapeCasts S50000x1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  shapeCasts_S64x128_S64x128 : S64x128.ShapeCasts S64x128
  transposes_S2000x64_p1_0_S64x2000 : S2000x64.Transposes [1, 0] S64x2000
  shapeCasts_S1x64_S1x64 : S1x64.ShapeCasts S1x64
  reduces_S2000x64_S64 : S2000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  shapeCasts_S2_S1x2 : S2.ShapeCasts S1x2
  inb_S128x64_S128x64_0_0 : ∀ a, (![0, 0] : Fin 2 → Nat) a + S128x64.size a ≤ S128x64.size a
  h_S128x64 : 0 < S128x64.numel
  broadcasts_S1x64_S64x64 : S1x64.Broadcasts S64x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x128_S128x128_S2000x128_1_0_0_1_n_n_wf : DotDims.WF S2000x128 S128x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S64x2000_S2000x128_S64x128_1_0_0_1_n_n_wf : DotDims.WF S64x2000 S2000x128 S64x128 [1] [0] [0] [1] [] []
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S2000x128.size a ≤ S50000x128.size a
  hwx8_6 : ∀ i : grid8.Coords, EltTy.bits .f32 = 32 ∨ (Rect.block (s := S50000x128) S2000x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S50000x128.size a
  hwx9_0 : ∀ i : grid9.Coords, EltTy.bits .f32 = 32 ∨ (Rect.block (s := S50000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S50000x1.size a
  hwx9_1 : ∀ i : grid9.Coords, EltTy.bits .i32 = 32 ∨ (Rect.block (s := S50000x1) S2000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x128.size a ≤ S64x128.size a
  hwx9_2 : ∀ i : grid9.Coords, EltTy.bits .f32 = 32 ∨ (Rect.block (s := S64x128) S64x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S64x128.size a ≤ S64x128.size a
  hwx10_0 : ∀ i : grid10.Coords, EltTy.bits .f32 = 32 ∨ (Rect.block (s := S64x128) S64x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x64.size a ≤ S128x64.size a
  hwx10_1 : ∀ i : grid10.Coords, EltTy.bits .f32 = 32 ∨ (Rect.block (s := S128x64) S128x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S64x2.size a ≤ S64x2.size a
  hwx10_3 : ∀ i : grid10.Coords, EltTy.bits .f32 = 32 ∨ (Rect.block (s := S64x2) S64x2.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x2.size a ≤ S1x2.size a
  hwx10_4 : ∀ i : grid10.Coords, EltTy.bits .f32 = 32 ∨ (Rect.block (s := S1x2) S1x2.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x2.size a ≤ S64x2.size a
  hwx10_5 : ∀ i : grid10.Coords, EltTy.bits .f32 = 32 ∨ (Rect.block (s := S64x2) S64x2.size (cc10_transform_5 i) (hinb10_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S64x2000_S2000x128_S64x128_1_0_0_1_n_n : DotDims S64x2000 S2000x128 S64x128 where
  lhsContracting := [1]
  rhsContracting := [0]
  lhsNonContracting := [0]
  rhsNonContracting := [1]
  lhsBatch := []
  rhsBatch := []
  wf := dot_S64x2000_S2000x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v56) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v70) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v70) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v80) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v81) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v81) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v95) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v96) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v97_0) S1x128.size cc7_transform_2 reads7_2 true true 1 stage7_2 sem7_2
    hrank7 hreads7_2 hinb7_2 nbuf7_2 (Memref.isWhole_whole _) hwx7_2 hstage7_2

abbrev win7_3 : Pipeline.Window sig grid7 :=
  Pipeline.Window.ofSpec (Memref.whole main_v97_1) S1x128.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v95) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v96) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v99) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v103) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v104) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v105) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v106) S2000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v106) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v107) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v108_0) S64x128.size cc9_transform_2 reads9_2 true true 1 stage9_2 sem9_2
    hrank9 hreads9_2 hinb9_2 nbuf9_2 (Memref.isWhole_whole _) hwx9_2 hstage9_2

abbrev win9_3 : Pipeline.Window sig grid9 :=
  Pipeline.Window.ofSpec (Memref.whole main_v108_1) S1x64.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v113) S64x128.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg15) S128x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v114) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg17) S64x2.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v115) S1x2.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v116) S64x2.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 359
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x64, .f32⟩
  | 16 => ⟨S64, .f32⟩
  | 17 => ⟨S64x2, .f32⟩
  | 18 => ⟨S2, .f32⟩
  | 19 => ⟨S50000, .i32⟩
  | 20 => ⟨S1x1600000, .i32⟩
  | 21 => ⟨S1600000, .i32⟩
  | 22 => ⟨S1650000, .i32⟩
  | 23 => ⟨S1x1600000, .i32⟩
  | 24 => ⟨S1600000, .i32⟩
  | 25 => ⟨S1650000, .i32⟩
  | 26 => ⟨S50000x128, .f32⟩
  | 27 => ⟨S_, .f32⟩
  | 28 => ⟨S1650000, .f32⟩
  | 29 => ⟨S_, .f32⟩
  | 30 => ⟨S50000, .f32⟩
  | 31 => ⟨S1650000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S1650000, .i32⟩
  | 46 => ⟨S1650000, .i1⟩
  | 47 => ⟨S_, .i32⟩
  | 48 => ⟨S1650000, .i32⟩
  | 49 => ⟨S1650000, .i32⟩
  | 50 => ⟨S1650000, .i32⟩
  | 51 => ⟨S1650000x1, .i32⟩
  | 52 => ⟨S1650000, .f32⟩
  | 53 => ⟨S_, .i32⟩
  | 54 => ⟨S1650000, .i32⟩
  | 55 => ⟨S1650000, .i1⟩
  | 56 => ⟨S_, .i32⟩
  | 57 => ⟨S1650000, .i32⟩
  | 58 => ⟨S1650000, .i32⟩
  | 59 => ⟨S1650000, .i32⟩
  | 60 => ⟨S1650000x1, .i32⟩
  | 61 => ⟨S1650000, .f32⟩
  | 62 => ⟨S1650000, .f32⟩
  | 63 => ⟨S_, .i32⟩
  | 64 => ⟨S1650000, .i32⟩
  | 65 => ⟨S1650000, .i1⟩
  | 66 => ⟨S_, .i32⟩
  | 67 => ⟨S1650000, .i32⟩
  | 68 => ⟨S1650000, .i32⟩
  | 69 => ⟨S1650000, .i32⟩
  | 70 => ⟨S1650000x1, .i32⟩
  | 71 => ⟨S1650000x128, .f32⟩
  | 72 => ⟨S1650000x1, .f32⟩
  | 73 => ⟨S1650000x128, .f32⟩
  | 74 => ⟨S1650000x128, .f32⟩
  | 75 => ⟨S_, .f32⟩
  | 76 => ⟨S50000x128, .f32⟩
  | 77 => ⟨S1650000x1, .i32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S1650000, .f32⟩
  | 4 => ⟨S_, .f32⟩
  | 5 => ⟨S50000, .f32⟩
  | 6 => ⟨S1650000x1, .i32⟩
  | 7 => ⟨S50000, .f32⟩
  | 8 => ⟨S_, .f32⟩
  | 9 => ⟨S50000, .f32⟩
  | 10 => ⟨S50000, .i1⟩
  | 11 => ⟨S_, .f32⟩
  | 12 => ⟨S50000, .f32⟩
  | 13 => ⟨S50000, .f32⟩
  | 14 => ⟨S50000, .f32⟩
  | 15 => ⟨S_, .f32⟩
  | 16 => ⟨S_, .f32⟩
  | 17 => ⟨S50000, .f32⟩
  | 18 => ⟨S50000, .f32⟩
  | 19 => ⟨S_, .i32⟩
  | 20 => ⟨S1650000, .i32⟩
  | 21 => ⟨S1650000, .i1⟩
  | 22 => ⟨S_, .i32⟩
  | 23 => ⟨S1650000, .i32⟩
  | 24 => ⟨S1650000, .i32⟩
  | 25 => ⟨S1650000, .i32⟩
  | 26 => ⟨S1650000x1, .i32⟩
  | 27 => ⟨S1650000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000x128, .f32⟩
  | 47 => ⟨S1650000x1, .f32⟩
  | 48 => ⟨S1650000x128, .f32⟩
  | 49 => ⟨S1650000x128, .f32⟩
  | 50 => ⟨S_, .f32⟩
  | 51 => ⟨S50000x128, .f32⟩
  | 52 => ⟨S1650000x1, .i32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .f32⟩
  | 106 => ⟨S1650000, .f32⟩
  | 107 => ⟨S_, .f32⟩
  | 108 => ⟨S50000, .f32⟩
  | 109 => ⟨S1650000x1, .i32⟩
  | 110 => ⟨S50000, .f32⟩
  | 111 => ⟨S_, .f32⟩
  | 112 => ⟨S50000, .f32⟩
  | 113 => ⟨S50000, .i1⟩
  | 114 => ⟨S_, .f32⟩
  | 115 => ⟨S50000, .f32⟩
  | 116 => ⟨S50000, .f32⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x128, .f32⟩

abbrev hbmTy0_2 (i : Nat) : BufTy := match i % 128 with
  | 0 => ⟨S1650000, .i32⟩
  | 1 => ⟨S1650000x1, .i32⟩
  | 2 => ⟨S1650000, .f32⟩
  | 3 => ⟨S_, .i32⟩
  | 4 => ⟨S1650000, .i32⟩
  | 5 => ⟨S1650000, .i1⟩
  | 6 => ⟨S_, .i32⟩
  | 7 => ⟨S1650000, .i32⟩
  | 8 => ⟨S1650000, .i32⟩
  | 9 => ⟨S1650000, .i32⟩
  | 10 => ⟨S1650000x1, .i32⟩
  | 11 => ⟨S1650000, .f32⟩
  | 12 => ⟨S1650000, .f32⟩
  | 13 => ⟨S_, .i32⟩
  | 14 => ⟨S1650000, .i32⟩
  | 15 => ⟨S1650000, .i1⟩
  | 16 => ⟨S_, .i32⟩
  | 17 => ⟨S1650000, .i32⟩
  | 18 => ⟨S1650000, .i32⟩
  | 19 => ⟨S1650000, .i32⟩
  | 20 => ⟨S1650000x1, .i32⟩
  | 21 => ⟨S1650000x128, .f32⟩
  | 22 => ⟨S1650000x1, .f32⟩
  | 23 => ⟨S1650000x128, .f32⟩
  | 24 => ⟨S1650000x128, .f32⟩
  | 25 => ⟨S_, .f32⟩
  | 26 => ⟨S50000x128, .f32⟩
  | 27 => ⟨S1650000x1, .i32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S50000x128, .f32⟩
  | 45 => ⟨S50000x128, .f32⟩
  | 46 => ⟨S50000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S64x128, .f32⟩
  | 78 => ⟨S50000x1, .i32⟩
  | 79 => ⟨S64x128, .f32⟩
  | 80 => ⟨S_, .f32⟩
  | 81 => ⟨S50000, .f32⟩
  | 82 => ⟨S_, .f32⟩
  | 83 => ⟨S64, .f32⟩
  | 84 => ⟨S50000x1, .i32⟩
  | 85 => ⟨S64, .f32⟩
  | 86 => ⟨S_, .f32⟩
  | 87 => ⟨S64, .f32⟩
  | 88 => ⟨S64, .f32⟩
  | 89 => ⟨S64x1, .f32⟩
  | 90 => ⟨S64x128, .f32⟩
  | 91 => ⟨S64x128, .f32⟩
  | 92 => ⟨S64x64, .f32⟩
  | 93 => ⟨S1x64, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S64x2, .f32⟩
  | 100 => ⟨S1x2, .f32⟩
  | 101 => ⟨S64x2, .f32⟩
  | 102 => ⟨S64x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v17 : Ref sig .tc := ⟨.hbm, 43, rfl⟩
abbrev main_c : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_c_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_cst_11 : Ref sig .tc := ⟨.hbm, 84, rfl⟩
abbrev main_v50 : Ref sig .tc := ⟨.hbm, 85, rfl⟩
abbrev main_v51 : Ref sig .tc := ⟨.hbm, 86, rfl⟩
abbrev main_c_12 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_13 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_call2_cst : Ref sig .tc := ⟨.hbm, 126, rfl⟩
abbrev main_call2_v0 : Ref sig .tc := ⟨.hbm, 127, rfl⟩
abbrev main_v68 : Ref sig .tc := ⟨.hbm, 128, rfl⟩
abbrev main_v69 : Ref sig .tc := ⟨.hbm, 129, rfl⟩
abbrev main_cst_14 : Ref sig .tc := ⟨.hbm, 130, rfl⟩
abbrev main_v70 : Ref sig .tc := ⟨.hbm, 131, rfl⟩
abbrev main_cst_15 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_cst_16 : Ref sig .tc := ⟨.hbm, 136, rfl⟩
abbrev main_v74 : Ref sig .tc := ⟨.hbm, 137, rfl⟩
abbrev main_v75 : Ref sig .tc := ⟨.hbm, 138, rfl⟩
abbrev main_cst_17 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_18 : Ref sig .tc := ⟨.hbm, 143, rfl⟩
abbrev main_call3_v0 : Ref sig .tc := ⟨.hbm, 144, rfl⟩
abbrev main_call3_v1 : Ref sig .tc := ⟨.hbm, 145, rfl⟩
abbrev main_v79 : Ref sig .tc := ⟨.hbm, 146, rfl⟩
abbrev main_c_19 : Ref sig .tc := ⟨.hbm, 147, rfl⟩
abbrev main_v80 : Ref sig .tc := ⟨.hbm, 148, rfl⟩
abbrev main_v81 : Ref sig .tc := ⟨.hbm, 149, rfl⟩
abbrev main_c_20 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_c_21 : Ref sig .tc := ⟨.hbm, 156, rfl⟩
abbrev main_v87 : Ref sig .tc := ⟨.hbm, 157, rfl⟩
abbrev main_v88 : Ref sig .tc := ⟨.hbm, 158, rfl⟩
abbrev main_c_22 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_c_23 : Ref sig .tc := ⟨.hbm, 166, rfl⟩
abbrev main_v95 : Ref sig .tc := ⟨.hbm, 167, rfl⟩
abbrev main_v96 : Ref sig .tc := ⟨.hbm, 168, rfl⟩
abbrev main_c_24 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_cst_25 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_cst_26 : Ref sig .tc := ⟨.hbm, 185, rfl⟩
abbrev main_v111 : Ref sig .tc := ⟨.hbm, 186, rfl⟩
abbrev main_cst_27 : Ref sig .tc := ⟨.hbm, 187, rfl⟩
abbrev main_v112 : Ref sig .tc := ⟨.hbm, 188, rfl⟩
abbrev main_v113 : Ref sig .tc := ⟨.hbm, 189, rfl⟩
abbrev main_c_28 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_cst_29 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_call5_cst : Ref sig .tc := ⟨.hbm, 229, rfl⟩
abbrev main_call5_v0 : Ref sig .tc := ⟨.hbm, 230, rfl⟩
abbrev main_v130 : Ref sig .tc := ⟨.hbm, 231, rfl⟩
abbrev main_v131 : Ref sig .tc := ⟨.hbm, 232, rfl⟩
abbrev main_cst_30 : Ref sig .tc := ⟨.hbm, 233, rfl⟩
abbrev main_v132 : Ref sig .tc := ⟨.hbm, 234, rfl⟩
abbrev main_cst_31 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_cst_32 : Ref sig .tc := ⟨.hbm, 239, rfl⟩
abbrev main_v136 : Ref sig .tc := ⟨.hbm, 240, rfl⟩
abbrev main_v137 : Ref sig .tc := ⟨.hbm, 241, rfl⟩
abbrev main_cst_33 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_cst_34 : Ref sig .tc := ⟨.hbm, 246, rfl⟩
abbrev main_call6_v0 : Ref sig .tc := ⟨.hbm, 247, rfl⟩
abbrev main_call6_v1 : Ref sig .tc := ⟨.hbm, 248, rfl⟩
abbrev main_v141 : Ref sig .tc := ⟨.hbm, 249, rfl⟩
abbrev main_c_35 : Ref sig .tc := ⟨.hbm, 250, rfl⟩
abbrev main_v142 : Ref sig .tc := ⟨.hbm, 251, rfl⟩
abbrev main_v143 : Ref sig .tc := ⟨.hbm, 252, rfl⟩
abbrev main_c_36 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_c_37 : Ref sig .tc := ⟨.hbm, 259, rfl⟩
abbrev main_v149 : Ref sig .tc := ⟨.hbm, 260, rfl⟩
abbrev main_v150 : Ref sig .tc := ⟨.hbm, 261, rfl⟩
abbrev main_c_38 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_c_39 : Ref sig .tc := ⟨.hbm, 269, rfl⟩
abbrev main_v157 : Ref sig .tc := ⟨.hbm, 270, rfl⟩
abbrev main_v158 : Ref sig .tc := ⟨.hbm, 271, rfl⟩
abbrev main_c_40 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_cst_41 : Ref sig .tc := ⟨.hbm, 281, rfl⟩
abbrev main_v167 : Ref sig .tc := ⟨.hbm, 282, rfl⟩
abbrev main_v168 : Ref sig .tc := ⟨.hbm, 283, rfl⟩
abbrev main_v169 : Ref sig .tc := ⟨.hbm, 284, rfl⟩
abbrev main_v170 : Ref sig .tc := ⟨.hbm, 285, rfl⟩
abbrev main_v171 : Ref sig .tc := ⟨.hbm, 286, rfl⟩
abbrev main_v172 : Ref sig .tc := ⟨.hbm, 287, rfl⟩
abbrev main_cst_42 : Ref sig .tc := ⟨.hbm, 288, rfl⟩
abbrev main_v173 : Ref sig .tc := ⟨.hbm, 289, rfl⟩
abbrev main_cst_43 : Ref sig .tc := ⟨.hbm, 290, rfl⟩
abbrev main_v174 : Ref sig .tc := ⟨.hbm, 291, rfl⟩
abbrev main_v175 : Ref sig .tc := ⟨.hbm, 292, rfl⟩
abbrev main_c_44 : Ref sig .tc := ⟨.hbm, 293, rfl⟩
abbrev main_call7_cst : Ref sig .tc := ⟨.hbm, 294, rfl⟩
abbrev main_call7_v0 : Ref sig .tc := ⟨.hbm, 295, rfl⟩
abbrev main_call7_v1 : Ref sig .tc := ⟨.hbm, 296, rfl⟩
abbrev main_call7_cst_0 : Ref sig .tc := ⟨.hbm, 297, rfl⟩
abbrev main_call7_v2 : Ref sig .tc := ⟨.hbm, 298, rfl⟩
abbrev main_call7_v3 : Ref sig .tc := ⟨.hbm, 299, rfl⟩
abbrev main_call7_v4 : Ref sig .tc := ⟨.hbm, 300, rfl⟩
abbrev main_call7_v5 : Ref sig .tc := ⟨.hbm, 301, rfl⟩
abbrev main_call7_v6 : Ref sig .tc := ⟨.hbm, 302, rfl⟩
abbrev main_call7_v7 : Ref sig .tc := ⟨.hbm, 303, rfl⟩
abbrev main_call7_cst_1 : Ref sig .tc := ⟨.hbm, 304, rfl⟩
abbrev main_call7_v8 : Ref sig .tc := ⟨.hbm, 305, rfl⟩
abbrev main_call7_cst_2 : Ref sig .tc := ⟨.hbm, 306, rfl⟩
abbrev main_call7_v9 : Ref sig .tc := ⟨.hbm, 307, rfl⟩
abbrev main_call7_v10 : Ref sig .tc := ⟨.hbm, 308, rfl⟩
abbrev main_call7_v11 : Ref sig .tc := ⟨.hbm, 309, rfl⟩
abbrev main_call7_cst_3 : Ref sig .tc := ⟨.hbm, 310, rfl⟩
abbrev main_call7_v12 : Ref sig .tc := ⟨.hbm, 311, rfl⟩
abbrev main_call7_cst_4 : Ref sig .tc := ⟨.hbm, 312, rfl⟩
abbrev main_call7_call0_v0 : Ref sig .tc := ⟨.hbm, 313, rfl⟩
abbrev main_call7_call0_v1 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_v179 : Ref sig .tc := ⟨.hbm, 318, rfl⟩
abbrev main_cst_45 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_cst_46 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_cst_47 : Ref sig .tc := ⟨.hbm, 336, rfl⟩
abbrev main_v195 : Ref sig .tc := ⟨.hbm, 337, rfl⟩
abbrev main_cst_48 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_cst_49 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_call8_cst : Ref sig .tc := ⟨.hbm, 352, rfl⟩
abbrev main_call8_v0 : Ref sig .tc := ⟨.hbm, 353, rfl⟩
abbrev main_v208 : Ref sig .tc := ⟨.hbm, 354, rfl⟩
abbrev main_v209 : Ref sig .tc := ⟨.hbm, 355, rfl⟩
abbrev main_v210 : Ref sig .tc := ⟨.hbm, 356, rfl⟩
abbrev main_v211 : Ref sig .tc := ⟨.hbm, 357, rfl⟩
abbrev main_v212 : Ref sig .tc := ⟨.hbm, 358, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.RefOps.lean ====
import proofs.«400876_j79998060855858_1_alg».proof.Proof.Gen.ReferenceIdeal
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

abbrev ropsI : List (HloOp τ sig (Elt F)) :=
  [ StableHlo.nullary main_v0 (iotaInDim S50000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

theorem ropsI_sub : (ropsI : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩

abbrev ropsL1 : List (HloOp τ sig (Elt F)) :=
  [ StableHlo.binary main_arg0 main_arg3 main_v7 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst (constant S_ .f32 0x3F800000#32),
    StableHlo.unary main_cst main_v8 (broadcastInDim S1650000 ![] bcast_S_S1650000 : (⟨S_, .f32⟩ : BufTy).Contents (Elt F) → (⟨S1650000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S1650000x1 ![0] bcast_S1650000_S1650000x1_0 : (⟨S1650000, .i32⟩ : BufTy).Contents (Elt F) → (⟨S1650000x1, .i32⟩ : BufTy).Contents (Elt F)),
    StableHlo.ternary main_v9 main_v10 main_v8 main_v11 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v11 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v13 : StableHlo.TRef sig ⟨S50000, .i1⟩) (.of main_v16 : StableHlo.TRef sig ⟨S50000, .f32⟩) (.of main_call0_v1 : StableHlo.TRef sig ⟨S50000, .f32⟩) (.of main_v17 : StableHlo.TRef sig ⟨S50000, .f32⟩) select,
    StableHlo.nullary main_c (constantI S_ 32 0#32),
    StableHlo.unary main_c main_v18 (broadcastInDim S1650000 ![] bcast_S_S1650000 : (⟨S_, .i32⟩ : BufTy).Contents (Elt F) → (⟨S1650000, .i32⟩ : BufTy).Contents (Elt F)),
    StableHlo.binary main_v3 main_v18 main_v19 (cmpi .slt : (⟨S1650000, .i32⟩ : BufTy).Contents (Elt F) → (⟨S1650000, .i32⟩ : BufTy).Contents (Elt F) → (⟨S1650000, .i1⟩ : BufTy).Contents (Elt F)),
    StableHlo.nullary main_c_4 (constantI S_ 32 50000#32),
    StableHlo.unary main_c_4 main_v20 (broadcastInDim S1650000 ![] bcast_S_S1650000 : (⟨S_, .i32⟩ : BufTy).Contents (Elt F) → (⟨S1650000, .i32⟩ : BufTy).Contents (Elt F)),
    StableHlo.binary main_v3 main_v20 main_v21 (addi : (⟨S1650000, .i32⟩ : BufTy).Contents (Elt F) → (⟨S1650000, .i32⟩ : BufTy).Contents (Elt F) → (⟨S1650000, .i32⟩ : BufTy).Contents (Elt F)),
    StableHlo.ternary main_v19 main_v21 main_v3 main_v22 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v22 main_v23 (broadcastInDim S1650000x1 ![0] bcast_S1650000_S1650000x1_0 : (⟨S1650000, .i32⟩ : BufTy).Contents (Elt F) → (⟨S1650000x1, .i32⟩ : BufTy).Contents (Elt F)),
    StableHlo.binary main_v17 main_v23 main_v24 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_5 (constantI S_ 32 0#32),
    StableHlo.unary main_c_5 main_v25 (broadcastInDim S1650000 ![] bcast_S_S1650000 : (⟨S_, .i32⟩ : BufTy).Contents (Elt F) → (⟨S1650000, .i32⟩ : BufTy).Contents (Elt F)),
    StableHlo.binary main_v6 main_v25 main_v26 (cmpi .slt : (⟨S1650000, .i32⟩ : BufTy).Contents (Elt F) → (⟨S1650000, .i32⟩ : BufTy).Contents (Elt F) → (⟨S1650000, .i1⟩ : BufTy).Contents (Elt F)),
    StableHlo.nullary main_c_6 (constantI S_ 32 50000#32),
    StableHlo.unary main_c_6 main_v27 (broadcastInDim S1650000 ![] bcast_S_S1650000 : (⟨S_, .i32⟩ : BufTy).Contents (Elt F) → (⟨S1650000, .i32⟩ : BufTy).Contents (Elt F)),
    StableHlo.binary main_v6 main_v27 main_v28 (addi : (⟨S1650000, .i32⟩ : BufTy).Contents (Elt F) → (⟨S1650000, .i32⟩ : BufTy).Contents (Elt F) → (⟨S1650000, .i32⟩ : BufTy).Contents (Elt F)),
    StableHlo.ternary main_v26 main_v28 main_v6 main_v29 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v29 main_v30 (broadcastInDim S1650000x1 ![0] bcast_S1650000_S1650000x1_0 : (⟨S1650000, .i32⟩ : BufTy).Contents (Elt F) → (⟨S1650000x1, .i32⟩ : BufTy).Contents (Elt F)),
    StableHlo.binary main_v17 main_v30 main_v31 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v24 main_v31 main_v32 (mulf : (⟨S1650000, .f32⟩ : BufTy).Contents (Elt F) → (⟨S1650000, .f32⟩ : BufTy).Contents (Elt F) → (⟨S1650000, .f32⟩ : BufTy).Contents (Elt F)),
    StableHlo.nullary main_c_7 (constantI S_ 32 0#32),
    StableHlo.unary main_c_7 main_v33 (broadcastInDim S1650000 ![] bcast_S_S1650000 : (⟨S_, .i32⟩ : BufTy).Contents (Elt F) → (⟨S1650000, .i32⟩ : BufTy).Contents (Elt F)),
    StableHlo.binary main_v3 main_v33 main_v34 (cmpi .slt : (⟨S1650000, .i32⟩ : BufTy).Contents (Elt F) → (⟨S1650000, .i32⟩ : BufTy).Contents (Elt F) → (⟨S1650000, .i1⟩ : BufTy).Contents (Elt F)),
    StableHlo.nullary main_c_8 (constantI S_ 32 50000#32),
    StableHlo.unary main_c_8 main_v35 (broadcastInDim S1650000 ![] bcast_S_S1650000 : (⟨S_, .i32⟩ : BufTy).Contents (Elt F) → (⟨S1650000, .i32⟩ : BufTy).Contents (Elt F)),
    StableHlo.binary main_v3 main_v35 main_v36 (addi : (⟨S1650000, .i32⟩ : BufTy).Contents (Elt F) → (⟨S1650000, .i32⟩ : BufTy).Contents (Elt F) → (⟨S1650000, .i32⟩ : BufTy).Contents (Elt F)),
    StableHlo.ternary main_v34 main_v36 main_v3 main_v37 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v37 main_v38 (broadcastInDim S1650000x1 ![0] bcast_S1650000_S1650000x1_0 : (⟨S1650000, .i32⟩ : BufTy).Contents (Elt F) → (⟨S1650000x1, .i32⟩ : BufTy).Contents (Elt F)),
    StableHlo.binary main_v7 main_v38 main_v39 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v32 main_v40 (broadcastInDim S1650000x1 ![0] bcast_S1650000_S1650000x1_0 : (⟨S1650000, .f32⟩ : BufTy).Contents (Elt F) → (⟨S1650000x1, .f32⟩ : BufTy).Contents (Elt F)),
    StableHlo.unary main_v40 main_v41 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v39 main_v41 main_v42 (mulf : (⟨S1650000x128, .f32⟩ : BufTy).Contents (Elt F) → (⟨S1650000x128, .f32⟩ : BufTy).Contents (Elt F) → (⟨S1650000x128, .f32⟩ : BufTy).Contents (Elt F)),
    StableHlo.nullary main_cst_9 (constant S_ .f32 0x00000000#32),
    StableHlo.unary main_cst_9 main_v43 (broadcastInDim S50000x128 ![] bcast_S_S50000x128 : (⟨S_, .f32⟩ : BufTy).Contents (Elt F) → (⟨S50000x128, .f32⟩ : BufTy).Contents (Elt F)),
    StableHlo.unary main_v6 main_v44 (broadcastInDim S1650000x1 ![0] bcast_S1650000_S1650000x1_0 : (⟨S1650000, .i32⟩ : BufTy).Contents (Elt F) → (⟨S1650000x1, .i32⟩ : BufTy).Contents (Elt F)),
    StableHlo.ternary main_v43 main_v44 main_v42 main_v45 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v48 main_cst_10 main_v49 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v50 (broadcastInDim S128 ![] bcast_S_S128 : (⟨S_, .f32⟩ : BufTy).Contents (Elt F) → (⟨S128, .f32⟩ : BufTy).Contents (Elt F)),
    StableHlo.binary main_v49 main_v50 main_v51 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v48 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v48 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v52 : StableHlo.TRef sig ⟨S128, .f32⟩) (fun p a b => select (broadcastInDim S128 ![] bcast_S_S128 p) a b),
    StableHlo.unary main_v51 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v54 main_v55 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v56 (broadcastInDim S128 ![] bcast_S_S128 : (⟨S_, .f32⟩ : BufTy).Contents (Elt F) → (⟨S128, .f32⟩ : BufTy).Contents (Elt F)),
    StableHlo.binary main_v52 main_v56 main_v57 (addf : (⟨S128, .f32⟩ : BufTy).Contents (Elt F) → (⟨S128, .f32⟩ : BufTy).Contents (Elt F) → (⟨S128, .f32⟩ : BufTy).Contents (Elt F)),
    StableHlo.unary main_v57 main_v58 (Host.rsqrt : (⟨S128, .f32⟩ : BufTy).Contents (Elt F) → (⟨S128, .f32⟩ : BufTy).Contents (Elt F)),
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v60 main_v61 (mulf : (⟨S50000x128, .f32⟩ : BufTy).Contents (Elt F) → (⟨S50000x128, .f32⟩ : BufTy).Contents (Elt F) → (⟨S50000x128, .f32⟩ : BufTy).Contents (Elt F)),
    StableHlo.unary main_arg5 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v63 main_v64 (mulf : (⟨S50000x128, .f32⟩ : BufTy).Contents (Elt F) → (⟨S50000x128, .f32⟩ : BufTy).Contents (Elt F) → (⟨S50000x128, .f32⟩ : BufTy).Contents (Elt F)),
    StableHlo.unary main_arg6 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v64 main_v66 main_v67 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v67 : StableHlo.TRef sig ⟨S50000x128, .f32⟩) (.of main_call2_v0 : StableHlo.TRef sig ⟨S50000x128, .f32⟩) (.of main_v68 : StableHlo.TRef sig ⟨S50000x128, .f32⟩) maximumf ]

theorem ropsL1_sub : (ropsL1 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

abbrev ropsL2 : List (HloOp τ sig (Elt F)) :=
  [ StableHlo.binary main_v68 main_arg7 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_14 (constant S_ .f32 0x3F800000#32),
    StableHlo.unary main_cst_14 main_v70 (broadcastInDim S1650000 ![] bcast_S_S1650000 : (⟨S_, .f32⟩ : BufTy).Contents (Elt F) → (⟨S1650000, .f32⟩ : BufTy).Contents (Elt F)),
    StableHlo.nullary main_cst_15 (constant S_ .f32 0x00000000#32),
    StableHlo.unary main_cst_15 main_v71 (broadcastInDim S50000 ![] bcast_S_S50000 : (⟨S_, .f32⟩ : BufTy).Contents (Elt F) → (⟨S50000, .f32⟩ : BufTy).Contents (Elt F)),
    StableHlo.unary main_v6 main_v72 (broadcastInDim S1650000x1 ![0] bcast_S1650000_S1650000x1_0 : (⟨S1650000, .i32⟩ : BufTy).Contents (Elt F) → (⟨S1650000x1, .i32⟩ : BufTy).Contents (Elt F)),
    StableHlo.ternary main_v71 main_v72 main_v70 main_v73 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_16 (constant S_ .f32 0x00000000#32),
    StableHlo.unary main_cst_16 main_v74 (broadcastInDim S50000 ![] bcast_S_S50000 : (⟨S_, .f32⟩ : BufTy).Contents (Elt F) → (⟨S50000, .f32⟩ : BufTy).Contents (Elt F)),
    StableHlo.binary main_v73 main_v74 main_v75 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0x3F800000#32),
    StableHlo.unary main_cst_17 main_v76 (broadcastInDim S50000 ![] bcast_S_S50000 : (⟨S_, .f32⟩ : BufTy).Contents (Elt F) → (⟨S50000, .f32⟩ : BufTy).Contents (Elt F)),
    StableHlo.binary main_v73 main_v76 main_v77 (maximumf : (⟨S50000, .f32⟩ : BufTy).Contents (Elt F) → (⟨S50000, .f32⟩ : BufTy).Contents (Elt F) → (⟨S50000, .f32⟩ : BufTy).Contents (Elt F)),
    StableHlo.unary main_v77 main_v78 (Host.rsqrt : (⟨S50000, .f32⟩ : BufTy).Contents (Elt F) → (⟨S50000, .f32⟩ : BufTy).Contents (Elt F)),
    StableHlo.nullary main_cst_18 (constant S_ .f32 0x00000000#32),
    StableHlo.TRef.unary (.of main_cst_18 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v75 : StableHlo.TRef sig ⟨S50000, .i1⟩) (.of main_v78 : StableHlo.TRef sig ⟨S50000, .f32⟩) (.of main_call3_v1 : StableHlo.TRef sig ⟨S50000, .f32⟩) (.of main_v79 : StableHlo.TRef sig ⟨S50000, .f32⟩) select,
    StableHlo.nullary main_c_19 (constantI S_ 32 0#32),
    StableHlo.unary main_c_19 main_v80 (broadcastInDim S1650000 ![] bcast_S_S1650000 : (⟨S_, .i32⟩ : BufTy).Contents (Elt F) → (⟨S1650000, .i32⟩ : BufTy).Contents (Elt F)),
    StableHlo.binary main_v3 main_v80 main_v81 (cmpi .slt : (⟨S1650000, .i32⟩ : BufTy).Contents (Elt F) → (⟨S1650000, .i32⟩ : BufTy).Contents (Elt F) → (⟨S1650000, .i1⟩ : BufTy).Contents (Elt F)),
    StableHlo.nullary main_c_20 (constantI S_ 32 50000#32),
    StableHlo.unary main_c_20 main_v82 (broadcastInDim S1650000 ![] bcast_S_S1650000 : (⟨S_, .i32⟩ : BufTy).Contents (Elt F) → (⟨S1650000, .i32⟩ : BufTy).Contents (Elt F)),
    StableHlo.binary main_v3 main_v82 main_v83 (addi : (⟨S1650000, .i32⟩ : BufTy).Contents (Elt F) → (⟨S1650000, .i32⟩ : BufTy).Contents (Elt F) → (⟨S1650000, .i32⟩ : BufTy).Contents (Elt F)),
    StableHlo.ternary main_v81 main_v83 main_v3 main_v84 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v84 main_v85 (broadcastInDim S1650000x1 ![0] bcast_S1650000_S1650000x1_0 : (⟨S1650000, .i32⟩ : BufTy).Contents (Elt F) → (⟨S1650000x1, .i32⟩ : BufTy).Contents (Elt F)),
    StableHlo.binary main_v79 main_v85 main_v86 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_21 (constantI S_ 32 0#32),
    StableHlo.unary main_c_21 main_v87 (broadcastInDim S1650000 ![] bcast_S_S1650000 : (⟨S_, .i32⟩ : BufTy).Contents (Elt F) → (⟨S1650000, .i32⟩ : BufTy).Contents (Elt F)),
    StableHlo.binary main_v6 main_v87 main_v88 (cmpi .slt : (⟨S1650000, .i32⟩ : BufTy).Contents (Elt F) → (⟨S1650000, .i32⟩ : BufTy).Contents (Elt F) → (⟨S1650000, .i1⟩ : BufTy).Contents (Elt F)),
    StableHlo.nullary main_c_22 (constantI S_ 32 50000#32),
    StableHlo.unary main_c_22 main_v89 (broadcastInDim S1650000 ![] bcast_S_S1650000 : (⟨S_, .i32⟩ : BufTy).Contents (Elt F) → (⟨S1650000, .i32⟩ : BufTy).Contents (Elt F)),
    StableHlo.binary main_v6 main_v89 main_v90 (addi : (⟨S1650000, .i32⟩ : BufTy).Contents (Elt F) → (⟨S1650000, .i32⟩ : BufTy).Contents (Elt F) → (⟨S1650000, .i32⟩ : BufTy).Contents (Elt F)),
    StableHlo.ternary main_v88 main_v90 main_v6 main_v91 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v91 main_v92 (broadcastInDim S1650000x1 ![0] bcast_S1650000_S1650000x1_0 : (⟨S1650000, .i32⟩ : BufTy).Contents (Elt F) → (⟨S1650000x1, .i32⟩ : BufTy).Contents (Elt F)),
    StableHlo.binary main_v79 main_v92 main_v93 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v86 main_v93 main_v94 (mulf : (⟨S1650000, .f32⟩ : BufTy).Contents (Elt F) → (⟨S1650000, .f32⟩ : BufTy).Contents (Elt F) → (⟨S1650000, .f32⟩ : BufTy).Contents (Elt F)),
    StableHlo.nullary main_c_23 (constantI S_ 32 0#32),
    StableHlo.unary main_c_23 main_v95 (broadcastInDim S1650000 ![] bcast_S_S1650000 : (⟨S_, .i32⟩ : BufTy).Contents (Elt F) → (⟨S1650000, .i32⟩ : BufTy).Contents (Elt F)),
    StableHlo.binary main_v3 main_v95 main_v96 (cmpi .slt : (⟨S1650000, .i32⟩ : BufTy).Contents (Elt F) → (⟨S1650000, .i32⟩ : BufTy).Contents (Elt F) → (⟨S1650000, .i1⟩ : BufTy).Contents (Elt F)),
    StableHlo.nullary main_c_24 (constantI S_ 32 50000#32),
    StableHlo.unary main_c_24 main_v97 (broadcastInDim S1650000 ![] bcast_S_S1650000 : (⟨S_, .i32⟩ : BufTy).Contents (Elt F) → (⟨S1650000, .i32⟩ : BufTy).Contents (Elt F)),
    StableHlo.binary main_v3 main_v97 main_v98 (addi : (⟨S1650000, .i32⟩ : BufTy).Contents (Elt F) → (⟨S1650000, .i32⟩ : BufTy).Contents (Elt F) → (⟨S1650000, .i32⟩ : BufTy).Contents (Elt F)),
    StableHlo.ternary main_v96 main_v98 main_v3 main_v99 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v99 main_v100 (broadcastInDim S1650000x1 ![0] bcast_S1650000_S1650000x1_0 : (⟨S1650000, .i32⟩ : BufTy).Contents (Elt F) → (⟨S1650000x1, .i32⟩ : BufTy).Contents (Elt F)),
    StableHlo.binary main_v69 main_v100 main_v101 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v94 main_v102 (broadcastInDim S1650000x1 ![0] bcast_S1650000_S1650000x1_0 : (⟨S1650000, .f32⟩ : BufTy).Contents (Elt F) → (⟨S1650000x1, .f32⟩ : BufTy).Contents (Elt F)),
    StableHlo.unary main_v102 main_v103 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v101 main_v103 main_v104 (mulf : (⟨S1650000x128, .f32⟩ : BufTy).Contents (Elt F) → (⟨S1650000x128, .f32⟩ : BufTy).Contents (Elt F) → (⟨S1650000x128, .f32⟩ : BufTy).Contents (Elt F)),
    StableHlo.nullary main_cst_25 (constant S_ .f32 0x00000000#32),
    StableHlo.unary main_cst_25 main_v105 (broadcastInDim S50000x128 ![] bcast_S_S50000x128 : (⟨S_, .f32⟩ : BufTy).Contents (Elt F) → (⟨S50000x128, .f32⟩ : BufTy).Contents (Elt F)),
    StableHlo.unary main_v6 main_v106 (broadcastInDim S1650000x1 ![0] bcast_S1650000_S1650000x1_0 : (⟨S1650000, .i32⟩ : BufTy).Contents (Elt F) → (⟨S1650000x1, .i32⟩ : BufTy).Contents (Elt F)),
    StableHlo.ternary main_v105 main_v106 main_v104 main_v107 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg8 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v107 main_v109 main_v110 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x00000000#32),
    StableHlo.binary main_v110 main_cst_26 main_v111 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v112 (broadcastInDim S128 ![] bcast_S_S128 : (⟨S_, .f32⟩ : BufTy).Contents (Elt F) → (⟨S128, .f32⟩ : BufTy).Contents (Elt F)),
    StableHlo.binary main_v111 main_v112 main_v113 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary (.of main_call4_cst : StableHlo.TRef sig ⟨S_, .f32⟩) (constant S_ .f32 0x00000000#32),
    StableHlo.TRef.binary (.of main_v110 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1),
    StableHlo.TRef.binary (.of main_v110 : StableHlo.TRef sig ⟨S50000x128, .f32⟩) (.of main_call4_v4 : StableHlo.TRef sig ⟨S50000x128, .f32⟩) (.of main_call4_v5 : StableHlo.TRef sig ⟨S50000x128, .f32⟩) subf,
    StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf,
    StableHlo.TRef.unary (.of main_c_28 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v114 : StableHlo.TRef sig ⟨S128, .f32⟩) (fun p a b => select (broadcastInDim S128 ![] bcast_S_S128 p) a b),
    StableHlo.unary main_v113 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v116 main_v117 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v118 (broadcastInDim S128 ![] bcast_S_S128 : (⟨S_, .f32⟩ : BufTy).Contents (Elt F) → (⟨S128, .f32⟩ : BufTy).Contents (Elt F)),
    StableHlo.binary main_v114 main_v118 main_v119 (addf : (⟨S128, .f32⟩ : BufTy).Contents (Elt F) → (⟨S128, .f32⟩ : BufTy).Contents (Elt F) → (⟨S128, .f32⟩ : BufTy).Contents (Elt F)),
    StableHlo.unary main_v119 main_v120 (Host.rsqrt : (⟨S128, .f32⟩ : BufTy).Contents (Elt F) → (⟨S128, .f32⟩ : BufTy).Contents (Elt F)),
    StableHlo.unary main_v120 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v122 main_v123 (mulf : (⟨S50000x128, .f32⟩ : BufTy).Contents (Elt F) → (⟨S50000x128, .f32⟩ : BufTy).Contents (Elt F) → (⟨S50000x128, .f32⟩ : BufTy).Contents (Elt F)),
    StableHlo.unary main_arg9 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v123 main_v125 main_v126 (mulf : (⟨S50000x128, .f32⟩ : BufTy).Contents (Elt F) → (⟨S50000x128, .f32⟩ : BufTy).Contents (Elt F) → (⟨S50000x128, .f32⟩ : BufTy).Contents (Elt F)),
    StableHlo.unary main_arg10 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v126 main_v128 main_v129 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v129 : StableHlo.TRef sig ⟨S50000x128, .f32⟩) (.of main_call5_v0 : StableHlo.TRef sig ⟨S50000x128, .f32⟩) (.of main_v130 : StableHlo.TRef sig ⟨S50000x128, .f32⟩) maximumf ]

theorem ropsL2_sub : (ropsL2 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

abbrev ropsL3 : List (HloOp τ sig (Elt F)) :=
  [ StableHlo.binary main_v130 main_arg11 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_30 (constant S_ .f32 0x3F800000#32),
    StableHlo.unary main_cst_30 main_v132 (broadcastInDim S1650000 ![] bcast_S_S1650000 : (⟨S_, .f32⟩ : BufTy).Contents (Elt F) → (⟨S1650000, .f32⟩ : BufTy).Contents (Elt F)),
    StableHlo.nullary main_cst_31 (constant S_ .f32 0x00000000#32),
    StableHlo.unary main_cst_31 main_v133 (broadcastInDim S50000 ![] bcast_S_S50000 : (⟨S_, .f32⟩ : BufTy).Contents (Elt F) → (⟨S50000, .f32⟩ : BufTy).Contents (Elt F)),
    StableHlo.unary main_v6 main_v134 (broadcastInDim S1650000x1 ![0] bcast_S1650000_S1650000x1_0 : (⟨S1650000, .i32⟩ : BufTy).Contents (Elt F) → (⟨S1650000x1, .i32⟩ : BufTy).Contents (Elt F)),
    StableHlo.ternary main_v133 main_v134 main_v132 main_v135 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.nullary main_cst_32 (constant S_ .f32 0x00000000#32),
    StableHlo.unary main_cst_32 main_v136 (broadcastInDim S50000 ![] bcast_S_S50000 : (⟨S_, .f32⟩ : BufTy).Contents (Elt F) → (⟨S50000, .f32⟩ : BufTy).Contents (Elt F)),
    StableHlo.binary main_v135 main_v136 main_v137 (cmpf .ogt : (⟨S50000, .f32⟩ : BufTy).Contents (Elt F) → (⟨S50000, .f32⟩ : BufTy).Contents (Elt F) → (⟨S50000, .i1⟩ : BufTy).Contents (Elt F)),
    StableHlo.nullary main_cst_33 (constant S_ .f32 0x3F800000#32),
    StableHlo.unary main_cst_33 main_v138 (broadcastInDim S50000 ![] bcast_S_S50000 : (⟨S_, .f32⟩ : BufTy).Contents (Elt F) → (⟨S50000, .f32⟩ : BufTy).Contents (Elt F)),
    StableHlo.binary main_v135 main_v138 main_v139 (maximumf : (⟨S50000, .f32⟩ : BufTy).Contents (Elt F) → (⟨S50000, .f32⟩ : BufTy).Contents (Elt F) → (⟨S50000, .f32⟩ : BufTy).Contents (Elt F)),
    StableHlo.unary main_v139 main_v140 (Host.rsqrt : (⟨S50000, .f32⟩ : BufTy).Contents (Elt F) → (⟨S50000, .f32⟩ : BufTy).Contents (Elt F)),
    StableHlo.nullary main_cst_34 (constant S_ .f32 0x00000000#32),
    StableHlo.TRef.unary (.of main_cst_34 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S50000, .f32⟩) (broadcastInDim S50000 ![] bcast_S_S50000),
    StableHlo.TRef.ternary (.of main_v137 : StableHlo.TRef sig ⟨S50000, .i1⟩) (.of main_v140 : StableHlo.TRef sig ⟨S50000, .f32⟩) (.of main_call6_v1 : StableHlo.TRef sig ⟨S50000, .f32⟩) (.of main_v141 : StableHlo.TRef sig ⟨S50000, .f32⟩) select,
    StableHlo.nullary main_c_35 (constantI S_ 32 0#32),
    StableHlo.unary main_c_35 main_v142 (broadcastInDim S1650000 ![] bcast_S_S1650000 : (⟨S_, .i32⟩ : BufTy).Contents (Elt F) → (⟨S1650000, .i32⟩ : BufTy).Contents (Elt F)),
    StableHlo.binary main_v3 main_v142 main_v143 (cmpi .slt : (⟨S1650000, .i32⟩ : BufTy).Contents (Elt F) → (⟨S1650000, .i32⟩ : BufTy).Contents (Elt F) → (⟨S1650000, .i1⟩ : BufTy).Contents (Elt F)),
    StableHlo.nullary main_c_36 (constantI S_ 32 50000#32),
    StableHlo.unary main_c_36 main_v144 (broadcastInDim S1650000 ![] bcast_S_S1650000 : (⟨S_, .i32⟩ : BufTy).Contents (Elt F) → (⟨S1650000, .i32⟩ : BufTy).Contents (Elt F)),
    StableHlo.binary main_v3 main_v144 main_v145 (addi : (⟨S1650000, .i32⟩ : BufTy).Contents (Elt F) → (⟨S1650000, .i32⟩ : BufTy).Contents (Elt F) → (⟨S1650000, .i32⟩ : BufTy).Contents (Elt F)),
    StableHlo.ternary main_v143 main_v145 main_v3 main_v146 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v146 main_v147 (broadcastInDim S1650000x1 ![0] bcast_S1650000_S1650000x1_0 : (⟨S1650000, .i32⟩ : BufTy).Contents (Elt F) → (⟨S1650000x1, .i32⟩ : BufTy).Contents (Elt F)),
    StableHlo.binary main_v141 main_v147 main_v148 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.nullary main_c_37 (constantI S_ 32 0#32),
    StableHlo.unary main_c_37 main_v149 (broadcastInDim S1650000 ![] bcast_S_S1650000 : (⟨S_, .i32⟩ : BufTy).Contents (Elt F) → (⟨S1650000, .i32⟩ : BufTy).Contents (Elt F)),
    StableHlo.binary main_v6 main_v149 main_v150 (cmpi .slt : (⟨S1650000, .i32⟩ : BufTy).Contents (Elt F) → (⟨S1650000, .i32⟩ : BufTy).Contents (Elt F) → (⟨S1650000, .i1⟩ : BufTy).Contents (Elt F)),
    StableHlo.nullary main_c_38 (constantI S_ 32 50000#32),
    StableHlo.unary main_c_38 main_v151 (broadcastInDim S1650000 ![] bcast_S_S1650000 : (⟨S_, .i32⟩ : BufTy).Contents (Elt F) → (⟨S1650000, .i32⟩ : BufTy).Contents (Elt F)),
    StableHlo.binary main_v6 main_v151 main_v152 (addi : (⟨S1650000, .i32⟩ : BufTy).Contents (Elt F) → (⟨S1650000, .i32⟩ : BufTy).Contents (Elt F) → (⟨S1650000, .i32⟩ : BufTy).Contents (Elt F)),
    StableHlo.ternary main_v150 main_v152 main_v6 main_v153 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v153 main_v154 (broadcastInDim S1650000x1 ![0] bcast_S1650000_S1650000x1_0 : (⟨S1650000, .i32⟩ : BufTy).Contents (Elt F) → (⟨S1650000x1, .i32⟩ : BufTy).Contents (Elt F)),
    StableHlo.binary main_v141 main_v154 main_v155 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    StableHlo.binary main_v148 main_v155 main_v156 (mulf : (⟨S1650000, .f32⟩ : BufTy).Contents (Elt F) → (⟨S1650000, .f32⟩ : BufTy).Contents (Elt F) → (⟨S1650000, .f32⟩ : BufTy).Contents (Elt F)),
    StableHlo.nullary main_c_39 (constantI S_ 32 0#32),
    StableHlo.unary main_c_39 main_v157 (broadcastInDim S1650000 ![] bcast_S_S1650000 : (⟨S_, .i32⟩ : BufTy).Contents (Elt F) → (⟨S1650000, .i32⟩ : BufTy).Contents (Elt F)),
    StableHlo.binary main_v3 main_v157 main_v158 (cmpi .slt : (⟨S1650000, .i32⟩ : BufTy).Contents (Elt F) → (⟨S1650000, .i32⟩ : BufTy).Contents (Elt F) → (⟨S1650000, .i1⟩ : BufTy).Contents (Elt F)),
    StableHlo.nullary main_c_40 (constantI S_ 32 50000#32),
    StableHlo.unary main_c_40 main_v159 (broadcastInDim S1650000 ![] bcast_S_S1650000 : (⟨S_, .i32⟩ : BufTy).Contents (Elt F) → (⟨S1650000, .i32⟩ : BufTy).Contents (Elt F)),
    StableHlo.binary main_v3 main_v159 main_v160 (addi : (⟨S1650000, .i32⟩ : BufTy).Contents (Elt F) → (⟨S1650000, .i32⟩ : BufTy).Contents (Elt F) → (⟨S1650000, .i32⟩ : BufTy).Contents (Elt F)),
    StableHlo.ternary main_v158 main_v160 main_v3 main_v161 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v161 main_v162 (broadcastInDim S1650000x1 ![0] bcast_S1650000_S1650000x1_0 : (⟨S1650000, .i32⟩ : BufTy).Contents (Elt F) → (⟨S1650000x1, .i32⟩ : BufTy).Contents (Elt F)),
    StableHlo.binary main_v131 main_v162 main_v163 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.unary main_v156 main_v164 (broadcastInDim S1650000x1 ![0] bcast_S1650000_S1650000x1_0 : (⟨S1650000, .f32⟩ : BufTy).Contents (Elt F) → (⟨S1650000x1, .f32⟩ : BufTy).Contents (Elt F)),
    StableHlo.unary main_v164 main_v165 (broadcastInDim S1650000x128 ![0, 1] bcast_S1650000x1_S1650000x128_0_1 : (⟨S1650000x1, .f32⟩ : BufTy).Contents (Elt F) → (⟨S1650000x128, .f32⟩ : BufTy).Contents (Elt F)),
    StableHlo.binary main_v163 main_v165 main_v166 (mulf : (⟨S1650000x128, .f32⟩ : BufTy).Contents (Elt F) → (⟨S1650000x128, .f32⟩ : BufTy).Contents (Elt F) → (⟨S1650000x128, .f32⟩ : BufTy).Contents (Elt F)),
    StableHlo.nullary main_cst_41 (constant S_ .f32 0x00000000#32),
    StableHlo.unary main_cst_41 main_v167 (broadcastInDim S50000x128 ![] bcast_S_S50000x128 : (⟨S_, .f32⟩ : BufTy).Contents (Elt F) → (⟨S50000x128, .f32⟩ : BufTy).Contents (Elt F)),
    StableHlo.unary main_v6 main_v168 (broadcastInDim S1650000x1 ![0] bcast_S1650000_S1650000x1_0 : (⟨S1650000, .i32⟩ : BufTy).Contents (Elt F) → (⟨S1650000x1, .i32⟩ : BufTy).Contents (Elt F)),
    StableHlo.ternary main_v167 main_v168 main_v166 main_v169 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.unary main_arg12 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v171 main_v172 (addf : (⟨S50000x128, .f32⟩ : BufTy).Contents (Elt F) → (⟨S50000x128, .f32⟩ : BufTy).Contents (Elt F) → (⟨S50000x128, .f32⟩ : BufTy).Contents (Elt F)),
    StableHlo.nullary main_cst_42 (constant S_ .f32 0x00000000#32),
    StableHlo.binary main_v172 main_cst_42 main_v173 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_43 (constant S_ .f32 0x47435000#32),
    StableHlo.unary main_cst_43 main_v174 (broadcastInDim S128 ![] bcast_S_S128 : (⟨S_, .f32⟩ : BufTy).Contents (Elt F) → (⟨S128, .f32⟩ : BufTy).Contents (Elt F)),
    StableHlo.binary main_v173 main_v174 main_v175 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary (.of main_call7_cst : StableHlo.TRef sig ⟨S_, .f32⟩) (constant S_ .f32 0x00000000#32),
    StableHlo.TRef.binary (.of main_v172 : StableHlo.TRef sig ⟨S50000x128, .f32⟩) (.of main_call7_cst : StableHlo.TRef sig ⟨S_, .f32⟩) (.of main_call7_v0 : StableHlo.TRef sig ⟨S128, .f32⟩) (fun x v => Host.reduceAdd x v reducesTo_S50000x128_S128_d0 h_S_),
    StableHlo.TRef.unary (.of main_call7_v0 : StableHlo.TRef sig ⟨S128, .f32⟩) (.of main_call7_v1 : StableHlo.TRef sig ⟨S1x128, .f32⟩) (broadcastInDim S1x128 ![1] bcast_S128_S1x128_1),
    StableHlo.TRef.nullary (.of main_call7_cst_0 : StableHlo.TRef sig ⟨S_, .f32⟩) (constant S_ .f32 0x47435000#32),
    StableHlo.TRef.unary (.of main_call7_cst_0 : StableHlo.TRef sig ⟨S_, .f32⟩) (.of main_call7_v2 : StableHlo.TRef sig ⟨S1x128, .f32⟩) (broadcastInDim S1x128 ![] bcast_S_S1x128),
    StableHlo.TRef.binary (.of main_call7_v1 : StableHlo.TRef sig ⟨S1x128, .f32⟩) (.of main_call7_v2 : StableHlo.TRef sig ⟨S1x128, .f32⟩) (.of main_call7_v3 : StableHlo.TRef sig ⟨S1x128, .f32⟩) Host.divf,
    StableHlo.TRef.unary (.of main_call7_v3 : StableHlo.TRef sig ⟨S1x128, .f32⟩) (.of main_call7_v4 : StableHlo.TRef sig ⟨S50000x128, .f32⟩) (broadcastInDim S50000x128 ![0, 1] bcast_S1x128_S50000x128_0_1),
    StableHlo.TRef.binary (.of main_v172 : StableHlo.TRef sig ⟨S50000x128, .f32⟩) (.of main_call7_v4 : StableHlo.TRef sig ⟨S50000x128, .f32⟩) (.of main_call7_v5 : StableHlo.TRef sig ⟨S50000x128, .f32⟩) subf,
    StableHlo.TRef.binary (.of main_call7_v5 : StableHlo.TRef sig ⟨S50000x128, .f32⟩) (.of main_call7_v5 : StableHlo.TRef sig ⟨S50000x128, .f32⟩) (.of main_call7_v6 : StableHlo.TRef sig ⟨S50000x128, .f32⟩) mulf,
    StableHlo.TRef.unary (.of main_c_44 : StableHlo.TRef sig ⟨S_, .i32⟩) (.of main_call7_v7 : StableHlo.TRef sig ⟨S_, .f32⟩) (sitofp .f32),
    StableHlo.TRef.nullary (.of main_call7_cst_1 : StableHlo.TRef sig ⟨S_, .f32⟩) (constant S_ .f32 0x47435000#32),
    StableHlo.TRef.binary (.of main_call7_cst_1 : StableHlo.TRef sig ⟨S_, .f32⟩) (.of main_call7_v7 : StableHlo.TRef sig ⟨S_, .f32⟩) (.of main_call7_v8 : StableHlo.TRef sig ⟨S_, .f32⟩) subf,
    StableHlo.TRef.nullary (.of main_call7_cst_2 : StableHlo.TRef sig ⟨S_, .f32⟩) (constant S_ .f32 0x00000000#32),
    StableHlo.TRef.binary (.of main_call7_v6 : StableHlo.TRef sig ⟨S50000x128, .f32⟩) (.of main_call7_cst_2 : StableHlo.TRef sig ⟨S_, .f32⟩) (.of main_call7_v9 : StableHlo.TRef sig ⟨S128, .f32⟩) (fun x v => Host.reduceAdd x v reducesTo_S50000x128_S128_d0 h_S_),
    StableHlo.TRef.unary (.of main_call7_v8 : StableHlo.TRef sig ⟨S_, .f32⟩) (.of main_call7_v10 : StableHlo.TRef sig ⟨S128, .f32⟩) (broadcastInDim S128 ![] bcast_S_S128),
    StableHlo.TRef.binary (.of main_call7_v9 : StableHlo.TRef sig ⟨S128, .f32⟩) (.of main_call7_v10 : StableHlo.TRef sig ⟨S128, .f32⟩) (.of main_call7_v11 : StableHlo.TRef sig ⟨S128, .f32⟩) Host.divf,
    StableHlo.TRef.nullary (.of main_call7_cst_3 : StableHlo.TRef sig ⟨S_, .f32⟩) (constant S_ .f32 0x00000000#32),
    StableHlo.TRef.binary (.of main_call7_v8 : StableHlo.TRef sig ⟨S_, .f32⟩) (.of main_call7_cst_3 : StableHlo.TRef sig ⟨S_, .f32⟩) (.of main_call7_v12 : StableHlo.TRef sig ⟨S_, .i1⟩) (cmpf .ogt),
    StableHlo.TRef.nullary (.of main_call7_cst_4 : StableHlo.TRef sig ⟨S_, .f32⟩) (constant S_ .f32 0x7FC00000#32),
    StableHlo.TRef.unary (.of main_call7_cst_4 : StableHlo.TRef sig ⟨S_, .f32⟩) (.of main_call7_call0_v0 : StableHlo.TRef sig ⟨S_, .f32⟩) id,
    StableHlo.TRef.unary (.of main_call7_call0_v0 : StableHlo.TRef sig ⟨S_, .f32⟩) (.of main_call7_call0_v1 : StableHlo.TRef sig ⟨S128, .f32⟩) (broadcastInDim S128 ![] bcast_S_S128),
    StableHlo.TRef.ternary (.of main_call7_v12 : StableHlo.TRef sig ⟨S_, .i1⟩) (.of main_call7_v11 : StableHlo.TRef sig ⟨S128, .f32⟩) (.of main_call7_call0_v1 : StableHlo.TRef sig ⟨S128, .f32⟩) (.of main_v176 : StableHlo.TRef sig ⟨S128, .f32⟩) (fun p a b => select (broadcastInDim S128 ![] bcast_S_S128 p) a b),
    StableHlo.unary main_v175 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v178 main_v179 (subf : (⟨S50000x128, .f32⟩ : BufTy).Contents (Elt F) → (⟨S50000x128, .f32⟩ : BufTy).Contents (Elt F) → (⟨S50000x128, .f32⟩ : BufTy).Contents (Elt F)),
    StableHlo.nullary main_cst_45 (constant S_ .f32 0x3727C5AC#32),
    StableHlo.unary main_cst_45 main_v180 (broadcastInDim S128 ![] bcast_S_S128 : (⟨S_, .f32⟩ : BufTy).Contents (Elt F) → (⟨S128, .f32⟩ : BufTy).Contents (Elt F)),
    StableHlo.binary main_v176 main_v180 main_v181 (addf : (⟨S128, .f32⟩ : BufTy).Contents (Elt F) → (⟨S128, .f32⟩ : BufTy).Contents (Elt F) → (⟨S128, .f32⟩ : BufTy).Contents (Elt F)),
    StableHlo.unary main_v181 main_v182 (Host.rsqrt : (⟨S128, .f32⟩ : BufTy).Contents (Elt F) → (⟨S128, .f32⟩ : BufTy).Contents (Elt F)),
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v184 main_v185 (mulf : (⟨S50000x128, .f32⟩ : BufTy).Contents (Elt F) → (⟨S50000x128, .f32⟩ : BufTy).Contents (Elt F) → (⟨S50000x128, .f32⟩ : BufTy).Contents (Elt F)),
    StableHlo.unary main_arg13 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v185 main_v187 main_v188 (mulf : (⟨S50000x128, .f32⟩ : BufTy).Contents (Elt F) → (⟨S50000x128, .f32⟩ : BufTy).Contents (Elt F) → (⟨S50000x128, .f32⟩ : BufTy).Contents (Elt F)),
    StableHlo.unary main_arg14 main_v189 (broadcastInDim S1x128 ![1] bcast_S128_S1x128_1 : (⟨S128, .f32⟩ : BufTy).Contents (Elt F) → (⟨S1x128, .f32⟩ : BufTy).Contents (Elt F)),
    StableHlo.unary main_v189 main_v190 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v190 main_v191 (addf : (⟨S50000x128, .f32⟩ : BufTy).Contents (Elt F) → (⟨S50000x128, .f32⟩ : BufTy).Contents (Elt F) → (⟨S50000x128, .f32⟩ : BufTy).Contents (Elt F)) ]

theorem ropsL3_sub : (ropsL3 : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

abbrev ropsP : List (HloOp τ sig (Elt F)) :=
  [ StableHlo.nullary main_cst_46 (constant S_ .f32 0x00000000#32),
    StableHlo.unary main_cst_46 main_v192 (broadcastInDim S64x128 ![] bcast_S_S64x128 : (⟨S_, .f32⟩ : BufTy).Contents (Elt F) → (⟨S64x128, .f32⟩ : BufTy).Contents (Elt F)),
    StableHlo.unary main_arg2 main_v193 (broadcastInDim S50000x1 ![0] bcast_S50000_S50000x1_0 : (⟨S50000, .i32⟩ : BufTy).Contents (Elt F) → (⟨S50000x1, .i32⟩ : BufTy).Contents (Elt F)),
    StableHlo.ternary main_v192 main_v193 main_v191 main_v194 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_47 (constant S_ .f32 0x3F800000#32),
    StableHlo.unary main_cst_47 main_v195 (broadcastInDim S50000 ![] bcast_S_S50000 : (⟨S_, .f32⟩ : BufTy).Contents (Elt F) → (⟨S50000, .f32⟩ : BufTy).Contents (Elt F)),
    StableHlo.nullary main_cst_48 (constant S_ .f32 0x00000000#32),
    StableHlo.unary main_cst_48 main_v196 (broadcastInDim S64 ![] bcast_S_S64 : (⟨S_, .f32⟩ : BufTy).Contents (Elt F) → (⟨S64, .f32⟩ : BufTy).Contents (Elt F)),
    StableHlo.unary main_arg2 main_v197 (broadcastInDim S50000x1 ![0] bcast_S50000_S50000x1_0 : (⟨S50000, .i32⟩ : BufTy).Contents (Elt F) → (⟨S50000x1, .i32⟩ : BufTy).Contents (Elt F)),
    StableHlo.ternary main_v196 main_v197 main_v195 main_v198 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_49 (constant S_ .f32 0x3F800000#32),
    StableHlo.unary main_cst_49 main_v199 (broadcastInDim S64 ![] bcast_S_S64 : (⟨S_, .f32⟩ : BufTy).Contents (Elt F) → (⟨S64, .f32⟩ : BufTy).Contents (Elt F)),
    StableHlo.binary main_v198 main_v199 main_v200 (maximumf : (⟨S64, .f32⟩ : BufTy).Contents (Elt F) → (⟨S64, .f32⟩ : BufTy).Contents (Elt F) → (⟨S64, .f32⟩ : BufTy).Contents (Elt F)),
    StableHlo.unary main_v200 main_v201 (broadcastInDim S64x1 ![0] bcast_S64_S64x1_0 : (⟨S64, .f32⟩ : BufTy).Contents (Elt F) → (⟨S64x1, .f32⟩ : BufTy).Contents (Elt F)),
    StableHlo.unary main_v201 main_v202 (broadcastInDim S64x128 ![0, 1] bcast_S64x1_S64x128_0_1 : (⟨S64x1, .f32⟩ : BufTy).Contents (Elt F) → (⟨S64x128, .f32⟩ : BufTy).Contents (Elt F)),
    StableHlo.binary main_v194 main_v202 main_v203 (Host.divf : (⟨S64x128, .f32⟩ : BufTy).Contents (Elt F) → (⟨S64x128, .f32⟩ : BufTy).Contents (Elt F) → (⟨S64x128, .f32⟩ : BufTy).Contents (Elt F)) ]

theorem ropsP_sub : (ropsP : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

abbrev ropsH : List (HloOp τ sig (Elt F)) :=
  [ StableHlo.binary main_v203 main_arg15 main_v204 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg16 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S64x64 ![0, 1] bcast_S1x64_S64x64_0_1 : (⟨S1x64, .f32⟩ : BufTy).Contents (Elt F) → (⟨S64x64, .f32⟩ : BufTy).Contents (Elt F)),
    StableHlo.binary main_v204 main_v206 main_v207 (addf : (⟨S64x64, .f32⟩ : BufTy).Contents (Elt F) → (⟨S64x64, .f32⟩ : BufTy).Contents (Elt F) → (⟨S64x64, .f32⟩ : BufTy).Contents (Elt F)),
    StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S64x64, .f32⟩) (broadcastInDim S64x64 ![] bcast_S_S64x64),
    StableHlo.TRef.binary (.of main_v207 : StableHlo.TRef sig ⟨S64x64, .f32⟩) (.of main_call8_v0 : StableHlo.TRef sig ⟨S64x64, .f32⟩) (.of main_v208 : StableHlo.TRef sig ⟨S64x64, .f32⟩) maximumf,
    StableHlo.binary main_v208 main_arg17 main_v209 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    StableHlo.unary main_arg18 main_v210 (broadcastInDim S1x2 ![1] bcast_S2_S1x2_1 : (⟨S2, .f32⟩ : BufTy).Contents (Elt F) → (⟨S1x2, .f32⟩ : BufTy).Contents (Elt F)),
    StableHlo.unary main_v210 main_v211 (broadcastInDim S64x2 ![0, 1] bcast_S1x2_S64x2_0_1 : (⟨S1x2, .f32⟩ : BufTy).Contents (Elt F) → (⟨S64x2, .f32⟩ : BufTy).Contents (Elt F)),
    StableHlo.binary main_v209 main_v211 main_v212 (addf : (⟨S64x2, .f32⟩ : BufTy).Contents (Elt F) → (⟨S64x2, .f32⟩ : BufTy).Contents (Elt F) → (⟨S64x2, .f32⟩ : BufTy).Contents (Elt F)) ]

theorem ropsH_sub : (ropsH : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

abbrev rops : List (HloOp τ sig (Elt F)) := ropsI ++ ropsL1 ++ ropsL2 ++ ropsL3 ++ ropsP ++ ropsH

end Cert.ReferenceIdeal.Val

end
-- ==== Proof.RRun.lean ====
import proofs.«400876_j79998060855858_1_alg».proof.Proof.RefOps
import Idealize.ShloMosaic.Lib.Pipeline.Frame

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem main_part0_eq (c : Dev nD) : main_part0 (F := F) c = seq (ropsI ++ ropsL1.take 55) := rfl
set_option maxHeartbeats 4000000 in
theorem main_part1_eq (c : Dev nD) : main_part1 (F := F) c = seq (ropsL1.drop 55 ++ ropsL2.take 37) := rfl
set_option maxHeartbeats 4000000 in
theorem main_part2_eq (c : Dev nD) : main_part2 (F := F) c = seq (ropsL2.drop 37 ++ ropsL3.take 19) := rfl
set_option maxHeartbeats 4000000 in
theorem main_part3_eq (c : Dev nD) : main_part3 (F := F) c = seq (ropsL3.drop 19) := rfl
set_option maxHeartbeats 4000000 in
theorem main_part4_eq (c : Dev nD) : main_part4 (F := F) c = seq (ropsP ++ ropsH) := rfl

private theorem take_drop_append {α : Type} (n : Nat) (l X : List α) : l.take n ++ (l.drop n ++ X) = l ++ X := by
  rw [← List.append_assoc, List.take_append_drop]

theorem rops_windows : (rops : List (HloOp τ sig (Elt F)))
    = (ropsI ++ ropsL1.take 55) ++ ((ropsL1.drop 55 ++ ropsL2.take 37) ++ ((ropsL2.drop 37 ++ ropsL3.take 19)
        ++ (ropsL3.drop 19 ++ (ropsP ++ ropsH)))) := by
  simp only [rops, List.append_assoc, take_drop_append]

theorem main_eq (c : Dev nD) : main (F := F) c = seq rops := by
  rw [rops_windows, seq_append (ropsI ++ ropsL1.take 55), seq_append (ropsL1.drop 55 ++ ropsL2.take 37),
    seq_append (ropsL2.drop 37 ++ ropsL3.take 19), seq_append (ropsL3.drop 19), ← main_part0_eq c, ← main_part1_eq c,
    ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

-- A property of every operation of each of the six stretches is a property of every operation of the program.
theorem forall_rops {p : HloOp τ sig (Elt F) → Prop} (hI : List.Forall p ropsI) (h1 : List.Forall p ropsL1) (h2 : List.Forall p ropsL2)
    (h3 : List.Forall p ropsL3) (hP : List.Forall p ropsP) (hH : List.Forall p ropsH) :
    ∀ op ∈ (rops : List (HloOp τ sig (Elt F))), p op := fun op h => by
  simp only [rops, List.mem_append] at h
  rcases h with ((((h | h) | h) | h) | h) | h
  exacts [List.forall_iff_forall_mem.mp hI op h, List.forall_iff_forall_mem.mp h1 op h, List.forall_iff_forall_mem.mp h2 op h,
    List.forall_iff_forall_mem.mp h3 op h, List.forall_iff_forall_mem.mp hP op h, List.forall_iff_forall_mem.mp hH op h]

theorem ops_sub : (rops : List (HloOp τ sig (Elt F))).Forall fun op => op.bufs ⊆ tcRefs τ sig :=
  List.forall_iff_forall_mem.mpr (forall_rops ropsI_sub ropsL1_sub ropsL2_sub ropsL3_sub ropsP_sub ropsH_sub)

theorem ops_fresh : ∀ op ∈ (rops : List (HloOp τ sig (Elt F))), op.fresh = ∅ := by
  refine forall_rops ?_ ?_ ?_ ?_ ?_ ?_ <;> simp only [List.Forall] <;> repeat' constructor

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after rops (launchContents m c) (Proc.devRef .tc b) :=
  run_seq scopedRefs_eq scopedSems_eq defs main (fun _ => rops) main_eq (fun _ => ops_sub) m ρ (fun _ => ops_fresh)

theorem after_rops (V : Valuation τ sig (Elt F)) :
    after rops V = after ropsH (after ropsP (after ropsL3 (after ropsL2 (after ropsL1 (after ropsI V))))) := by
  simp only [rops, after_append]

abbrev wI : List (Ref sig .tc) :=
  [ main_v0, main_v1, main_v2, main_v3, main_v4, main_v5, main_v6 ]

abbrev wL1 : List (Ref sig .tc) :=
  [ main_v7, main_cst, main_v8, main_cst_0, main_v9, main_v10, main_v11, main_cst_1, main_v12, main_v13,
    main_cst_2, main_v14, main_v15, main_v16, main_cst_3, main_call0_v0, main_call0_v1, main_v17, main_c, main_v18,
    main_v19, main_c_4, main_v20, main_v21, main_v22, main_v23, main_v24, main_c_5, main_v25, main_v26,
    main_c_6, main_v27, main_v28, main_v29, main_v30, main_v31, main_v32, main_c_7, main_v33, main_v34,
    main_c_8, main_v35, main_v36, main_v37, main_v38, main_v39, main_v40, main_v41, main_v42, main_cst_9,
    main_v43, main_v44, main_v45, main_v46, main_v47, main_v48, main_cst_10, main_v49, main_cst_11, main_v50,
    main_v51, main_c_12, main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10, main_call1_v11, main_call1_cst_3, main_call1_v12,
    main_call1_cst_4, main_call1_call0_v0, main_call1_call0_v1, main_v52, main_v53, main_v54, main_v55, main_cst_13, main_v56, main_v57,
    main_v58, main_v59, main_v60, main_v61, main_v62, main_v63, main_v64, main_v65, main_v66, main_v67,
    main_call2_cst, main_call2_v0, main_v68 ]

abbrev wL2 : List (Ref sig .tc) :=
  [ main_v69, main_cst_14, main_v70, main_cst_15, main_v71, main_v72, main_v73, main_cst_16, main_v74, main_v75,
    main_cst_17, main_v76, main_v77, main_v78, main_cst_18, main_call3_v0, main_call3_v1, main_v79, main_c_19, main_v80,
    main_v81, main_c_20, main_v82, main_v83, main_v84, main_v85, main_v86, main_c_21, main_v87, main_v88,
    main_c_22, main_v89, main_v90, main_v91, main_v92, main_v93, main_v94, main_c_23, main_v95, main_v96,
    main_c_24, main_v97, main_v98, main_v99, main_v100, main_v101, main_v102, main_v103, main_v104, main_cst_25,
    main_v105, main_v106, main_v107, main_v108, main_v109, main_v110, main_cst_26, main_v111, main_cst_27, main_v112,
    main_v113, main_c_28, main_call4_cst, main_call4_v0, main_call4_v1, main_call4_cst_0, main_call4_v2, main_call4_v3, main_call4_v4, main_call4_v5,
    main_call4_v6, main_call4_v7, main_call4_cst_1, main_call4_v8, main_call4_cst_2, main_call4_v9, main_call4_v10, main_call4_v11, main_call4_cst_3, main_call4_v12,
    main_call4_cst_4, main_call4_call0_v0, main_call4_call0_v1, main_v114, main_v115, main_v116, main_v117, main_cst_29, main_v118, main_v119,
    main_v120, main_v121, main_v122, main_v123, main_v124, main_v125, main_v126, main_v127, main_v128, main_v129,
    main_call5_cst, main_call5_v0, main_v130 ]

abbrev wL3 : List (Ref sig .tc) :=
  [ main_v131, main_cst_30, main_v132, main_cst_31, main_v133, main_v134, main_v135, main_cst_32, main_v136, main_v137,
    main_cst_33, main_v138, main_v139, main_v140, main_cst_34, main_call6_v0, main_call6_v1, main_v141, main_c_35, main_v142,
    main_v143, main_c_36, main_v144, main_v145, main_v146, main_v147, main_v148, main_c_37, main_v149, main_v150,
    main_c_38, main_v151, main_v152, main_v153, main_v154, main_v155, main_v156, main_c_39, main_v157, main_v158,
    main_c_40, main_v159, main_v160, main_v161, main_v162, main_v163, main_v164, main_v165, main_v166, main_cst_41,
    main_v167, main_v168, main_v169, main_v170, main_v171, main_v172, main_cst_42, main_v173, main_cst_43, main_v174,
    main_v175, main_c_44, main_call7_cst, main_call7_v0, main_call7_v1, main_call7_cst_0, main_call7_v2, main_call7_v3, main_call7_v4, main_call7_v5,
    main_call7_v6, main_call7_v7, main_call7_cst_1, main_call7_v8, main_call7_cst_2, main_call7_v9, main_call7_v10, main_call7_v11, main_call7_cst_3, main_call7_v12,
    main_call7_cst_4, main_call7_call0_v0, main_call7_call0_v1, main_v176, main_v177, main_v178, main_v179, main_cst_45, main_v180, main_v181,
    main_v182, main_v183, main_v184, main_v185, main_v186, main_v187, main_v188, main_v189, main_v190, main_v191 ]

abbrev wP : List (Ref sig .tc) :=
  [ main_cst_46, main_v192, main_v193, main_v194, main_cst_47, main_v195, main_cst_48, main_v196, main_v197, main_v198,
    main_cst_49, main_v199, main_v200, main_v201, main_v202, main_v203 ]

abbrev wH : List (Ref sig .tc) :=
  [ main_v204, main_v205, main_v206, main_v207, main_call8_cst, main_call8_v0, main_v208, main_v209, main_v210, main_v211,
    main_v212 ]

-- A reference that is the result of none of the operations keeps its contents across them.
theorem after_keep {ops : List (HloOp τ sig (Elt F))} {W : List (Ref sig .tc)} {r : Ref sig .tc}
    (hW : List.Forall₂ (fun op y => op.writes = {Proc.devRef .tc y}) ops W) (hr : r ∉ W) (V : Valuation τ sig (Elt F)) :
    after ops V (Proc.devRef .tc r) = V (Proc.devRef .tc r) := by
  induction hW generalizing V with
  | nil => rfl
  | @cons op y ops W h _ ih =>
    rw [after_cons, ih (fun hm => hr (List.mem_cons_of_mem _ hm)),
      op.result_of_not_mem V (by rw [h, Finset.mem_singleton]; exact devRef_ne_of_ne fun e => hr (e ▸ List.mem_cons_self))]

theorem ropsI_keep {r : Ref sig .tc} (hr : r ∉ wI) (V : Valuation τ sig (Elt F)) :
    after ropsI V (Proc.devRef .tc r) = V (Proc.devRef .tc r) := after_keep (by repeat' constructor) hr V

theorem ropsL1_keep {r : Ref sig .tc} (hr : r ∉ wL1) (V : Valuation τ sig (Elt F)) :
    after ropsL1 V (Proc.devRef .tc r) = V (Proc.devRef .tc r) := after_keep (by repeat' constructor) hr V

theorem ropsL2_keep {r : Ref sig .tc} (hr : r ∉ wL2) (V : Valuation τ sig (Elt F)) :
    after ropsL2 V (Proc.devRef .tc r) = V (Proc.devRef .tc r) := after_keep (by repeat' constructor) hr V

theorem ropsL3_keep {r : Ref sig .tc} (hr : r ∉ wL3) (V : Valuation τ sig (Elt F)) :
    after ropsL3 V (Proc.devRef .tc r) = V (Proc.devRef .tc r) := after_keep (by repeat' constructor) hr V

theorem ropsP_keep {r : Ref sig .tc} (hr : r ∉ wP) (V : Valuation τ sig (Elt F)) :
    after ropsP V (Proc.devRef .tc r) = V (Proc.devRef .tc r) := after_keep (by repeat' constructor) hr V

theorem ropsH_keep {r : Ref sig .tc} (hr : r ∉ wH) (V : Valuation τ sig (Elt F)) :
    after ropsH V (Proc.devRef .tc r) = V (Proc.devRef .tc r) := after_keep (by repeat' constructor) hr V

theorem rops_keep {r : Ref sig .tc} (hr : r ∉ wI ++ wL1 ++ wL2 ++ wL3 ++ wP ++ wH) (V : Valuation τ sig (Elt F)) :
    after rops V (Proc.devRef .tc r) = V (Proc.devRef .tc r) := by
  simp only [List.mem_append, not_or] at hr
  obtain ⟨⟨⟨⟨⟨hI, h1⟩, h2⟩, h3⟩, hP⟩, hH⟩ := hr
  rw [after_rops, ropsH_keep hH, ropsP_keep hP, ropsL3_keep h3, ropsL2_keep h2, ropsL1_keep h1, ropsI_keep hI]

theorem args_kept (m : (ℓ : Loc nD τ sig) → Buf (Elt F) ℓ) (c : Dev nD) :
    after rops (launchContents m c) (Proc.devRef .tc main_arg0) = m ((c.tc : Thread nD τ).loc main_arg0)
    ∧ after rops (launchContents m c) (Proc.devRef .tc main_arg1) = m ((c.tc : Thread nD τ).loc main_arg1)
    ∧ after rops (launchContents m c) (Proc.devRef .tc main_arg2) = m ((c.tc : Thread nD τ).loc main_arg2)
    ∧ after rops (launchContents m c) (Proc.devRef .tc main_arg3) = m ((c.tc : Thread nD τ).loc main_arg3)
    ∧ after rops (launchContents m c) (Proc.devRef .tc main_arg4) = m ((c.tc : Thread nD τ).loc main_arg4)
    ∧ after rops (launchContents m c) (Proc.devRef .tc main_arg5) = m ((c.tc : Thread nD τ).loc main_arg5)
    ∧ after rops (launchContents m c) (Proc.devRef .tc main_arg6) = m ((c.tc : Thread nD τ).loc main_arg6)
    ∧ after rops (launchContents m c) (Proc.devRef .tc main_arg7) = m ((c.tc : Thread nD τ).loc main_arg7)
    ∧ after rops (launchContents m c) (Proc.devRef .tc main_arg8) = m ((c.tc : Thread nD τ).loc main_arg8)
    ∧ after rops (launchContents m c) (Proc.devRef .tc main_arg9) = m ((c.tc : Thread nD τ).loc main_arg9)
    ∧ after rops (launchContents m c) (Proc.devRef .tc main_arg10) = m ((c.tc : Thread nD τ).loc main_arg10)
    ∧ after rops (launchContents m c) (Proc.devRef .tc main_arg11) = m ((c.tc : Thread nD τ).loc main_arg11)
    ∧ after rops (launchContents m c) (Proc.devRef .tc main_arg12) = m ((c.tc : Thread nD τ).loc main_arg12)
    ∧ after rops (launchContents m c) (Proc.devRef .tc main_arg13) = m ((c.tc : Thread nD τ).loc main_arg13)
    ∧ after rops (launchContents m c) (Proc.devRef .tc main_arg14) = m ((c.tc : Thread nD τ).loc main_arg14)
    ∧ after rops (launchContents m c) (Proc.devRef .tc main_arg15) = m ((c.tc : Thread nD τ).loc main_arg15)
    ∧ after rops (launchContents m c) (Proc.devRef .tc main_arg16) = m ((c.tc : Thread nD τ).loc main_arg16)
    ∧ after rops (launchContents m c) (Proc.devRef .tc main_arg17) = m ((c.tc : Thread nD τ).loc main_arg17)
    ∧ after rops (launchContents m c) (Proc.devRef .tc main_arg18) = m ((c.tc : Thread nD τ).loc main_arg18) :=
  by
  repeat' apply And.intro
  all_goals exact rops_keep (by decide) _

end Cert.ReferenceIdeal.Val

end
-- ==== Proof.KCarry.lean ====
import proofs.«400876_j79998060855858_1_alg».proof.Proof.Gen.KernelIdeal.Frame

noncomputable section

namespace Cert.KernelIdeal.Val

open Cert.KernelIdeal Cert.KernelIdeal.Gen Idealize.ShloMosaic Idealize.ShloMosaic.TcCoe Idealize.ShloMosaic.Pipeline

variable {F : FTy → Type} [FloatOps F]

-- A reference that is the result of none of the operations keeps its contents across them.
theorem after_keep {ops : List (HloOp τ sig (Elt F))} {W : List (Ref sig .tc)} {r : Ref sig .tc}
    (hW : List.Forall₂ (fun op y => op.writes = {Proc.devRef .tc y}) ops W) (hr : r ∉ W) (V : Valuation τ sig (Elt F)) :
    StableHlo.after ops V (Proc.devRef .tc r) = V (Proc.devRef .tc r) := by
  induction hW generalizing V with
  | nil => rfl
  | @cons op y ops W h _ ih =>
    rw [StableHlo.after_cons, ih (fun hm => hr (List.mem_cons_of_mem _ hm)),
      op.result_of_not_mem V (by
        rw [h, Finset.mem_singleton]
        exact StableHlo.devRef_ne_of_ne fun e => hr (e ▸ List.mem_cons_self))]

section
variable {m : (ℓ : Loc nD τ sig) → Buf (Elt F) ℓ} {ρ : Dev nD → PrngReg} {c : Dev nD} {r : Ref sig .tc}

theorem keep1 (h : r ∉ ([main_v0, main_v1, main_v2, main_v3, main_v4, main_v5, main_v6, main_cst, main_v7, main_cst_0, main_v8, main_v9, main_v10, main_cst_1, main_v11, main_v12, main_cst_2, main_v13, main_v14, main_v15, main_cst_3] : List (Ref sig .tc))) :
    W1 m ρ c (Proc.devRef .tc r) = W0 m ρ c (Proc.devRef .tc r) := after_keep (by repeat' constructor) h _
theorem keep2 (h : r ∉ ([main_call0_v0, main_call0_v1, main_v16] : List (Ref sig .tc))) :
    W2 m ρ c (Proc.devRef .tc r) = W1 m ρ c (Proc.devRef .tc r) := after_keep (by repeat' constructor) h _
theorem keep3 (h : r ∉ ([main_c, main_v17, main_v18, main_c_4, main_v19, main_v20, main_v21, main_v22, main_v23, main_c_5, main_v24, main_v25, main_c_6, main_v26, main_v27, main_v28, main_v29, main_v30, main_v31] : List (Ref sig .tc))) :
    W3 m ρ c (Proc.devRef .tc r) = W2 m ρ c (Proc.devRef .tc r) := after_keep (by repeat' constructor) h _
theorem keep5 (h : r ∉ ([main_c_7, main_v33, main_v34, main_c_8, main_v35, main_v36, main_v37, main_v38, main_v39, main_v40, main_v41, main_v42, main_cst_9, main_v43, main_v44, main_v45, main_v46] : List (Ref sig .tc))) :
    W5 m ρ c (Proc.devRef .tc r) = W4 m ρ c (Proc.devRef .tc r) := after_keep (by repeat' constructor) h _
theorem keep7 (h : r ∉ ([main_cst_10, main_v48, main_v49, main_cst_11, main_v50, main_v51, main_v52, main_v53, main_v54, main_v55] : List (Ref sig .tc))) :
    W7 m ρ c (Proc.devRef .tc r) = W6 m ρ c (Proc.devRef .tc r) := after_keep (by repeat' constructor) h _
theorem keep10 (h : r ∉ ([main_c_12, main_v58, main_v59, main_c_13, main_v60, main_v61, main_v62, main_v63, main_v64, main_v65, main_v66, main_v67, main_cst_14, main_v68, main_v69, main_v70, main_v71] : List (Ref sig .tc))) :
    W10 m ρ c (Proc.devRef .tc r) = W9 m ρ c (Proc.devRef .tc r) := after_keep (by repeat' constructor) h _
theorem keep12 (h : r ∉ ([main_cst_15, main_v73, main_v74, main_cst_16, main_v75, main_v76, main_v77, main_v78, main_v79, main_v80] : List (Ref sig .tc))) :
    W12 m ρ c (Proc.devRef .tc r) = W11 m ρ c (Proc.devRef .tc r) := after_keep (by repeat' constructor) h _
theorem keep15 (h : r ∉ ([main_c_17, main_v83, main_v84, main_c_18, main_v85, main_v86, main_v87, main_v88, main_v89, main_v90, main_v91, main_v92, main_cst_19, main_v93, main_v94, main_v95, main_v96] : List (Ref sig .tc))) :
    W15 m ρ c (Proc.devRef .tc r) = W14 m ρ c (Proc.devRef .tc r) := after_keep (by repeat' constructor) h _
theorem keep17 (h : r ∉ ([main_cst_20, main_v98, main_v99, main_cst_21, main_v100, main_v101, main_v102, main_v103, main_v104, main_v105] : List (Ref sig .tc))) :
    W17 m ρ c (Proc.devRef .tc r) = W16 m ρ c (Proc.devRef .tc r) := after_keep (by repeat' constructor) h _
theorem keep19 (h : r ∉ ([main_v107] : List (Ref sig .tc))) :
    W19 m ρ c (Proc.devRef .tc r) = W18 m ρ c (Proc.devRef .tc r) := after_keep (by repeat' constructor) h _
theorem keep21 (h : r ∉ ([main_v109, main_cst_22, main_v110, main_v111, main_v112, main_v113, main_v114, main_v115] : List (Ref sig .tc))) :
    W21 m ρ c (Proc.devRef .tc r) = W20 m ρ c (Proc.devRef .tc r) := after_keep (by repeat' constructor) h _

end

variable (m : (ℓ : Loc nD τ sig) → Buf (Elt F) ℓ) (ρ : Dev nD → PrngReg)

theorem carry_arg0_3_0 (c : Dev nD) : W3 m ρ c (Proc.devRef .tc main_arg0) = m ((c : Thread nD τ).loc main_arg0) :=
  (keep3 (by decide)).trans <| (keep2 (by decide)).trans <| keep1 (by decide)
theorem carry_arg3_3_0 (c : Dev nD) : W3 m ρ c (Proc.devRef .tc main_arg3) = m ((c : Thread nD τ).loc main_arg3) :=
  (keep3 (by decide)).trans <| (keep2 (by decide)).trans <| keep1 (by decide)
theorem carry_arg4_4_0 (c : Dev nD) : W4 m ρ c (Proc.devRef .tc main_arg4) = m ((c : Thread nD τ).loc main_arg4) :=
  (W4_of_ne _ _ _ _ (by decide)).trans <| (keep3 (by decide)).trans <| (keep2 (by decide)).trans <| keep1 (by decide)
theorem carry_arg5_6_0 (c : Dev nD) : W6 m ρ c (Proc.devRef .tc main_arg5) = m ((c : Thread nD τ).loc main_arg5) :=
  (W6_of_ne _ _ _ _ (by decide)).trans <| (keep5 (by decide)).trans <| (W4_of_ne _ _ _ _ (by decide)).trans <| (keep3 (by decide)).trans <| (keep2 (by decide)).trans <| keep1 (by decide)
theorem carry_arg6_6_0 (c : Dev nD) : W6 m ρ c (Proc.devRef .tc main_arg6) = m ((c : Thread nD τ).loc main_arg6) :=
  (W6_of_ne _ _ _ _ (by decide)).trans <| (keep5 (by decide)).trans <| (W4_of_ne _ _ _ _ (by decide)).trans <| (keep3 (by decide)).trans <| (keep2 (by decide)).trans <| keep1 (by decide)
theorem carry_arg7_8_0 (c : Dev nD) : W8 m ρ c (Proc.devRef .tc main_arg7) = m ((c : Thread nD τ).loc main_arg7) :=
  (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg8_9_0 (c : Dev nD) : W9 m ρ c (Proc.devRef .tc main_arg8) = m ((c : Thread nD τ).loc main_arg8) :=
  (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg9_11_0 (c : Dev nD) : W11 m ρ c (Proc.devRef .tc main_arg9) = m ((c : Thread nD τ).loc main_arg9) :=
  (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg10_11_0 (c : Dev nD) : W11 m ρ c (Proc.devRef .tc main_arg10) = m ((c : Thread nD τ).loc main_arg10) :=
  (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg11_13_0 (c : Dev nD) : W13 m ρ c (Proc.devRef .tc main_arg11) = m ((c : Thread nD τ).loc main_arg11) :=
  (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg12_14_0 (c : Dev nD) : W14 m ρ c (Proc.devRef .tc main_arg12) = m ((c : Thread nD τ).loc main_arg12) :=
  (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg13_16_0 (c : Dev nD) : W16 m ρ c (Proc.devRef .tc main_arg13) = m ((c : Thread nD τ).loc main_arg13) :=
  (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg14_16_0 (c : Dev nD) : W16 m ρ c (Proc.devRef .tc main_arg14) = m ((c : Thread nD τ).loc main_arg14) :=
  (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg2_18_0 (c : Dev nD) : W18 m ρ c (Proc.devRef .tc main_arg2) = m ((c : Thread nD τ).loc main_arg2) :=
  (W18_of_ne _ _ _ _ (by decide)).trans <| (keep17 (by decide)).trans <| (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg16_20_0 (c : Dev nD) : W20 m ρ c (Proc.devRef .tc main_arg16) = m ((c : Thread nD τ).loc main_arg16) :=
  (W20_of_ne _ _ _ _ (by decide)).trans <| (keep19 (by decide)).trans <| (W18_of_ne _ _ _ _ (by decide)).trans <| (keep17 (by decide)).trans <| (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg18_20_0 (c : Dev nD) : W20 m ρ c (Proc.devRef .tc main_arg18) = m ((c : Thread nD τ).loc main_arg18) :=
  (W20_of_ne _ _ _ _ (by decide)).trans <| (keep19 (by decide)).trans <| (W18_of_ne _ _ _ _ (by decide)).trans <| (keep17 (by decide)).trans <| (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg15_21_0 (c : Dev nD) : W21 m ρ c (Proc.devRef .tc main_arg15) = m ((c : Thread nD τ).loc main_arg15) :=
  (keep21 (by decide)).trans <| (W20_of_ne _ _ _ _ (by decide)).trans <| (keep19 (by decide)).trans <| (W18_of_ne _ _ _ _ (by decide)).trans <| (keep17 (by decide)).trans <| (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_arg17_21_0 (c : Dev nD) : W21 m ρ c (Proc.devRef .tc main_arg17) = m ((c : Thread nD τ).loc main_arg17) :=
  (keep21 (by decide)).trans <| (W20_of_ne _ _ _ _ (by decide)).trans <| (keep19 (by decide)).trans <| (W18_of_ne _ _ _ _ (by decide)).trans <| (keep17 (by decide)).trans <| (W16_of_ne _ _ _ _ (by decide)).trans <| (keep15 (by decide)).trans <| (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| (W4_of_ne _ _ _ _ (by decide)).trans <| (keep3 (by decide)).trans <| (keep2 (by decide)).trans <| keep1 (by decide)
theorem carry_v3_4_3 (c : Dev nD) : W4 m ρ c (Proc.devRef .tc main_v3) = W3 m ρ c (Proc.devRef .tc main_v3) :=
  W4_of_ne _ _ _ _ (by decide)
theorem carry_v6_4_3 (c : Dev nD) : W4 m ρ c (Proc.devRef .tc main_v6) = W3 m ρ c (Proc.devRef .tc main_v6) :=
  W4_of_ne _ _ _ _ (by decide)
theorem carry_v31_4_3 (c : Dev nD) : W4 m ρ c (Proc.devRef .tc main_v31) = W3 m ρ c (Proc.devRef .tc main_v31) :=
  W4_of_ne _ _ _ _ (by decide)
theorem carry_v3_9_3 (c : Dev nD) : W9 m ρ c (Proc.devRef .tc main_v3) = W3 m ρ c (Proc.devRef .tc main_v3) :=
  (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v6_9_3 (c : Dev nD) : W9 m ρ c (Proc.devRef .tc main_v6) = W3 m ρ c (Proc.devRef .tc main_v6) :=
  (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v31_9_3 (c : Dev nD) : W9 m ρ c (Proc.devRef .tc main_v31) = W3 m ρ c (Proc.devRef .tc main_v31) :=
  (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v3_14_3 (c : Dev nD) : W14 m ρ c (Proc.devRef .tc main_v3) = W3 m ρ c (Proc.devRef .tc main_v3) :=
  (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v6_14_3 (c : Dev nD) : W14 m ρ c (Proc.devRef .tc main_v6) = W3 m ρ c (Proc.devRef .tc main_v6) :=
  (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v31_14_3 (c : Dev nD) : W14 m ρ c (Proc.devRef .tc main_v31) = W3 m ρ c (Proc.devRef .tc main_v31) :=
  (W14_of_ne _ _ _ _ (by decide)).trans <| (W13_of_ne _ _ _ _ (by decide)).trans <| (keep12 (by decide)).trans <| (W11_of_ne _ _ _ _ (by decide)).trans <| (keep10 (by decide)).trans <| (W9_of_ne _ _ _ _ (by decide)).trans <| (W8_of_ne _ _ _ _ (by decide)).trans <| (keep7 (by decide)).trans <| (W6_of_ne _ _ _ _ (by decide)).trans <| (keep5 (by decide)).trans <| W4_of_ne _ _ _ _ (by decide)
theorem carry_v45_7_5 (c : Dev nD) : W7 m ρ c (Proc.devRef .tc main_v45) = W5 m ρ c (Proc.devRef .tc main_v45) :=
  (keep7 (by decide)).trans <| (W6_arr m ρ c 0).trans (((dat1 (V5 m ρ) c).arrAt_in 0 rfl _).trans (A_eq1 (V5 m ρ) c 0))
theorem carry_v46_7_5 (c : Dev nD) : W7 m ρ c (Proc.devRef .tc main_v46) = W5 m ρ c (Proc.devRef .tc main_v46) :=
  (keep7 (by decide)).trans <| (W6_arr m ρ c 1).trans (((dat1 (V5 m ρ) c).arrAt_in 1 rfl _).trans (A_eq1 (V5 m ρ) c 1))
theorem carry_v70_12_10 (c : Dev nD) : W12 m ρ c (Proc.devRef .tc main_v70) = W10 m ρ c (Proc.devRef .tc main_v70) :=
  (keep12 (by decide)).trans <| (W11_arr m ρ c 0).trans (((dat4 (V10 m ρ) c).arrAt_in 0 rfl _).trans (A_eq4 (V10 m ρ) c 0))
theorem carry_v71_12_10 (c : Dev nD) : W12 m ρ c (Proc.devRef .tc main_v71) = W10 m ρ c (Proc.devRef .tc main_v71) :=
  (keep12 (by decide)).trans <| (W11_arr m ρ c 1).trans (((dat4 (V10 m ρ) c).arrAt_in 1 rfl _).trans (A_eq4 (V10 m ρ) c 1))
theorem carry_v95_17_15 (c : Dev nD) : W17 m ρ c (Proc.devRef .tc main_v95) = W15 m ρ c (Proc.devRef .tc main_v95) :=
  (keep17 (by decide)).trans <| (W16_arr m ρ c 0).trans (((dat7 (V15 m ρ) c).arrAt_in 0 rfl _).trans (A_eq7 (V15 m ρ) c 0))
theorem carry_v96_17_15 (c : Dev nD) : W17 m ρ c (Proc.devRef .tc main_v96) = W15 m ρ c (Proc.devRef .tc main_v96) :=
  (keep17 (by decide)).trans <| (W16_arr m ρ c 1).trans (((dat7 (V15 m ρ) c).arrAt_in 1 rfl _).trans (A_eq7 (V15 m ρ) c 1))
theorem carry_v106_19_18 (c : Dev nD) : W19 m ρ c (Proc.devRef .tc main_v106) = W18 m ρ c (Proc.devRef .tc main_v106) :=
  keep19 (by decide)

end Cert.KernelIdeal.Val
-- ==== Proof.KHostA.lean ====
import proofs.«400876_j79998060855858_1_alg».proof.Proof.Gen.KernelIdeal.Frame
import Idealize.ShloMosaic.Lib.StableHlo.Run
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.ShloMosaic.StableHlo

def rowK (b : FVec Ideal S128 .f32) : FVec Ideal S1x128 .f32 :=
  fun i => shapeCast S1x128 b shapeCasts_S128_S1x128 i

def meanK (s1 : FVec Ideal S1x128 .f32) : FVec Ideal S1x128 .f32 :=
  Host.divf s1 (broadcastInDim S1x128 ![] bcast_S_S1x128 (constant (F := Ideal) S_ .f32 0x47435000#32))

def varK (s1 s2 : FVec Ideal S1x128 .f32) : FVec Ideal S1x128 .f32 :=
  subf (Host.divf s2 (broadcastInDim S1x128 ![] bcast_S_S1x128 (constant (F := Ideal) S_ .f32 0x47435000#32)))
    (mulf (Host.divf s1 (broadcastInDim S1x128 ![] bcast_S_S1x128 (constant (F := Ideal) S_ .f32 0x47435000#32)))
          (Host.divf s1 (broadcastInDim S1x128 ![] bcast_S_S1x128 (constant (F := Ideal) S_ .f32 0x47435000#32))))

def wrapK (s : IVec S1650000 32) : IVec S1650000 32 :=
  select (cmpi .slt s (broadcastInDim S1650000 ![] bcast_S_S1650000 (constantI S_ 32 0#32)))
    (addi s (broadcastInDim S1650000 ![] bcast_S_S1650000 (constantI S_ 32 50000#32))) s

def propK (lin : FVec Ideal S50000x128 .f32) (src dst : IVec S1650000 32) (norm : FVec Ideal S1650000 .f32) :
    FVec Ideal S50000x128 .f32 :=
  Host.scatterAdd scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 dst)
    (mulf (Host.gather gather_S50000x128_S1650000x1_S1650000x128_1_0_n_n_0_1_1128 lin
             (broadcastInDim S1650000x1 ![0] bcast_S1650000_S1650000x1_0 (wrapK src)))
          (broadcastInDim S1650000x128 ![0, 1] bcast_S1650000x1_S1650000x128_0_1
             (broadcastInDim S1650000x1 ![0] bcast_S1650000_S1650000x1_0 norm)))

def srcK (ei : IVec S2x1600000 32) : IVec S1650000 32 :=
  concatenate S1650000 0
    [⟨S1600000, fun i => shapeCast S1600000
        (extractStridedSlice S1x1600000 ![0, 0] ei slices_S2x1600000_S1x1600000_0_0) shapeCasts_S1x1600000_S1600000 i⟩,
     ⟨S50000, iotaInDim S50000 32 0⟩] concatenates_S1600000_S50000_S1650000_d0

def dstK (ei : IVec S2x1600000 32) : IVec S1650000 32 :=
  concatenate S1650000 0
    [⟨S1600000, fun i => shapeCast S1600000
        (extractStridedSlice S1x1600000 ![1, 0] ei slices_S2x1600000_S1x1600000_1_0) shapeCasts_S1x1600000_S1600000 i⟩,
     ⟨S50000, iotaInDim S50000 32 0⟩] concatenates_S1600000_S50000_S1650000_d0

def degK (dst : IVec S1650000 32) : FVec Ideal S50000 .f32 :=
  Host.scatterAdd scatter_S50000_S1650000x1_S1650000_n_0_0_1
    (broadcastInDim S50000 ![] bcast_S_S50000 (constant (F := Ideal) S_ .f32 0x00000000#32))
    (broadcastInDim S1650000x1 ![0] bcast_S1650000_S1650000x1_0 dst)
    (broadcastInDim S1650000 ![] bcast_S_S1650000 (constant (F := Ideal) S_ .f32 0x3F800000#32))

def dinvK (dst : IVec S1650000 32) : FVec Ideal S50000 .f32 :=
  select (cmpf .ogt (degK dst) (broadcastInDim S50000 ![] bcast_S_S50000 (constant (F := Ideal) S_ .f32 0x00000000#32)))
    (Host.rsqrt (maximumf (degK dst) (broadcastInDim S50000 ![] bcast_S_S50000 (constant (F := Ideal) S_ .f32 0x3F800000#32))))
    (broadcastInDim S50000 ![] bcast_S_S50000 (constant (F := Ideal) S_ .f32 0x00000000#32))

def normK (src dst : IVec S1650000 32) : FVec Ideal S1650000 .f32 :=
  mulf (Host.gather gather_S50000_S1650000x1_S1650000_n_0_n_n_0_1_1 (dinvK dst)
          (broadcastInDim S1650000x1 ![0] bcast_S1650000_S1650000x1_0 (wrapK src)))
       (Host.gather gather_S50000_S1650000x1_S1650000_n_0_n_n_0_1_1 (dinvK dst)
          (broadcastInDim S1650000x1 ![0] bcast_S1650000_S1650000x1_0 (wrapK dst)))

-- Neither of the two later stretches writes the sources or the destinations.
theorem keep_0_1 (W : Valuation τ sig (Elt Ideal)) :
    StableHlo.after hostOps0_1 W (Proc.devRef .tc main_v3) = W (Proc.devRef .tc main_v3)
      ∧ StableHlo.after hostOps0_1 W (Proc.devRef .tc main_v6) = W (Proc.devRef .tc main_v6) := by
  constructor <;> after_results_simp

theorem keep_0_2 (W : Valuation τ sig (Elt Ideal)) :
    StableHlo.after hostOps0_2 W (Proc.devRef .tc main_v3) = W (Proc.devRef .tc main_v3)
      ∧ StableHlo.after hostOps0_2 W (Proc.devRef .tc main_v6) = W (Proc.devRef .tc main_v6) := by
  constructor <;> after_results_simp

theorem hostOps0_v3 (W : Valuation τ sig (Elt Ideal)) :
    StableHlo.after hostOps0 W (Proc.devRef .tc main_v3) = srcK (W (Proc.devRef .tc main_arg1)) := by
  after_results_simp; rfl

theorem hostOps0_v6 (W : Valuation τ sig (Elt Ideal)) :
    StableHlo.after hostOps0 W (Proc.devRef .tc main_v6) = dstK (W (Proc.devRef .tc main_arg1)) := by
  after_results_simp; rfl

theorem hostOps0_v12 (W : Valuation τ sig (Elt Ideal)) :
    StableHlo.after hostOps0 W (Proc.devRef .tc main_v12)
      = cmpf .ogt (degK (dstK (W (Proc.devRef .tc main_arg1))))
          (broadcastInDim S50000 ![] bcast_S_S50000 (constant (F := Ideal) S_ .f32 0x00000000#32)) := by
  after_results_simp; rfl

theorem hostOps0_v15 (W : Valuation τ sig (Elt Ideal)) :
    StableHlo.after hostOps0 W (Proc.devRef .tc main_v15)
      = Host.rsqrt (maximumf (degK (dstK (W (Proc.devRef .tc main_arg1))))
          (broadcastInDim S50000 ![] bcast_S_S50000 (constant (F := Ideal) S_ .f32 0x3F800000#32))) := by
  after_results_simp; rfl

theorem hostOps0_cst_3 (W : Valuation τ sig (Elt Ideal)) :
    StableHlo.after hostOps0 W (Proc.devRef .tc main_cst_3) = constant (F := Ideal) S_ .f32 0x00000000#32 := by
  after_results_simp

theorem hostOps0_1_v16 (W : Valuation τ sig (Elt Ideal)) :
    StableHlo.after hostOps0_1 W (Proc.devRef .tc main_v16)
      = select (W (Proc.devRef .tc main_v12)) (W (Proc.devRef .tc main_v15))
          (broadcastInDim S50000 ![] bcast_S_S50000 (W (Proc.devRef .tc main_cst_3))) := by
  after_results_simp <;> (try simp only [TRef.ofBuf, TRef.toBuf, cast_eq]) <;> rfl

theorem hostOps0_2_v31 (W : Valuation τ sig (Elt Ideal)) :
    StableHlo.after hostOps0_2 W (Proc.devRef .tc main_v31)
      = (mulf (Host.gather gather_S50000_S1650000x1_S1650000_n_0_n_n_0_1_1 (W (Proc.devRef .tc main_v16))
                (broadcastInDim S1650000x1 ![0] bcast_S1650000_S1650000x1_0 (wrapK (W (Proc.devRef .tc main_v3)))))
             (Host.gather gather_S50000_S1650000x1_S1650000_n_0_n_n_0_1_1 (W (Proc.devRef .tc main_v16))
                (broadcastInDim S1650000x1 ![0] bcast_S1650000_S1650000x1_0 (wrapK (W (Proc.devRef .tc main_v6)))))
          : FVec Ideal S1650000 .f32) := by
  after_results_simp; rfl

theorem first_v3 (W : Valuation τ sig (Elt Ideal)) :
    StableHlo.after hostOps0_2 (StableHlo.after hostOps0_1 (StableHlo.after hostOps0 W)) (Proc.devRef .tc main_v3)
      = srcK (W (Proc.devRef .tc main_arg1)) := by
  rw [(keep_0_2 _).1, (keep_0_1 _).1, hostOps0_v3]

theorem first_v6 (W : Valuation τ sig (Elt Ideal)) :
    StableHlo.after hostOps0_2 (StableHlo.after hostOps0_1 (StableHlo.after hostOps0 W)) (Proc.devRef .tc main_v6)
      = dstK (W (Proc.devRef .tc main_arg1)) := by
  rw [(keep_0_2 _).2, (keep_0_1 _).2, hostOps0_v6]

theorem first_v31 (W : Valuation τ sig (Elt Ideal)) :
    StableHlo.after hostOps0_2 (StableHlo.after hostOps0_1 (StableHlo.after hostOps0 W)) (Proc.devRef .tc main_v31)
      = normK (srcK (W (Proc.devRef .tc main_arg1))) (dstK (W (Proc.devRef .tc main_arg1))) := by
  rw [hostOps0_2_v31, hostOps0_1_v16, (keep_0_1 _).1, (keep_0_1 _).2,
    hostOps0_v12, hostOps0_v15, hostOps0_cst_3, hostOps0_v3, hostOps0_v6]
  rfl

section Boundary
variable (m : (ℓ : Loc nD τ sig) → Buf (Elt Ideal) ℓ) (ρ : Dev nD → PrngReg)

theorem W3_v3 (c : Dev nD) :
    W3 m ρ c (Proc.devRef .tc main_v3) = srcK (m ((c : Thread nD τ).loc main_arg1)) :=
  first_v3 (W0 m ρ c)

theorem W3_v6 (c : Dev nD) :
    W3 m ρ c (Proc.devRef .tc main_v6) = dstK (m ((c : Thread nD τ).loc main_arg1)) :=
  first_v6 (W0 m ρ c)

theorem W3_v31 (c : Dev nD) :
    W3 m ρ c (Proc.devRef .tc main_v31)
      = normK (srcK (m ((c : Thread nD τ).loc main_arg1))) (dstK (m ((c : Thread nD τ).loc main_arg1))) :=
  first_v31 (W0 m ρ c)

end Boundary

theorem hostOps1_v45 (W : Valuation τ sig (Elt Ideal)) :
    StableHlo.after hostOps1 W (Proc.devRef .tc main_v45)
      = propK (W (Proc.devRef .tc main_v32)) (W (Proc.devRef .tc main_v3)) (W (Proc.devRef .tc main_v6))
          (W (Proc.devRef .tc main_v31)) := by
  after_results_simp; rfl

theorem hostOps1_v46 (W : Valuation τ sig (Elt Ideal)) :
    StableHlo.after hostOps1 W (Proc.devRef .tc main_v46) = rowK (W (Proc.devRef .tc main_arg4)) := by
  after_results_simp; rfl

theorem hostOps2_v49 (W : Valuation τ sig (Elt Ideal)) :
    StableHlo.after hostOps2 W (Proc.devRef .tc main_v49) = meanK (W (Proc.devRef .tc main_v47_0)) := by
  after_results_simp; rfl

theorem hostOps2_v53 (W : Valuation τ sig (Elt Ideal)) :
    StableHlo.after hostOps2 W (Proc.devRef .tc main_v53)
      = varK (W (Proc.devRef .tc main_v47_0)) (W (Proc.devRef .tc main_v47_1)) := by
  after_results_simp; rfl

theorem hostOps2_v54 (W : Valuation τ sig (Elt Ideal)) :
    StableHlo.after hostOps2 W (Proc.devRef .tc main_v54) = rowK (W (Proc.devRef .tc main_arg5)) := by
  after_results_simp; rfl

theorem hostOps2_v55 (W : Valuation τ sig (Elt Ideal)) :
    StableHlo.after hostOps2 W (Proc.devRef .tc main_v55) = rowK (W (Proc.devRef .tc main_arg6)) := by
  after_results_simp; rfl

end Cert.KernelIdeal.Val
-- ==== Proof.KHostB.lean ====
import proofs.«400876_j79998060855858_1_alg».proof.Proof.Gen.KernelIdeal.Frame
import proofs.«400876_j79998060855858_1_alg».proof.Proof.KHostA
import Idealize.ShloMosaic.Lib.StableHlo.Run
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.ShloMosaic.StableHlo

theorem hostOps4_v70 (W : Valuation τ sig (Elt Ideal)) :
    StableHlo.after hostOps4 W (Proc.devRef .tc main_v70)
      = propK (W (Proc.devRef .tc main_v57)) (W (Proc.devRef .tc main_v3)) (W (Proc.devRef .tc main_v6))
          (W (Proc.devRef .tc main_v31)) := by
  after_results_simp; rfl

theorem hostOps4_v71 (W : Valuation τ sig (Elt Ideal)) :
    StableHlo.after hostOps4 W (Proc.devRef .tc main_v71) = rowK (W (Proc.devRef .tc main_arg8)) := by
  after_results_simp; rfl

theorem hostOps5_v74 (W : Valuation τ sig (Elt Ideal)) :
    StableHlo.after hostOps5 W (Proc.devRef .tc main_v74) = meanK (W (Proc.devRef .tc main_v72_0)) := by
  after_results_simp; rfl

theorem hostOps5_v78 (W : Valuation τ sig (Elt Ideal)) :
    StableHlo.after hostOps5 W (Proc.devRef .tc main_v78)
      = varK (W (Proc.devRef .tc main_v72_0)) (W (Proc.devRef .tc main_v72_1)) := by
  after_results_simp; rfl

theorem hostOps5_v79 (W : Valuation τ sig (Elt Ideal)) :
    StableHlo.after hostOps5 W (Proc.devRef .tc main_v79) = rowK (W (Proc.devRef .tc main_arg9)) := by
  after_results_simp; rfl

theorem hostOps5_v80 (W : Valuation τ sig (Elt Ideal)) :
    StableHlo.after hostOps5 W (Proc.devRef .tc main_v80) = rowK (W (Proc.devRef .tc main_arg10)) := by
  after_results_simp; rfl

theorem hostOps7_v95 (W : Valuation τ sig (Elt Ideal)) :
    StableHlo.after hostOps7 W (Proc.devRef .tc main_v95)
      = propK (W (Proc.devRef .tc main_v82)) (W (Proc.devRef .tc main_v3)) (W (Proc.devRef .tc main_v6))
          (W (Proc.devRef .tc main_v31)) := by
  after_results_simp; rfl

theorem hostOps7_v96 (W : Valuation τ sig (Elt Ideal)) :
    StableHlo.after hostOps7 W (Proc.devRef .tc main_v96) = rowK (W (Proc.devRef .tc main_arg12)) := by
  after_results_simp; rfl

theorem hostOps8_v99 (W : Valuation τ sig (Elt Ideal)) :
    StableHlo.after hostOps8 W (Proc.devRef .tc main_v99) = meanK (W (Proc.devRef .tc main_v97_0)) := by
  after_results_simp; rfl

theorem hostOps8_v103 (W : Valuation τ sig (Elt Ideal)) :
    StableHlo.after hostOps8 W (Proc.devRef .tc main_v103)
      = varK (W (Proc.devRef .tc main_v97_0)) (W (Proc.devRef .tc main_v97_1)) := by
  after_results_simp; rfl

theorem hostOps8_v104 (W : Valuation τ sig (Elt Ideal)) :
    StableHlo.after hostOps8 W (Proc.devRef .tc main_v104) = rowK (W (Proc.devRef .tc main_arg13)) := by
  after_results_simp; rfl

theorem hostOps8_v105 (W : Valuation τ sig (Elt Ideal)) :
    StableHlo.after hostOps8 W (Proc.devRef .tc main_v105) = rowK (W (Proc.devRef .tc main_arg14)) := by
  after_results_simp; rfl

end Cert.KernelIdeal.Val
-- ==== Proof.Spec.lean ====
import Idealize.ShloMosaic.PureOps.Ideal
import Idealize.ShloMosaic.Lib.ValueIdx

open scoped BigOperators

namespace Cert.GCN

open Idealize.ShloMosaic Idealize.ShloMosaic.ValueIdx

noncomputable def propM (lin : Fin 50000 → Fin 128 → EReal) (srcw dst : Fin 1650000 → BitVec 32)
    (norm : Fin 1650000 → EReal) : Fin 50000 → Fin 128 → EReal :=
  fun n j => 0 + ∑ e ∈ Finset.univ.filter (fun e : Fin 1650000 => (dst e).toInt = (n.val : Int)),
    lin ⟨min (srcw e).toInt.toNat 49999, by omega⟩ j * norm e

noncomputable def linM (h : Fin 50000 → Fin 128 → EReal) (w : Fin 128 → Fin 128 → EReal) : Fin 50000 → Fin 128 → EReal :=
  fun p q => ∑ k : Fin 128, h p k * w k q

def Fin2 {a b : Nat} (x : Fin a → Fin b → EReal) : Prop := ∀ p q, ∃ r : ℝ, x p q = (r : EReal)

def Fin1 {a : Nat} (x : Fin a → EReal) : Prop := ∀ p, ∃ r : ℝ, x p = (r : EReal)

end Cert.GCN
-- ==== Proof.LibGatherScatter.lean ====
import Idealize.ShloMosaic.PureOps.Ideal
import Idealize.ShloMosaic.Lib.ValueIdx

open scoped BigOperators

namespace Cert.Bridge.GS

open Idealize.ShloMosaic Idealize.ShloMosaic.ValueIdx

section Gather
variable {α : Type} {N E W w : Nat}

-- The row axis is collapsed (a slice of one row, its start clamped into the table); the column axis is the one offset axis.
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  refine congrArg x (funext fun a => Fin.ext ?_)
  match a with
  | ⟨1, _⟩ => show 0 + 0 + j.val = j.val; omega
  | ⟨0, _⟩ =>
    show min (idx _).toInt.toNat (N - ss 0) + 0 + 0 = _
    rw [hsl]
    exact congrArg (fun k => min (idx k).toInt.toNat (N - 1)) (eq_ix2 _)

end Gather

-- An update lands at `i` exactly when, on every axis, its start plus its window coordinate is `i`'s coordinate.
theorem resultIdx?_eq_some_iff {s si u : Shape} (d : ScatterDims s si u) {w : Nat} (j : u.Idx) (idx : IVec si w)
    (i : s.Idx) : d.resultIdx? j idx = some i ↔ ∀ a, d.start j idx a + d.window j a = ((i a).val : Int) := by
  unfold ScatterDims.resultIdx?
  split
  · next h =>
    rw [Option.some.injEq, funext_iff]
    exact forall_congr' fun a => by
      rw [Fin.ext_iff]; show (d.start j idx a + d.window j a).toNat = _ ↔ _; have := h a; omega
  · next h =>
    refine iff_of_false nofun fun hi => h fun a => ?_
    rw [hi a]; exact ⟨Int.natCast_nonneg _, Int.ofNat_lt.mpr (i a).isLt⟩

section Scatter
variable {N E W w : Nat} {φ : FTy}

-- The start on the row axis is the row number read signed (not clamped); the window is the column.
theorem resultIdx?_rows_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  obtain ⟨uw, iw, sd, ivd, wf⟩ := d
  dsimp only at huw hiw hsd hivd
  subst huw hiw hsd hivd
  have hs : ScatterDims.start ⟨[1], [0], [0], 1, wf⟩ (ix2 e j') idx 0 = (idx (ix2 e 0)).toInt := by
    unfold ScatterDims.start
    rw [dif_pos (List.mem_singleton.mpr rfl)]
    exact congrArg (fun k => (idx k).toInt) (eq_ix2 _)
  rw [resultIdx?_eq_some_iff, Fin.forall_fin_two, hs, Fin.ext_iff]
  show _ + ((0 : ℕ) : ℤ) = (n.val : ℤ) ∧ (0 : ℤ) + ((j'.val : ℕ) : ℤ) = (j.val : ℤ) ↔ _
  omega

-- An update row whose number is no row of the table lands nowhere: no range condition is needed.
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) := by
  show Ideal.hostScatterAdd d x idx upd (ix2 n j) = _
  unfold Ideal.hostScatterAdd
  congr 1
  rw [Finset.sum_filter, sum_idx2, Finset.sum_filter]
  refine Finset.sum_congr rfl fun e _ => ?_
  simp only [resultIdx?_rows_iff d huw hiw hsd hivd idx e _ n j, and_comm, ite_and, Finset.sum_ite_eq', Finset.mem_univ,
    if_true]

end Scatter

end Cert.Bridge.GS
-- ==== Proof.KHostRead.lean ====
import proofs.«400876_j79998060855858_1_alg».proof.Proof.KHostA
import proofs.«400876_j79998060855858_1_alg».proof.Proof.Spec
import proofs.«400876_j79998060855858_1_alg».proof.Proof.LibGatherScatter
import Idealize.ShloMosaic.Lib.IdealHost
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.StableHlo
open Idealize.ShloMosaic.ValueIdx
open scoped BigOperators

theorem col_apply {α : Type} (v : S1650000.Idx → α) (e : Fin 1650000) (z : Fin 1) :
    broadcastInDim S1650000x1 ![0] bcast_S1650000_S1650000x1_0 v (ix2 e z) = v (ix1 e) :=
  broadcastInDim_apply _ _ _ _ (ix1 e) (fun a => by match a with | ⟨0, _⟩ => rfl)

theorem cols_apply {α : Type} (v : S1650000x1.Idx → α) (e : Fin 1650000) (q : Fin 128) :
    broadcastInDim S1650000x128 ![0, 1] bcast_S1650000x1_S1650000x128_0_1 v (ix2 e q) = v (ix2 e 0) :=
  broadcastInDim_apply _ _ _ _ (ix2 e 0) (fun a => by match a with | ⟨0, _⟩ => rfl | ⟨1, _⟩ => rfl)

theorem gather_col_apply {α : Type} (x : S50000x128.Idx → α) (s : IVec S1650000 32) (e : Fin 1650000) (q : Fin 128) :
    Host.gather gather_S50000x128_S1650000x1_S1650000x128_1_0_n_n_0_1_1128 x
        (broadcastInDim S1650000x1 ![0] bcast_S1650000_S1650000x1_0 s) (ix2 e q)
      = x (ix2 (⟨min (s (ix1 e)).toInt.toNat 49999, by omega⟩ : Fin 50000) q) := by
  refine (Cert.Bridge.GS.gather_apply (by decide : 0 < 50000)
    gather_S50000x128_S1650000x1_S1650000x128_1_0_n_n_0_1_1128 rfl rfl rfl rfl rfl x _ e q).trans ?_
  refine congrArg x (congrArg (fun r : Fin 50000 => ix2 r q) (Fin.ext ?_))
  show min (broadcastInDim S1650000x1 ![0] bcast_S1650000_S1650000x1_0 s (ix2 e 0)).toInt.toNat (50000 - 1)
    = min (s (ix1 e)).toInt.toNat 49999
  rw [col_apply]

theorem propK_apply (lin : FVec Ideal S50000x128 .f32) (src dst : IVec S1650000 32) (norm : FVec Ideal S1650000 .f32)
    (p : Fin 50000) (q : Fin 128) :
    propK lin src dst norm (ix2 p q)
      = Cert.GCN.propM (fun p q => lin (ix2 p q)) (fun e => wrapK src (ix1 e)) (fun e => dst (ix1 e))
          (fun e => norm (ix1 e)) p q := by
  unfold propK Cert.GCN.propM
  rw [Cert.Bridge.GS.scatterAdd_apply _ rfl rfl rfl rfl, broadcastInDim_scalar_apply, constant_apply,
    Ideal.ofBits_zero_f32]
  refine congrArg (fun t => (0 : EReal) + t) (Finset.sum_congr ?_ fun e _ => ?_)
  · ext e
    simp only [Finset.mem_filter, Finset.mem_univ, true_and]
    rw [col_apply]
  · rw [mulf_apply, gather_col_apply, cols_apply, col_apply]

theorem meanK_apply (s1 : FVec Ideal S1x128 .f32) (q : Fin 128) :
    meanK s1 (ix2 0 q) = Ideal.div (s1 (ix2 0 q)) (Ideal.ofBits .f32 0x47435000#32) := by
  unfold meanK
  rw [hostDivf_apply, broadcastInDim_scalar_apply, constant_apply]

theorem varK_apply (s1 s2 : FVec Ideal S1x128 .f32) (q : Fin 128) :
    varK s1 s2 (ix2 0 q)
      = Ideal.div (s2 (ix2 0 q)) (Ideal.ofBits .f32 0x47435000#32) - meanK s1 (ix2 0 q) * meanK s1 (ix2 0 q) := by
  rw [meanK_apply]
  unfold varK
  rw [subf_apply, mulf_apply, hostDivf_apply, hostDivf_apply, broadcastInDim_scalar_apply, constant_apply]

theorem rowK_apply (v : FVec Ideal S128 .f32) (q : Fin 128) : rowK v (ix2 0 q) = v (ix1 q) := by
  unfold rowK
  exact shapeCast_apply _ _ _ (ix1 q) (by rw [Shape.rowMajor_val_one, Shape.rowMajor_val_two]; show q.val = 0 * 128 + q.val; omega)

end Cert.KernelIdeal.Val
-- ==== Proof.KAff.lean ====
import proofs.«400876_j79998060855858_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx Idealize.ShloMosaic.Pipeline

variable (V : (c : Dev nD) → (b : Ref sig .tc) → Buf (Elt Ideal) ((c : Thread nD τ).loc b))

namespace Aff

theorem hz2 : (![0, 0] : Fin 2 → Nat) = fun _ => 0 := funext fun a => by fin_cases a <;> rfl

-- a block at index zero of an array of its own shape sits at its own coordinates
theorem emb_id {S : Shape} {e : S.Idx → S.Idx} {I : Fin S.rank → ℕ}
    (he : ∀ y a, (e y a : ℕ) = I a * S.size a + y a) (hI : ∀ a, I a = 0) (y : S.Idx) : e y = y :=
  funext fun a => Fin.ext (by rw [he, hI, Nat.zero_mul, Nat.zero_add])

-- entry (r, q) of block t of 2000 rows is entry (2000 t + r, q) of the array
theorem blk_emb {e : S2000x128.Idx → S50000x128.Idx} {I : Fin 2 → ℕ} {t : ℕ}
    (he : ∀ y a, (e y a : ℕ) = I a * S2000x128.size a + y a) (hI : ∀ a, I a = ![t, 0] a) (y : S2000x128.Idx) :
    (e y 0 : ℕ) = t * 2000 + y 0 ∧ (e y 1 : ℕ) = y 1 :=
  ⟨by rw [he, hI]; rfl, by rw [he, hI]; show 0 * 128 + (y 1 : ℕ) = y 1; omega⟩

-- row r lies in block r / 2000, so the 25 blocks cover the 50000 rows
theorem rows_cover {N : ℕ} (hN : N = 25) {f : Fin N → Bool} (hf : ∀ t, f t = true) {S : Fin N → Finset S50000x128.Idx}
    {e : Fin N → S2000x128.Idx → S50000x128.Idx} (hS : ∀ t y, e t y ∈ S t)
    (he : ∀ t y, (e t y 0 : ℕ) = t * 2000 + y 0 ∧ (e t y 1 : ℕ) = y 1) (i : S50000x128.Idx) : ∃ t, f t = true ∧ i ∈ S t := by
  subst hN
  have h0 : (i 0).val < 50000 := (i 0).isLt
  have h1 : (i 1).val < 128 := (i 1).isLt
  let t : Fin 25 := ⟨i 0 / 2000, by omega⟩
  let y : S2000x128.Idx := ix2 ⟨i 0 % 2000, by omega⟩ ⟨i 1, h1⟩
  have h := he t y
  rw [show i = e t y from Shape.idx_ext₂ (by rw [h.1]; show (i 0).val = (i 0).val / 2000 * 2000 + (i 0).val % 2000; omega)
    (by rw [h.2])]
  exact ⟨t, hf t, hS t y⟩

def affLin (x b mu vr g be : EReal) : EReal :=
  (x + b - mu) * Ideal.rsqrt (vr + Ideal.ofBits .f32 0x3727C5AC#32) * g + be

-- the whole-array map: entry (p, q) from the activation there and column q of the five rows, `h` applied last
def affArr (h : EReal → EReal) (X : S50000x128.Idx → EReal) (B M Vr G Be : S1x128.Idx → EReal) : S50000x128.Idx → EReal :=
  fun i => h (affLin (X i) (B (ix2 0 (i 1 : Fin 128))) (M (ix2 0 (i 1 : Fin 128))) (Vr (ix2 0 (i 1 : Fin 128)))
    (G (ix2 0 (i 1 : Fin 128))) (Be (ix2 0 (i 1 : Fin 128))))

theorem pay8 (x0 : Vec Ideal S2000x128 .f32) (b vr mu g be : Vec Ideal S1x128 .f32) :
    k8_pay1 x0 b vr mu g be = fun j => affLin (x0 j) (b (ix2 0 (j 1 : Fin 128))) (mu (ix2 0 (j 1 : Fin 128)))
      (vr (ix2 0 (j 1 : Fin 128))) (g (ix2 0 (j 1 : Fin 128))) (be (ix2 0 (j 1 : Fin 128))) := by
  funext j
  obtain ⟨r, q, rfl⟩ : ∃ (r : Fin 2000) (q : Fin 128), j = ix2 r q := ⟨j 0, j 1, eq_ix2 j⟩
  unfold k8_pay1 affLin
  simp only [addf_apply, mulf_apply, subf_apply, broadcast_apply, shapeCast_self, broadcastTo_1b_ab_apply]
  rfl

-- regions 2 and 5 clamp the same value below at zero
theorem pay2 (x0 : Vec Ideal S2000x128 .f32) (b vr mu g be : Vec Ideal S1x128 .f32) :
    k2_pay1 x0 b vr mu g be = fun j => (max · 0) (k8_pay1 x0 b vr mu g be j) := by
  rw [← Ideal.ofBits_zero_f32]; rfl

theorem pay5 : k5_pay1 (F := Ideal) = k2_pay1 := rfl

-- a point's block of outputs is its block of the whole-array map: activations and outputs share their rows, the five rows are whole
theorem affBlk (h : EReal → EReal) (X : S50000x128.Idx → EReal) (B M Vr G Be : S1x128.Idx → EReal)
    {e0 e6 : S2000x128.Idx → S50000x128.Idx} {e1 e2 e3 e4 e5 : S1x128.Idx → S1x128.Idx} {I0 I1 I2 I3 I4 I5 I6 : Fin 2 → ℕ} {t : ℕ}
    (h0 : ∀ y a, (e0 y a : ℕ) = I0 a * S2000x128.size a + y a) (h1 : ∀ y a, (e1 y a : ℕ) = I1 a * S1x128.size a + y a)
    (h2 : ∀ y a, (e2 y a : ℕ) = I2 a * S1x128.size a + y a) (h3 : ∀ y a, (e3 y a : ℕ) = I3 a * S1x128.size a + y a)
    (h4 : ∀ y a, (e4 y a : ℕ) = I4 a * S1x128.size a + y a) (h5 : ∀ y a, (e5 y a : ℕ) = I5 a * S1x128.size a + y a)
    (h6 : ∀ y a, (e6 y a : ℕ) = I6 a * S2000x128.size a + y a)
    (hI : ∀ a, I0 a = ![t, 0] a ∧ I6 a = ![t, 0] a ∧ I1 a = 0 ∧ I2 a = 0 ∧ I3 a = 0 ∧ I4 a = 0 ∧ I5 a = 0) (j : S2000x128.Idx) :
    h (affLin (X (e0 j)) (B (e1 (ix2 0 (j 1 : Fin 128)))) (M (e2 (ix2 0 (j 1 : Fin 128)))) (Vr (e3 (ix2 0 (j 1 : Fin 128))))
      (G (e4 (ix2 0 (j 1 : Fin 128)))) (Be (e5 (ix2 0 (j 1 : Fin 128))))) = affArr h X B M Vr G Be (e6 j) := by
  have a0 := blk_emb h0 (fun a => (hI a).1) j
  have a6 := blk_emb h6 (fun a => (hI a).2.1) j
  rw [emb_id h1 fun a => (hI a).2.2.1, emb_id h2 fun a => (hI a).2.2.2.1, emb_id h3 fun a => (hI a).2.2.2.2.1,
    emb_id h4 fun a => (hI a).2.2.2.2.2.1, emb_id h5 fun a => (hI a).2.2.2.2.2.2,
    Shape.idx_ext₂ (a0.1.trans a6.1.symm) (a0.2.trans a6.2.symm), show (j 1 : Fin 128) = e6 j 1 from Fin.ext a6.2.symm]
  rfl

theorem idx2 : ∀ (t : Fin cfg2.N) (a : Fin 2), win2_0.index t a = ![t.val, 0] a ∧ win2_6.index t a = ![t.val, 0] a
    ∧ win2_1.index t a = 0 ∧ win2_2.index t a = 0 ∧ win2_3.index t a = 0 ∧ win2_4.index t a = 0 ∧ win2_5.index t a = 0 :=
  (by decide +kernel : ∀ t : Fin grid2.N, _)

abbrev X2 (c : Dev nD) : S50000x128.Idx → EReal := V c (Pipeline.arrRef spec2 0)
abbrev B2 (c : Dev nD) : S1x128.Idx → EReal := V c (Pipeline.arrRef spec2 1)
abbrev M2 (c : Dev nD) : S1x128.Idx → EReal := V c (Pipeline.arrRef spec2 2)
abbrev Vr2 (c : Dev nD) : S1x128.Idx → EReal := V c (Pipeline.arrRef spec2 3)
abbrev G2 (c : Dev nD) : S1x128.Idx → EReal := V c (Pipeline.arrRef spec2 4)
abbrev Be2 (c : Dev nD) : S1x128.Idx → EReal := V c (Pipeline.arrRef spec2 5)

theorem final2 (c : Dev nD) : (dat2 V c).arrAt 6 cfg2.N
    = affArr (max · 0) (X2 V c) (B2 V c) (M2 V c) (Vr2 V c) (G2 V c) (Be2 V c) :=
  (dat2 V c).arrAt_eq_of_cover 6 _ (fun t _ => by
    simp only [Dat.flushed, after2_6, out2_6, View.canon_unit_zero (S := S2000x128) hz2, View.ld_unit_zero (S := S2000x128) hz2,
      View.ld_unit_zero (S := S1x128) hz2, pay2, pay8]
    exact funext fun j => (affBlk (max · 0) (X2 V c) (B2 V c) (M2 V c) (Vr2 V c) (G2 V c) (Be2 V c)
      (win2_0.rect_emb_val t) (win2_1.rect_emb_val t) (win2_2.rect_emb_val t) (win2_3.rect_emb_val t)
      (win2_4.rect_emb_val t) (win2_5.rect_emb_val t) (win2_6.rect_emb_val t) (idx2 t) j))
    (rows_cover N_2 flush2_6 (fun t => ((cfg2.win 6).blk t).view.emb_mem_set)
      fun t => blk_emb (win2_6.rect_emb_val t) fun a => (idx2 t a).2.1)

theorem idx5 : ∀ (t : Fin cfg5.N) (a : Fin 2), win5_0.index t a = ![t.val, 0] a ∧ win5_6.index t a = ![t.val, 0] a
    ∧ win5_1.index t a = 0 ∧ win5_2.index t a = 0 ∧ win5_3.index t a = 0 ∧ win5_4.index t a = 0 ∧ win5_5.index t a = 0 :=
  (by decide +kernel : ∀ t : Fin grid5.N, _)

abbrev X5 (c : Dev nD) : S50000x128.Idx → EReal := V c (Pipeline.arrRef spec5 0)
abbrev B5 (c : Dev nD) : S1x128.Idx → EReal := V c (Pipeline.arrRef spec5 1)
abbrev M5 (c : Dev nD) : S1x128.Idx → EReal := V c (Pipeline.arrRef spec5 2)
abbrev Vr5 (c : Dev nD) : S1x128.Idx → EReal := V c (Pipeline.arrRef spec5 3)
abbrev G5 (c : Dev nD) : S1x128.Idx → EReal := V c (Pipeline.arrRef spec5 4)
abbrev Be5 (c : Dev nD) : S1x128.Idx → EReal := V c (Pipeline.arrRef spec5 5)

theorem final5 (c : Dev nD) : (dat5 V c).arrAt 6 cfg5.N
    = affArr (max · 0) (X5 V c) (B5 V c) (M5 V c) (Vr5 V c) (G5 V c) (Be5 V c) :=
  (dat5 V c).arrAt_eq_of_cover 6 _ (fun t _ => by
    simp only [Dat.flushed, after5_6, out5_6, View.canon_unit_zero (S := S2000x128) hz2, View.ld_unit_zero (S := S2000x128) hz2,
      View.ld_unit_zero (S := S1x128) hz2, pay5, pay2, pay8]
    exact funext fun j => (affBlk (max · 0) (X5 V c) (B5 V c) (M5 V c) (Vr5 V c) (G5 V c) (Be5 V c)
      (win5_0.rect_emb_val t) (win5_1.rect_emb_val t) (win5_2.rect_emb_val t) (win5_3.rect_emb_val t)
      (win5_4.rect_emb_val t) (win5_5.rect_emb_val t) (win5_6.rect_emb_val t) (idx5 t) j))
    (rows_cover N_5 flush5_6 (fun t => ((cfg5.win 6).blk t).view.emb_mem_set)
      fun t => blk_emb (win5_6.rect_emb_val t) fun a => (idx5 t a).2.1)

theorem idx8 : ∀ (t : Fin cfg8.N) (a : Fin 2), win8_0.index t a = ![t.val, 0] a ∧ win8_6.index t a = ![t.val, 0] a
    ∧ win8_1.index t a = 0 ∧ win8_2.index t a = 0 ∧ win8_3.index t a = 0 ∧ win8_4.index t a = 0 ∧ win8_5.index t a = 0 :=
  (by decide +kernel : ∀ t : Fin grid8.N, _)

abbrev X8 (c : Dev nD) : S50000x128.Idx → EReal := V c (Pipeline.arrRef spec8 0)
abbrev B8 (c : Dev nD) : S1x128.Idx → EReal := V c (Pipeline.arrRef spec8 1)
abbrev M8 (c : Dev nD) : S1x128.Idx → EReal := V c (Pipeline.arrRef spec8 2)
abbrev Vr8 (c : Dev nD) : S1x128.Idx → EReal := V c (Pipeline.arrRef spec8 3)
abbrev G8 (c : Dev nD) : S1x128.Idx → EReal := V c (Pipeline.arrRef spec8 4)
abbrev Be8 (c : Dev nD) : S1x128.Idx → EReal := V c (Pipeline.arrRef spec8 5)

theorem final8 (c : Dev nD) : (dat8 V c).arrAt 6 cfg8.N
    = affArr id (X8 V c) (B8 V c) (M8 V c) (Vr8 V c) (G8 V c) (Be8 V c) :=
  (dat8 V c).arrAt_eq_of_cover 6 _ (fun t _ => by
    simp only [Dat.flushed, after8_6, out8_6, View.canon_unit_zero (S := S2000x128) hz2, View.ld_unit_zero (S := S2000x128) hz2,
      View.ld_unit_zero (S := S1x128) hz2, pay8]
    exact funext fun j => (affBlk id (X8 V c) (B8 V c) (M8 V c) (Vr8 V c) (G8 V c) (Be8 V c)
      (win8_0.rect_emb_val t) (win8_1.rect_emb_val t) (win8_2.rect_emb_val t) (win8_3.rect_emb_val t)
      (win8_4.rect_emb_val t) (win8_5.rect_emb_val t) (win8_6.rect_emb_val t) (idx8 t) j))
    (rows_cover N_8 flush8_6 (fun t => ((cfg8.win 6).blk t).view.emb_mem_set)
      fun t => blk_emb (win8_6.rect_emb_val t) fun a => (idx8 t a).2.1)

end Aff

theorem aff2 (c : Dev nD) (p : Fin 50000) (q : Fin 128) :
    (dat2 V c).arrAt 6 cfg2.N (ix2 p q)
      = max ((Aff.X2 V c (ix2 p q) + Aff.B2 V c (ix2 0 q) - Aff.M2 V c (ix2 0 q))
          * Ideal.rsqrt (Aff.Vr2 V c (ix2 0 q) + Ideal.ofBits .f32 0x3727C5AC#32) * Aff.G2 V c (ix2 0 q)
        + Aff.Be2 V c (ix2 0 q)) 0 :=
  congrFun (Aff.final2 V c) (ix2 p q)

theorem aff5 (c : Dev nD) (p : Fin 50000) (q : Fin 128) :
    (dat5 V c).arrAt 6 cfg5.N (ix2 p q)
      = max ((Aff.X5 V c (ix2 p q) + Aff.B5 V c (ix2 0 q) - Aff.M5 V c (ix2 0 q))
          * Ideal.rsqrt (Aff.Vr5 V c (ix2 0 q) + Ideal.ofBits .f32 0x3727C5AC#32) * Aff.G5 V c (ix2 0 q)
        + Aff.Be5 V c (ix2 0 q)) 0 :=
  congrFun (Aff.final5 V c) (ix2 p q)

theorem aff8 (c : Dev nD) (p : Fin 50000) (q : Fin 128) :
    (dat8 V c).arrAt 6 cfg8.N (ix2 p q)
      = (Aff.X8 V c (ix2 p q) + Aff.B8 V c (ix2 0 q) - Aff.M8 V c (ix2 0 q))
          * Ideal.rsqrt (Aff.Vr8 V c (ix2 0 q) + Ideal.ofBits .f32 0x3727C5AC#32) * Aff.G8 V c (ix2 0 q)
        + Aff.Be8 V c (ix2 0 q) :=
  congrFun (Aff.final8 V c) (ix2 p q)

end Cert.KernelIdeal.Val

end
-- ==== Proof.KLin.lean ====
import proofs.«400876_j79998060855858_1_alg».proof.Proof.KAff

set_option maxRecDepth 16384

noncomputable section

namespace Cert.KernelIdeal.Val

open Cert.KernelIdeal Cert.KernelIdeal.Gen Idealize.ShloMosaic Idealize.ShloMosaic.TcCoe Idealize.ShloMosaic.ValueIdx Idealize.ShloMosaic.Pipeline Aff

namespace Lin

abbrev rowDot : DotDims S2000x128 S128x128 S2000x128 := dot_S2000x128_S128x128_S2000x128_1_0_0_1_n_n

-- the product into the zero block at an entry is the sum over the shared coordinate; a change of float format is the identity
theorem blockProd {φ₁ φ₂ : FTy} (x : FVec Ideal S2000x128 φ₁) (w : FVec Ideal S128x128 φ₂) (j : S2000x128.Idx) :
    matmul rowDot none x w (constant S2000x128 .f32 0x00000000#32) j = ∑ k : Fin 128, x (ix2 (j 0) k) * w (ix2 k (j 1)) := by
  show FloatOps.matmul rowDot none x w (constant S2000x128 .f32 0x00000000#32) j = _
  rw [Ideal.matmul_constant_zero_apply, ← Equiv.sum_comp (contrEquiv1 rowDot 128 rfl rfl).symm]
  refine Finset.sum_congr rfl fun k _ => ?_
  have hk := contrEquiv1_symm_val rowDot 128 rfl rfl k
  rw [show rowDot.lhsIdx j ((contrEquiv1 rowDot 128 rfl rfl).symm k) = ix2 (j 0) k from Shape.idx_ext₂
      (by unfold DotDims.lhsIdx
          rw [dif_neg (show ¬(0 : Fin S2000x128.rank) ∈ rowDot.lhsBatch by decide),
            dif_pos (show (0 : Fin S2000x128.rank) ∈ rowDot.lhsNonContracting by decide)]
          rfl)
      ((rowDot.lhsIdx_val_of_single (cl := 1) rfl _ _).trans hk),
    show rowDot.rhsIdx j ((contrEquiv1 rowDot 128 rfl rfl).symm k) = ix2 k (j 1) from Shape.idx_ext₂
      ((rowDot.rhsIdx_val_of_single (cr := 0) rfl _ _).trans hk)
      (by unfold DotDims.rhsIdx
          rw [dif_neg (show ¬(1 : Fin S128x128.rank) ∈ rowDot.rhsBatch by decide),
            dif_pos (show (1 : Fin S128x128.rank) ∈ rowDot.rhsNonContracting by decide)]
          rfl)]
  rfl

theorem pay0 (x0 : Vec Ideal S2000x128 .f32) (x1 : Vec Ideal S128x128 .f32) :
    k0_pay1 x0 x1 = fun j => ∑ k : Fin 128, x0 (ix2 (j 0) k) * x1 (ix2 k (j 1)) :=
  funext fun j => blockProd (truncf .bf16 x0 bitsLt_bf16_f32) (truncf .bf16 x1 bitsLt_bf16_f32) j

-- regions 3 and 6 cast the block to its own shape first
theorem pay3 (x0 : Vec Ideal S2000x128 .f32) (x1 : Vec Ideal S128x128 .f32) : k3_pay1 x0 x1 = k0_pay1 x0 x1 := by
  unfold k3_pay1 k0_pay1; rw [shapeCast_self]

theorem pay6 : k6_pay1 (F := Ideal) = k3_pay1 := rfl

def rowsTimes (X : S50000x128.Idx → EReal) (W : S128x128.Idx → EReal) : S50000x128.Idx → EReal :=
  fun i => ∑ k : Fin 128, X (ix2 (i 0) k) * W (ix2 k (i 1))

-- a point's block of products is its block of the whole product: input and output blocks share their rows, the matrix is whole
theorem linBlk (X : S50000x128.Idx → EReal) (W : S128x128.Idx → EReal) {e0 e2 : S2000x128.Idx → S50000x128.Idx}
    {e1 : S128x128.Idx → S128x128.Idx} {I0 I1 I2 : Fin 2 → ℕ} {t : ℕ}
    (h0 : ∀ y a, (e0 y a : ℕ) = I0 a * S2000x128.size a + y a) (h1 : ∀ y a, (e1 y a : ℕ) = I1 a * S128x128.size a + y a)
    (h2 : ∀ y a, (e2 y a : ℕ) = I2 a * S2000x128.size a + y a) (hI : ∀ a, I0 a = ![t, 0] a ∧ I2 a = ![t, 0] a ∧ I1 a = 0)
    (j : S2000x128.Idx) : ∑ k : Fin 128, X (e0 (ix2 (j 0) k)) * W (e1 (ix2 k (j 1))) = rowsTimes X W (e2 j) := by
  have a2 := blk_emb h2 (fun a => (hI a).2.1) j
  refine Finset.sum_congr rfl fun k _ => ?_
  have a0 := blk_emb h0 (fun a => (hI a).1) (ix2 (j 0) k)
  rw [emb_id h1 fun a => (hI a).2.2, show e0 (ix2 (j 0) k) = ix2 (e2 j 0) k from Shape.idx_ext₂ (a0.1.trans a2.1.symm) a0.2,
    show (j 1 : Fin 128) = e2 j 1 from Fin.ext a2.2.symm]
  rfl

-- a rectangle of a whole array, read, is the array at the rectangle's own indices
theorem read_rect {κ : Kind} {Val : EltTy → Type} (b : Ref sig κ) (r : Rect b.ty.shape) (f : b.ty.Contents Val) :
    ((View.whole b).slice r).read Val f = fun y => f (r.emb y) := rfl

end Lin

open Lin

variable (V : (c : Dev nD) → (b : Ref sig .tc) → Buf (Elt Ideal) ((c : Thread nD τ).loc b))

theorem Lin.idx0 : ∀ (t : Fin cfg0.N) (a : Fin 2), win0_0.index t a = ![t.val, 0] a ∧ win0_2.index t a = ![t.val, 0] a
    ∧ win0_1.index t a = 0 :=
  (by decide +kernel : ∀ t : Fin grid0.N, _)

abbrev inp0 (c : Dev nD) : S50000x128.Idx → EReal := V c (Pipeline.arrRef spec0 0)
abbrev mat0 (c : Dev nD) : S128x128.Idx → EReal := V c (Pipeline.arrRef spec0 1)

theorem lin0_apply (c : Dev nD) (p : Fin 50000) (q : Fin 128) :
    ((dat0 V c).arrAt 2 cfg0.N : S50000x128.Idx → EReal) (ix2 p q)
      = ∑ k : Fin 128, inp0 V c (ix2 p k) * mat0 V c (ix2 k q) :=
  congrFun ((dat0 V c).arrAt_eq_of_cover 2 (rowsTimes (inp0 V c) (mat0 V c)) (fun t _ => by
    simp only [Dat.flushed, after0_2, out0_2, View.canon_unit_zero (S := S2000x128) hz2, View.ld_unit_zero (S := S2000x128) hz2,
      View.ld_unit_zero (S := S128x128) hz2, pay0, iblk0, read_rect]
    exact funext fun j => linBlk (inp0 V c) (mat0 V c) (win0_0.rect_emb_val t) (win0_1.rect_emb_val t)
      (win0_2.rect_emb_val t) (idx0 t) j)
    (rows_cover N_0 flush0_2 (fun t => ((cfg0.win 2).blk t).view.emb_mem_set)
      fun t => blk_emb (win0_2.rect_emb_val t) fun a => (idx0 t a).2.1)) (ix2 p q)

theorem Lin.idx3 : ∀ (t : Fin cfg3.N) (a : Fin 2), win3_0.index t a = ![t.val, 0] a ∧ win3_2.index t a = ![t.val, 0] a
    ∧ win3_1.index t a = 0 :=
  (by decide +kernel : ∀ t : Fin grid3.N, _)

abbrev inp3 (c : Dev nD) : S50000x128.Idx → EReal := V c (Pipeline.arrRef spec3 0)
abbrev mat3 (c : Dev nD) : S128x128.Idx → EReal := V c (Pipeline.arrRef spec3 1)

theorem lin3_apply (c : Dev nD) (p : Fin 50000) (q : Fin 128) :
    ((dat3 V c).arrAt 2 cfg3.N : S50000x128.Idx → EReal) (ix2 p q)
      = ∑ k : Fin 128, inp3 V c (ix2 p k) * mat3 V c (ix2 k q) :=
  congrFun ((dat3 V c).arrAt_eq_of_cover 2 (rowsTimes (inp3 V c) (mat3 V c)) (fun t _ => by
    simp only [Dat.flushed, after3_2, out3_2, View.canon_unit_zero (S := S2000x128) hz2, View.ld_unit_zero (S := S2000x128) hz2,
      View.ld_unit_zero (S := S128x128) hz2, pay3, pay0, iblk3, read_rect]
    exact funext fun j => linBlk (inp3 V c) (mat3 V c) (win3_0.rect_emb_val t) (win3_1.rect_emb_val t)
      (win3_2.rect_emb_val t) (idx3 t) j)
    (rows_cover N_3 flush3_2 (fun t => ((cfg3.win 2).blk t).view.emb_mem_set)
      fun t => blk_emb (win3_2.rect_emb_val t) fun a => (idx3 t a).2.1)) (ix2 p q)

theorem Lin.idx6 : ∀ (t : Fin cfg6.N) (a : Fin 2), win6_0.index t a = ![t.val, 0] a ∧ win6_2.index t a = ![t.val, 0] a
    ∧ win6_1.index t a = 0 :=
  (by decide +kernel : ∀ t : Fin grid6.N, _)

abbrev inp6 (c : Dev nD) : S50000x128.Idx → EReal := V c (Pipeline.arrRef spec6 0)
abbrev mat6 (c : Dev nD) : S128x128.Idx → EReal := V c (Pipeline.arrRef spec6 1)

theorem lin6_apply (c : Dev nD) (p : Fin 50000) (q : Fin 128) :
    ((dat6 V c).arrAt 2 cfg6.N : S50000x128.Idx → EReal) (ix2 p q)
      = ∑ k : Fin 128, inp6 V c (ix2 p k) * mat6 V c (ix2 k q) :=
  congrFun ((dat6 V c).arrAt_eq_of_cover 2 (rowsTimes (inp6 V c) (mat6 V c)) (fun t _ => by
    simp only [Dat.flushed, after6_2, out6_2, View.canon_unit_zero (S := S2000x128) hz2, View.ld_unit_zero (S := S2000x128) hz2,
      View.ld_unit_zero (S := S128x128) hz2, pay6, pay3, pay0, iblk6, read_rect]
    exact funext fun j => linBlk (inp6 V c) (mat6 V c) (win6_0.rect_emb_val t) (win6_1.rect_emb_val t)
      (win6_2.rect_emb_val t) (idx6 t) j)
    (rows_cover N_6 flush6_2 (fun t => ((cfg6.win 2).blk t).view.emb_mem_set)
      fun t => blk_emb (win6_2.rect_emb_val t) fun a => (idx6 t a).2.1)) (ix2 p q)

end Cert.KernelIdeal.Val

end
-- ==== Proof.KStats.lean ====
import proofs.«400876_j79998060855858_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import Mathlib.Algebra.BigOperators.Fin
import Mathlib.Algebra.BigOperators.Group.Finset.Basic

noncomputable section

namespace Cert.KernelIdeal.Val

open Cert.KernelIdeal Cert.KernelIdeal.Gen Idealize.ShloMosaic Idealize.ShloMosaic.TcCoe Idealize.ShloMosaic.ValueIdx Idealize.ShloMosaic.Pipeline
open Idealize.SL.Sem

theorem hz2 : (![0, 0] : Fin 2 → Nat) = fun _ => 0 := funext fun a => by fin_cases a <;> rfl

theorem lift_col (q : Fin 128) (r : Fin 2000) : reduces_S2000x128_S128.lift (ix1 q) r = ix2 r q :=
  Shape.idx_ext₂ rfl rfl

/-- An accumulator plus the column sums of a [2000,128] block, read at column q. -/
theorem colacc (v : Vec Ideal S2000x128 .f32) (acc : Vec Ideal S1x128 .f32) (q : Fin 128) :
    addf (F := Ideal) acc (shapeCast S1x128 (multiReduction .add [0] S128 v 0x00000000#32 reduces_S2000x128_S128 (.inl rfl) rfl) shapeCasts_S128_S1x128) (ix2 (0 : Fin 1) q)
      = acc (ix2 (0 : Fin 1) q) + ∑ r : Fin 2000, v (ix2 r q) := by
  show acc _ + shapeCast S1x128 _ shapeCasts_S128_S1x128 _ = _
  rw [shapeCast_a_1a_apply]
  exact congrArg (acc _ + ·) ((Ideal.multiReduction_add_single v 0x00000000#32 reduces_S2000x128_S128 (.inl rfl) rfl (ix1 q)).trans
    (Finset.sum_congr rfl fun r _ => congrArg v (lift_col q r)))

theorem xv_apply (x : Vec Ideal S2000x128 .f32) (b : Vec Ideal S1x128 .f32) (r : Fin 2000) (q : Fin 128) :
    k1_pay3 (F := Ideal) x b (ix2 r q) = x (ix2 r q) + b (ix2 (0 : Fin 1) q) := by
  unfold k1_pay3
  rw [shapeCast_self, shapeCast_self]
  show x (ix2 r q) + broadcastTo S2000x128 b broadcasts_S1x128_S2000x128 (ix2 r q) = _
  rw [broadcastTo_1b_ab_apply]

theorem colsum_apply (x : Vec Ideal S2000x128 .f32) (b acc : Vec Ideal S1x128 .f32) (q : Fin 128) :
    k1_pay4 (F := Ideal) x b acc (ix2 (0 : Fin 1) q)
      = acc (ix2 (0 : Fin 1) q) + ∑ r : Fin 2000, (x (ix2 r q) + b (ix2 (0 : Fin 1) q)) := by
  unfold k1_pay4
  rw [shapeCast_self]
  exact (colacc _ acc q).trans (congrArg _ (Finset.sum_congr rfl fun r _ => xv_apply x b r q))

theorem colsq_apply (x : Vec Ideal S2000x128 .f32) (b acc : Vec Ideal S1x128 .f32) (q : Fin 128) :
    k1_pay5 (F := Ideal) x b acc (ix2 (0 : Fin 1) q)
      = acc (ix2 (0 : Fin 1) q) + ∑ r : Fin 2000, (x (ix2 r q) + b (ix2 (0 : Fin 1) q)) * (x (ix2 r q) + b (ix2 (0 : Fin 1) q)) := by
  unfold k1_pay5
  rw [shapeCast_self]
  exact (colacc _ acc q).trans (congrArg _ (Finset.sum_congr rfl fun r _ => congrArg₂ (· * ·) (xv_apply x b r q) (xv_apply x b r q)))

theorem zero_apply (j : S1x128.Idx) : k1_pay1 (F := Ideal) j = 0 := Ideal.ofBits_zero_f32

section Fold
variable {N : ℕ} (xb : Fin N → Vec Ideal S2000x128 .f32) (bb : Fin N → Vec Ideal S1x128 .f32)
  (X : Vec Ideal S50000x128 .f32) (B : Vec Ideal S1x128 .f32)
  (hx : ∀ t r q h, xb t (ix2 r q) = X (ix2 ⟨t.val * 2000 + r.val, h⟩ q))
  (hb : ∀ t q, bb t (ix2 (0 : Fin 1) q) = B (ix2 (0 : Fin 1) q))
include hx hb

/-- Sums over 25 consecutive blocks of 2000 rows, added up from zero, are one sum over the 50000 rows: only associativity of + and 0 + a = a are used. -/
theorem fold_rows (hN : N = 25) (g : EReal → EReal)
    (P : Vec Ideal S2000x128 .f32 → Vec Ideal S1x128 .f32 → Vec Ideal S1x128 .f32 → Vec Ideal S1x128 .f32)
    (hP : ∀ x b acc q, P x b acc (ix2 (0 : Fin 1) q) = acc (ix2 (0 : Fin 1) q) + ∑ r : Fin 2000, g (x (ix2 r q) + b (ix2 (0 : Fin 1) q)))
    (z : Vec Ideal S1x128 .f32) (hz : ∀ j, z j = 0) (a : (n : ℕ) → n < N → Vec Ideal S1x128 .f32)
    (h0 : ∀ h, a 0 h = P (xb ⟨0, h⟩) (bb ⟨0, h⟩) z)
    (hs : ∀ n h, a (n + 1) h = P (xb ⟨n + 1, h⟩) (bb ⟨n + 1, h⟩) (a n (Nat.lt_of_succ_lt h)))
    (q : Fin 128) (h : 24 < N) :
    a 24 h (ix2 (0 : Fin 1) q) = ∑ r : Fin 50000, g (X (ix2 r q) + B (ix2 (0 : Fin 1) q)) := by
  let f : ℕ → EReal := fun s => if h : s < 50000 then g (X (ix2 ⟨s, h⟩ q) + B (ix2 (0 : Fin 1) q)) else 0
  have blk : ∀ (t : Fin N) acc, P (xb t) (bb t) acc (ix2 (0 : Fin 1) q) = acc (ix2 (0 : Fin 1) q) + ∑ s ∈ Finset.range 2000, f (t.val * 2000 + s) := fun t acc => by
    rw [hP, Finset.sum_range fun s => f (t.val * 2000 + s)]
    refine congrArg _ (Finset.sum_congr rfl fun r _ => ?_)
    have hr : t.val * 2000 + r.val < 50000 := by have := r.isLt; have := t.isLt; omega
    rw [show f (t.val * 2000 + r.val) = _ from dif_pos hr, hx t r q hr, hb]
  have acc : ∀ n h, a n h (ix2 (0 : Fin 1) q) = ∑ s ∈ Finset.range ((n + 1) * 2000), f s := by
    intro n
    induction n with
    | zero => intro h; rw [h0, blk, hz, zero_add]; simp only [Nat.zero_mul, Nat.zero_add, Nat.one_mul]
    | succ n ih => intro h; rw [hs, blk, ih, Nat.succ_mul (n + 1), Finset.sum_range_add]
  rw [acc, Finset.sum_range f]
  exact Finset.sum_congr rfl fun r _ => dif_pos r.isLt

/-- A pass that starts both accumulators at zero and adds every block's column sums of x + bias and of its square ends with the two sums over all rows. -/
theorem stats_of (hN : N = 25) (o : (n : ℕ) → n < N → Vec Ideal S1x128 .f32 × Vec Ideal S1x128 .f32)
    (h0 : ∀ h, o 0 h = (k1_pay4 (xb ⟨0, h⟩) (bb ⟨0, h⟩) (k1_pay1 (F := Ideal)), k1_pay5 (xb ⟨0, h⟩) (bb ⟨0, h⟩) (k1_pay2 (F := Ideal))))
    (hs : ∀ n h, o (n + 1) h = (k1_pay4 (xb ⟨n + 1, h⟩) (bb ⟨n + 1, h⟩) (o n (Nat.lt_of_succ_lt h)).1,
      k1_pay5 (xb ⟨n + 1, h⟩) (bb ⟨n + 1, h⟩) (o n (Nat.lt_of_succ_lt h)).2))
    (h : 24 < N) {A2 A3 : Vec Ideal S1x128 .f32} (hA : A2 = (o 24 h).1 ∧ A3 = (o 24 h).2) (q : Fin 128) :
    A2 (ix2 (0 : Fin 1) q) = ∑ r : Fin 50000, (X (ix2 r q) + B (ix2 (0 : Fin 1) q))
    ∧ A3 (ix2 (0 : Fin 1) q) = ∑ r : Fin 50000, (X (ix2 r q) + B (ix2 (0 : Fin 1) q)) * (X (ix2 r q) + B (ix2 (0 : Fin 1) q)) := by
  obtain ⟨rfl, rfl⟩ := hA
  exact ⟨fold_rows xb bb X B hx hb hN (fun a => a) k1_pay4 colsum_apply (k1_pay1 (F := Ideal)) zero_apply (fun n h => (o n h).1)
      (fun h => congrArg Prod.fst (h0 h)) (fun n h => congrArg Prod.fst (hs n h)) q h,
    fold_rows xb bb X B hx hb hN (fun a => a * a) k1_pay5 colsq_apply (k1_pay2 (F := Ideal)) zero_apply (fun n h => (o n h).2)
      (fun h => congrArg Prod.snd (h0 h)) (fun n h => congrArg Prod.snd (hs n h)) q h⟩
end Fold

/-- An array written only at the last of 25 steps, and there everywhere, ends holding what was written. -/
theorem arrAt_last {cfg : Pipeline.Cfg sig Λ₀} {c : Dev nD} (dat : Dat τ (Elt Ideal) Unit ℕ (UR sig nD τ) ℕ cfg c) (w : Fin cfg.W)
    (hN : cfg.N = 25) (hf : ∀ t : Fin cfg.N, (cfg.win w).flush t = true ↔ t.val % 25 = 24) (T : Fin cfg.N) (hT : T.val = 24)
    (G : Buf (Elt Ideal) ((cfg.win w).arr.view.loc (c.tc : Thread nD τ)))
    (hG : dat.flushed w T = ((cfg.win w).blk T).view.read (Elt Ideal) G) (hc : ∀ i, i ∈ ((cfg.win w).blk T).view.set) :
    dat.arrAt w cfg.N = G :=
  dat.arrAt_eq_of_cover w G (fun t h => by
    obtain rfl : t = T := Fin.ext (by have := (hf t).mp h; have := t.isLt; omega)
    exact hG) fun i => ⟨T, (hf T).mpr (by omega), hc i⟩

section Regions
variable (V : (c : Dev nD) → (b : Ref sig .tc) → Buf (Elt Ideal) ((c : Thread nD τ).loc b))

abbrev X1 (c : Dev nD) : Vec Ideal S50000x128 .f32 := V c (Pipeline.arrRef spec1 0)
abbrev B1 (c : Dev nD) : Vec Ideal S1x128 .f32 := V c (Pipeline.arrRef spec1 1)

/-- Row r of block t of x is row 2000 t + r of x, and the bias block is the bias. -/
theorem blk1 (c : Dev nD) (t : Fin cfg1.N) :
    (∀ r q h, iblk1 V c 0 t (ix2 r q) = X1 V c (ix2 ⟨t.val * 2000 + r.val, h⟩ q))
    ∧ ∀ q, iblk1 V c 1 t (ix2 (0 : Fin 1) q) = B1 V c (ix2 (0 : Fin 1) q) := by
  obtain ⟨e0, e1, e2, e3⟩ := (by decide +kernel : ∀ t : Fin grid1.N, win1_0.index t 0 = t.val ∧ win1_0.index t 1 = 0
    ∧ win1_1.index t 0 = 0 ∧ win1_1.index t 1 = 0) t
  refine ⟨fun r q h => congrArg (X1 V c) (Shape.idx_ext₂ ?_ ?_), fun q => congrArg (B1 V c) (Shape.idx_ext₂ ?_ ?_)⟩
  · show win1_0.index t 0 * 2000 + 1 * r.val = t.val * 2000 + r.val; omega
  · show win1_0.index t 1 * 128 + 1 * q.val = q.val; omega
  · show win1_1.index t 0 * 1 + 1 * 0 = 0; omega
  · show win1_1.index t 1 * 128 + 1 * q.val = q.val; omega

/-- The first step leaves zero plus its block's column sums, every later step what the step before left plus its own. -/
theorem step1 (c : Dev nD) :
    (∀ h, outsAt1 V c 0 h = (k1_pay4 (iblk1 V c 0 ⟨0, h⟩) (iblk1 V c 1 ⟨0, h⟩) (k1_pay1 (F := Ideal)),
      k1_pay5 (iblk1 V c 0 ⟨0, h⟩) (iblk1 V c 1 ⟨0, h⟩) (k1_pay2 (F := Ideal))))
    ∧ ∀ n h, outsAt1 V c (n + 1) h = (k1_pay4 (iblk1 V c 0 ⟨n + 1, h⟩) (iblk1 V c 1 ⟨n + 1, h⟩) (outsAt1 V c n (Nat.lt_of_succ_lt h)).1,
      k1_pay5 (iblk1 V c 0 ⟨n + 1, h⟩) (iblk1 V c 1 ⟨n + 1, h⟩) (outsAt1 V c n (Nat.lt_of_succ_lt h)).2) := by
  refine ⟨fun h => ?_, fun n h => ?_⟩
  · rw [outsAt1_A V c ⟨0, h⟩ rfl, out1_A_2, out1_A_3, View.read_writes_eq_canon _ _ _ (cover1_A_2 _ _ _ _ _ _ _ _ _ _ _ _ _),
      View.read_writes_eq_canon _ _ _ (cover1_A_3 _ _ _ _ _ _ _ _ _ _ _ _ _)]
    unfold kernelRun1_A
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
  · rw [outsAt1_B V c ⟨n + 1, h⟩ (by have := lt_of_lt_of_eq h N_1; show ¬(n + 1) % 25 = 0; omega), out1_B_2, out1_B_3,
      View.read_writes_eq_canon _ _ _ (cover1_B_2 _ _ _ _ _ _ _ _ _ _ _ _ _ _ _),
      View.read_writes_eq_canon _ _ _ (cover1_B_3 _ _ _ _ _ _ _ _ _ _ _ _ _ _ _)]
    unfold kernelRun1_B
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
    rfl

abbrev last1 : Fin cfg1.N := ⟨24, by decide⟩

/-- Both results end as the accumulators after the last step, whose block is the whole [1,128] array. -/
theorem final1 (c : Dev nD) : (dat1 V c).arrAt 2 cfg1.N = (outsAt1 V c 24 last1.isLt).1
    ∧ (dat1 V c).arrAt 3 cfg1.N = (outsAt1 V c 24 last1.isLt).2 := by
  have z2 : (fun a => win1_2.index last1 a * main_v47_0.ty.shape.size a) = fun _ => 0 := funext (by decide)
  have z3 : (fun a => win1_3.index last1 a * main_v47_1.ty.shape.size a) = fun _ => 0 := funext (by decide)
  exact ⟨arrAt_last (dat1 V c) 2 N_1 flush1_2 last1 rfl _
      ((after1_2 V c _).trans (Memref.read_access_unit_zero (Elt Ideal) main_v47_0 z2 _ _).symm) fun i => by
        show i ∈ ((View.whole main_v47_0).slice (win1_2.rect last1)).set
        rw [View.set_slice_whole]; exact View.mem_set_unit_zero z2 _ i,
    arrAt_last (dat1 V c) 3 N_1 flush1_3 last1 rfl _
      ((after1_3 V c _).trans (Memref.read_access_unit_zero (Elt Ideal) main_v47_1 z3 _ _).symm) fun i => by
        show i ∈ ((View.whole main_v47_1).slice (win1_3.rect last1)).set
        rw [View.set_slice_whole]; exact View.mem_set_unit_zero z3 _ i⟩

theorem stats1_sum (c : Dev nD) : ∀ q : Fin 128, (dat1 V c).arrAt 2 cfg1.N (ix2 (0 : Fin 1) q)
    = ∑ r : Fin 50000, (X1 V c (ix2 r q) + B1 V c (ix2 (0 : Fin 1) q)) := fun q =>
  (stats_of _ _ _ _ (fun t => (blk1 V c t).1) (fun t => (blk1 V c t).2) N_1 _ (step1 V c).1 (step1 V c).2 _ (final1 V c) q).1

theorem stats1_sq (c : Dev nD) : ∀ q : Fin 128, (dat1 V c).arrAt 3 cfg1.N (ix2 (0 : Fin 1) q)
    = ∑ r : Fin 50000, (X1 V c (ix2 r q) + B1 V c (ix2 (0 : Fin 1) q)) * (X1 V c (ix2 r q) + B1 V c (ix2 (0 : Fin 1) q)) := fun q =>
  (stats_of _ _ _ _ (fun t => (blk1 V c t).1) (fun t => (blk1 V c t).2) N_1 _ (step1 V c).1 (step1 V c).2 _ (final1 V c) q).2

abbrev X4 (c : Dev nD) : Vec Ideal S50000x128 .f32 := V c (Pipeline.arrRef spec4 0)
abbrev B4 (c : Dev nD) : Vec Ideal S1x128 .f32 := V c (Pipeline.arrRef spec4 1)

theorem blk4 (c : Dev nD) (t : Fin cfg4.N) :
    (∀ r q h, iblk4 V c 0 t (ix2 r q) = X4 V c (ix2 ⟨t.val * 2000 + r.val, h⟩ q))
    ∧ ∀ q, iblk4 V c 1 t (ix2 (0 : Fin 1) q) = B4 V c (ix2 (0 : Fin 1) q) := by
  obtain ⟨e0, e1, e2, e3⟩ := (by decide +kernel : ∀ t : Fin grid4.N, win4_0.index t 0 = t.val ∧ win4_0.index t 1 = 0
    ∧ win4_1.index t 0 = 0 ∧ win4_1.index t 1 = 0) t
  refine ⟨fun r q h => congrArg (X4 V c) (Shape.idx_ext₂ ?_ ?_), fun q => congrArg (B4 V c) (Shape.idx_ext₂ ?_ ?_)⟩
  · show win4_0.index t 0 * 2000 + 1 * r.val = t.val * 2000 + r.val; omega
  · show win4_0.index t 1 * 128 + 1 * q.val = q.val; omega
  · show win4_1.index t 0 * 1 + 1 * 0 = 0; omega
  · show win4_1.index t 1 * 128 + 1 * q.val = q.val; omega

theorem step4 (c : Dev nD) :
    (∀ h, outsAt4 V c 0 h = (k4_pay4 (iblk4 V c 0 ⟨0, h⟩) (iblk4 V c 1 ⟨0, h⟩) (k4_pay1 (F := Ideal)),
      k4_pay5 (iblk4 V c 0 ⟨0, h⟩) (iblk4 V c 1 ⟨0, h⟩) (k4_pay2 (F := Ideal))))
    ∧ ∀ n h, outsAt4 V c (n + 1) h = (k4_pay4 (iblk4 V c 0 ⟨n + 1, h⟩) (iblk4 V c 1 ⟨n + 1, h⟩) (outsAt4 V c n (Nat.lt_of_succ_lt h)).1,
      k4_pay5 (iblk4 V c 0 ⟨n + 1, h⟩) (iblk4 V c 1 ⟨n + 1, h⟩) (outsAt4 V c n (Nat.lt_of_succ_lt h)).2) := by
  refine ⟨fun h => ?_, fun n h => ?_⟩
  · rw [outsAt4_A V c ⟨0, h⟩ rfl, out4_A_2, out4_A_3, View.read_writes_eq_canon _ _ _ (cover4_A_2 _ _ _ _ _ _ _ _ _ _ _ _ _),
      View.read_writes_eq_canon _ _ _ (cover4_A_3 _ _ _ _ _ _ _ _ _ _ _ _ _)]
    unfold kernelRun4_A
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
  · rw [outsAt4_B V c ⟨n + 1, h⟩ (by have := lt_of_lt_of_eq h N_4; show ¬(n + 1) % 25 = 0; omega), out4_B_2, out4_B_3,
      View.read_writes_eq_canon _ _ _ (cover4_B_2 _ _ _ _ _ _ _ _ _ _ _ _ _ _ _),
      View.read_writes_eq_canon _ _ _ (cover4_B_3 _ _ _ _ _ _ _ _ _ _ _ _ _ _ _)]
    unfold kernelRun4_B
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
    rfl

abbrev last4 : Fin cfg4.N := ⟨24, by decide⟩

theorem final4 (c : Dev nD) : (dat4 V c).arrAt 2 cfg4.N = (outsAt4 V c 24 last4.isLt).1
    ∧ (dat4 V c).arrAt 3 cfg4.N = (outsAt4 V c 24 last4.isLt).2 := by
  have z2 : (fun a => win4_2.index last4 a * main_v72_0.ty.shape.size a) = fun _ => 0 := funext (by decide)
  have z3 : (fun a => win4_3.index last4 a * main_v72_1.ty.shape.size a) = fun _ => 0 := funext (by decide)
  exact ⟨arrAt_last (dat4 V c) 2 N_4 flush4_2 last4 rfl _
      ((after4_2 V c _).trans (Memref.read_access_unit_zero (Elt Ideal) main_v72_0 z2 _ _).symm) fun i => by
        show i ∈ ((View.whole main_v72_0).slice (win4_2.rect last4)).set
        rw [View.set_slice_whole]; exact View.mem_set_unit_zero z2 _ i,
    arrAt_last (dat4 V c) 3 N_4 flush4_3 last4 rfl _
      ((after4_3 V c _).trans (Memref.read_access_unit_zero (Elt Ideal) main_v72_1 z3 _ _).symm) fun i => by
        show i ∈ ((View.whole main_v72_1).slice (win4_3.rect last4)).set
        rw [View.set_slice_whole]; exact View.mem_set_unit_zero z3 _ i⟩

theorem stats4_sum (c : Dev nD) : ∀ q : Fin 128, (dat4 V c).arrAt 2 cfg4.N (ix2 (0 : Fin 1) q)
    = ∑ r : Fin 50000, (X4 V c (ix2 r q) + B4 V c (ix2 (0 : Fin 1) q)) := fun q =>
  (stats_of _ _ _ _ (fun t => (blk4 V c t).1) (fun t => (blk4 V c t).2) N_4 _ (step4 V c).1 (step4 V c).2 _ (final4 V c) q).1

theorem stats4_sq (c : Dev nD) : ∀ q : Fin 128, (dat4 V c).arrAt 3 cfg4.N (ix2 (0 : Fin 1) q)
    = ∑ r : Fin 50000, (X4 V c (ix2 r q) + B4 V c (ix2 (0 : Fin 1) q)) * (X4 V c (ix2 r q) + B4 V c (ix2 (0 : Fin 1) q)) := fun q =>
  (stats_of _ _ _ _ (fun t => (blk4 V c t).1) (fun t => (blk4 V c t).2) N_4 _ (step4 V c).1 (step4 V c).2 _ (final4 V c) q).2

abbrev X7 (c : Dev nD) : Vec Ideal S50000x128 .f32 := V c (Pipeline.arrRef spec7 0)
abbrev B7 (c : Dev nD) : Vec Ideal S1x128 .f32 := V c (Pipeline.arrRef spec7 1)

theorem blk7 (c : Dev nD) (t : Fin cfg7.N) :
    (∀ r q h, iblk7 V c 0 t (ix2 r q) = X7 V c (ix2 ⟨t.val * 2000 + r.val, h⟩ q))
    ∧ ∀ q, iblk7 V c 1 t (ix2 (0 : Fin 1) q) = B7 V c (ix2 (0 : Fin 1) q) := by
  obtain ⟨e0, e1, e2, e3⟩ := (by decide +kernel : ∀ t : Fin grid7.N, win7_0.index t 0 = t.val ∧ win7_0.index t 1 = 0
    ∧ win7_1.index t 0 = 0 ∧ win7_1.index t 1 = 0) t
  refine ⟨fun r q h => congrArg (X7 V c) (Shape.idx_ext₂ ?_ ?_), fun q => congrArg (B7 V c) (Shape.idx_ext₂ ?_ ?_)⟩
  · show win7_0.index t 0 * 2000 + 1 * r.val = t.val * 2000 + r.val; omega
  · show win7_0.index t 1 * 128 + 1 * q.val = q.val; omega
  · show win7_1.index t 0 * 1 + 1 * 0 = 0; omega
  · show win7_1.index t 1 * 128 + 1 * q.val = q.val; omega

theorem step7 (c : Dev nD) :
    (∀ h, outsAt7 V c 0 h = (k7_pay4 (iblk7 V c 0 ⟨0, h⟩) (iblk7 V c 1 ⟨0, h⟩) (k7_pay1 (F := Ideal)),
      k7_pay5 (iblk7 V c 0 ⟨0, h⟩) (iblk7 V c 1 ⟨0, h⟩) (k7_pay2 (F := Ideal))))
    ∧ ∀ n h, outsAt7 V c (n + 1) h = (k7_pay4 (iblk7 V c 0 ⟨n + 1, h⟩) (iblk7 V c 1 ⟨n + 1, h⟩) (outsAt7 V c n (Nat.lt_of_succ_lt h)).1,
      k7_pay5 (iblk7 V c 0 ⟨n + 1, h⟩) (iblk7 V c 1 ⟨n + 1, h⟩) (outsAt7 V c n (Nat.lt_of_succ_lt h)).2) := by
  refine ⟨fun h => ?_, fun n h => ?_⟩
  · rw [outsAt7_A V c ⟨0, h⟩ rfl, out7_A_2, out7_A_3, View.read_writes_eq_canon _ _ _ (cover7_A_2 _ _ _ _ _ _ _ _ _ _ _ _ _),
      View.read_writes_eq_canon _ _ _ (cover7_A_3 _ _ _ _ _ _ _ _ _ _ _ _ _)]
    unfold kernelRun7_A
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
  · rw [outsAt7_B V c ⟨n + 1, h⟩ (by have := lt_of_lt_of_eq h N_7; show ¬(n + 1) % 25 = 0; omega), out7_B_2, out7_B_3,
      View.read_writes_eq_canon _ _ _ (cover7_B_2 _ _ _ _ _ _ _ _ _ _ _ _ _ _ _),
      View.read_writes_eq_canon _ _ _ (cover7_B_3 _ _ _ _ _ _ _ _ _ _ _ _ _ _ _)]
    unfold kernelRun7_B
    dsimp only
    sl_unfold_words
    simp only [View.canon_cons_unit_zero (S := S1x128) hz2, View.readCov_unit_zero (S := S1x128) _ hz2, View.readAt_eq_ld,
    Memref.IsWhole.read_unread, View.ld_unit_zero (S := S2000x128) hz2, View.ld_unit_zero (S := S1x128) hz2]
    rfl

abbrev last7 : Fin cfg7.N := ⟨24, by decide⟩

theorem final7 (c : Dev nD) : (dat7 V c).arrAt 2 cfg7.N = (outsAt7 V c 24 last7.isLt).1
    ∧ (dat7 V c).arrAt 3 cfg7.N = (outsAt7 V c 24 last7.isLt).2 := by
  have z2 : (fun a => win7_2.index last7 a * main_v97_0.ty.shape.size a) = fun _ => 0 := funext (by decide)
  have z3 : (fun a => win7_3.index last7 a * main_v97_1.ty.shape.size a) = fun _ => 0 := funext (by decide)
  exact ⟨arrAt_last (dat7 V c) 2 N_7 flush7_2 last7 rfl _
      ((after7_2 V c _).trans (Memref.read_access_unit_zero (Elt Ideal) main_v97_0 z2 _ _).symm) fun i => by
        show i ∈ ((View.whole main_v97_0).slice (win7_2.rect last7)).set
        rw [View.set_slice_whole]; exact View.mem_set_unit_zero z2 _ i,
    arrAt_last (dat7 V c) 3 N_7 flush7_3 last7 rfl _
      ((after7_3 V c _).trans (Memref.read_access_unit_zero (Elt Ideal) main_v97_1 z3 _ _).symm) fun i => by
        show i ∈ ((View.whole main_v97_1).slice (win7_3.rect last7)).set
        rw [View.set_slice_whole]; exact View.mem_set_unit_zero z3 _ i⟩

theorem stats7_sum (c : Dev nD) : ∀ q : Fin 128, (dat7 V c).arrAt 2 cfg7.N (ix2 (0 : Fin 1) q)
    = ∑ r : Fin 50000, (X7 V c (ix2 r q) + B7 V c (ix2 (0 : Fin 1) q)) := fun q =>
  (stats_of _ _ _ _ (fun t => (blk7 V c t).1) (fun t => (blk7 V c t).2) N_7 _ (step7 V c).1 (step7 V c).2 _ (final7 V c) q).1

theorem stats7_sq (c : Dev nD) : ∀ q : Fin 128, (dat7 V c).arrAt 3 cfg7.N (ix2 (0 : Fin 1) q)
    = ∑ r : Fin 50000, (X7 V c (ix2 r q) + B7 V c (ix2 (0 : Fin 1) q)) * (X7 V c (ix2 r q) + B7 V c (ix2 (0 : Fin 1) q)) := fun q =>
  (stats_of _ _ _ _ (fun t => (blk7 V c t).1) (fun t => (blk7 V c t).2) N_7 _ (step7 V c).1 (step7 V c).2 _ (final7 V c) q).2

end Regions

end Cert.KernelIdeal.Val

end
-- ==== Proof.Layer.lean ====
import proofs.«400876_j79998060855858_1_alg».proof.Proof.Spec

open scoped BigOperators

namespace Cert.GCN

open Idealize.ShloMosaic

noncomputable abbrev cN : EReal := Ideal.ofBits .f32 0x47435000#32

noncomputable abbrev epsW : EReal := Ideal.ofBits .f32 0x3727C5AC#32

noncomputable def zM (h : Fin 50000 → Fin 128 → EReal) (w : Fin 128 → Fin 128 → EReal) (b : Fin 128 → EReal)
    (srcw dst : Fin 1650000 → BitVec 32) (norm : Fin 1650000 → EReal) : Fin 50000 → Fin 128 → EReal :=
  fun p q => propM (linM h w) srcw dst norm p q + b q

noncomputable def meanM (z : Fin 50000 → Fin 128 → EReal) (q : Fin 128) : EReal :=
  Ideal.div (∑ r : Fin 50000, z r q) cN

noncomputable def varM (z : Fin 50000 → Fin 128 → EReal) (q : Fin 128) : EReal :=
  Ideal.div (∑ r : Fin 50000, z r q * z r q) cN - meanM z q * meanM z q

noncomputable def varDevM (z : Fin 50000 → Fin 128 → EReal) (q : Fin 128) : EReal :=
  Ideal.div (∑ r : Fin 50000, (z r q - meanM z q) * (z r q - meanM z q)) (cN - ((0 : ℝ) : EReal))

noncomputable def bnM (z : Fin 50000 → Fin 128 → EReal) (var : Fin 128 → EReal) (g be : Fin 128 → EReal) :
    Fin 50000 → Fin 128 → EReal :=
  fun p q => (z p q - meanM z q) * Ideal.rsqrt (var q + epsW) * g q + be q

end Cert.GCN
-- ==== Proof.KLayers.lean ====
import proofs.«400876_j79998060855858_1_alg».proof.Proof.KCarry
import proofs.«400876_j79998060855858_1_alg».proof.Proof.KHostA
import proofs.«400876_j79998060855858_1_alg».proof.Proof.KHostB
import proofs.«400876_j79998060855858_1_alg».proof.Proof.KHostRead
import proofs.«400876_j79998060855858_1_alg».proof.Proof.KLin
import proofs.«400876_j79998060855858_1_alg».proof.Proof.KStats
import proofs.«400876_j79998060855858_1_alg».proof.Proof.KAff
import proofs.«400876_j79998060855858_1_alg».proof.Proof.Layer

open scoped BigOperators

noncomputable section

namespace Cert.KernelIdeal.Val

open Cert.KernelIdeal Cert.KernelIdeal.Gen Idealize.ShloMosaic Idealize.ShloMosaic.TcCoe Idealize.ShloMosaic.StableHlo Idealize.ShloMosaic.ValueIdx Idealize.ShloMosaic.Pipeline Cert.GCN

-- One layer over arbitrary buffers: given what each buffer holds in terms of the one before it, the affine region's
-- argument is the normalised layer output of the input features.
theorem layer_pre {E : IVec S2x1600000 32} {H : Fin 50000 → Fin 128 → EReal}
    {Xin L X X' : S50000x128.Idx → EReal} {Mat Wm : S128x128.Idx → EReal} {bv gv bev : S128.Idx → EReal}
    {s d : IVec S1650000 32} {n : FVec Ideal S1650000 .f32} {B B' S1 S2 M Vr G Be : S1x128.Idx → EReal}
    (hLin : ∀ p q, L (ix2 p q) = ∑ k : Fin 128, Xin (ix2 p k) * Mat (ix2 k q))
    (hXin : ∀ p k, Xin (ix2 p k) = H p k) (hMat : Mat = Wm)
    (hX : X = propK L s d n) (hs : s = srcK E) (hd : d = dstK E) (hn : n = normK (srcK E) (dstK E)) (hB : B = rowK bv)
    (hS1 : ∀ q : Fin 128, S1 (ix2 (0 : Fin 1) q) = ∑ r : Fin 50000, (X (ix2 r q) + B (ix2 (0 : Fin 1) q)))
    (hS2 : ∀ q : Fin 128, S2 (ix2 (0 : Fin 1) q)
      = ∑ r : Fin 50000, (X (ix2 r q) + B (ix2 (0 : Fin 1) q)) * (X (ix2 r q) + B (ix2 (0 : Fin 1) q)))
    (hM : M = meanK S1) (hV : Vr = varK S1 S2) (hG : G = rowK gv) (hBe : Be = rowK bev) (hX' : X' = X) (hB' : B' = B)
    (p : Fin 50000) (q : Fin 128) :
    (X' (ix2 p q) + B' (ix2 0 q) - M (ix2 0 q)) * Ideal.rsqrt (Vr (ix2 0 q) + Ideal.ofBits .f32 0x3727C5AC#32) * G (ix2 0 q)
        + Be (ix2 0 q)
      = bnM (zM H (fun k q => Wm (ix2 k q)) (fun q => bv (ix1 q)) (fun e => wrapK (srcK E) (ix1 e)) (fun e => dstK E (ix1 e))
            (fun e => normK (srcK E) (dstK E) (ix1 e)))
          (varM (zM H (fun k q => Wm (ix2 k q)) (fun q => bv (ix1 q)) (fun e => wrapK (srcK E) (ix1 e))
            (fun e => dstK E (ix1 e)) (fun e => normK (srcK E) (dstK E) (ix1 e))))
          (fun q => gv (ix1 q)) (fun q => bev (ix1 q)) p q := by
  subst hX' hB' hM hV hG hBe hB hX hs hd hn hMat
  have hL : (fun p q => L (ix2 p q)) = linM H (fun k q => Mat (ix2 k q)) :=
    funext fun p => funext fun q => (hLin p q).trans (Finset.sum_congr rfl fun k _ => by rw [hXin])
  have hP : ∀ p q, propK L (srcK E) (dstK E) (normK (srcK E) (dstK E)) (ix2 p q)
      = propM (linM H (fun k q => Mat (ix2 k q))) (fun e => wrapK (srcK E) (ix1 e)) (fun e => dstK E (ix1 e))
          (fun e => normK (srcK E) (dstK E) (ix1 e)) p q := fun p q => by rw [propK_apply, hL]
  simp only [varK_apply, meanK_apply, rowK_apply, hS1, hS2, hP]
  rfl

variable (m : (ℓ : Loc nD τ sig) → Buf (Elt Ideal) ℓ) (ρ : Dev nD → PrngReg)

abbrev srcwK (c : Dev nD) : Fin 1650000 → BitVec 32 := fun e => wrapK (srcK (m ((c : Thread nD τ).loc main_arg1))) (ix1 e)
abbrev dstwK (c : Dev nD) : Fin 1650000 → BitVec 32 := fun e => dstK (m ((c : Thread nD τ).loc main_arg1)) (ix1 e)
abbrev normwK (c : Dev nD) : Fin 1650000 → EReal := fun e => normK (srcK (m ((c : Thread nD τ).loc main_arg1))) (dstK (m ((c : Thread nD τ).loc main_arg1))) (ix1 e)

theorem k_layer1 (c : Dev nD) (H : Fin 50000 → Fin 128 → EReal)
    (hin : ∀ p k, (W3 m ρ c (Proc.devRef .tc main_arg0) : S50000x128.Idx → EReal) (ix2 p k) = H p k) (p : Fin 50000) (q : Fin 128) :
    (W8 m ρ c (Proc.devRef .tc main_v56) : S50000x128.Idx → EReal) (ix2 p q) = max (bnM (zM H (fun k q => (m ((c : Thread nD τ).loc main_arg3) : S128x128.Idx → EReal) (ix2 k q)) (fun q => (m ((c : Thread nD τ).loc main_arg4) : S128.Idx → EReal) (ix1 q)) (srcwK m c) (dstwK m c) (normwK m c)) (varM (zM H (fun k q => (m ((c : Thread nD τ).loc main_arg3) : S128x128.Idx → EReal) (ix2 k q)) (fun q => (m ((c : Thread nD τ).loc main_arg4) : S128.Idx → EReal) (ix1 q)) (srcwK m c) (dstwK m c) (normwK m c))) (fun q => (m ((c : Thread nD τ).loc main_arg5) : S128.Idx → EReal) (ix1 q)) (fun q => (m ((c : Thread nD τ).loc main_arg6) : S128.Idx → EReal) (ix1 q)) p q) 0 := by
  rw [show W8 m ρ c (Proc.devRef .tc main_v56) = (dat2 (V7 m ρ) c).arrAt 6 cfg2.N from W8_arr m ρ c 6,
    aff2 (V7 m ρ) c p q]
  exact congrArg (fun t : EReal => max t 0) (layer_pre
    (fun p q => (congrFun (W4_arr m ρ c 2) _).trans (lin0_apply (V3 m ρ) c p q)) hin (carry_arg3_3_0 m ρ c)
    (hostOps1_v45 (W4 m ρ c)) ((carry_v3_4_3 m ρ c).trans (W3_v3 m ρ c)) ((carry_v6_4_3 m ρ c).trans (W3_v6 m ρ c))
    ((carry_v31_4_3 m ρ c).trans (W3_v31 m ρ c)) ((hostOps1_v46 (W4 m ρ c)).trans (congrArg rowK (carry_arg4_4_0 m ρ c)))
    (fun q => (congrFun (W6_arr m ρ c 2) _).trans (stats1_sum (V5 m ρ) c q))
    (fun q => (congrFun (W6_arr m ρ c 3) _).trans (stats1_sq (V5 m ρ) c q))
    (hostOps2_v49 (W6 m ρ c)) (hostOps2_v53 (W6 m ρ c)) ((hostOps2_v54 (W6 m ρ c)).trans (congrArg rowK (carry_arg5_6_0 m ρ c)))
    ((hostOps2_v55 (W6 m ρ c)).trans (congrArg rowK (carry_arg6_6_0 m ρ c))) (carry_v45_7_5 m ρ c) (carry_v46_7_5 m ρ c) p q)

theorem k_layer2 (c : Dev nD) (H : Fin 50000 → Fin 128 → EReal)
    (hin : ∀ p k, (W8 m ρ c (Proc.devRef .tc main_v56) : S50000x128.Idx → EReal) (ix2 p k) = H p k) (p : Fin 50000) (q : Fin 128) :
    (W13 m ρ c (Proc.devRef .tc main_v81) : S50000x128.Idx → EReal) (ix2 p q) = max (bnM (zM H (fun k q => (m ((c : Thread nD τ).loc main_arg7) : S128x128.Idx → EReal) (ix2 k q)) (fun q => (m ((c : Thread nD τ).loc main_arg8) : S128.Idx → EReal) (ix1 q)) (srcwK m c) (dstwK m c) (normwK m c)) (varM (zM H (fun k q => (m ((c : Thread nD τ).loc main_arg7) : S128x128.Idx → EReal) (ix2 k q)) (fun q => (m ((c : Thread nD τ).loc main_arg8) : S128.Idx → EReal) (ix1 q)) (srcwK m c) (dstwK m c) (normwK m c))) (fun q => (m ((c : Thread nD τ).loc main_arg9) : S128.Idx → EReal) (ix1 q)) (fun q => (m ((c : Thread nD τ).loc main_arg10) : S128.Idx → EReal) (ix1 q)) p q) 0 := by
  rw [show W13 m ρ c (Proc.devRef .tc main_v81) = (dat5 (V12 m ρ) c).arrAt 6 cfg5.N from W13_arr m ρ c 6,
    aff5 (V12 m ρ) c p q]
  exact congrArg (fun t : EReal => max t 0) (layer_pre
    (fun p q => (congrFun (W9_arr m ρ c 2) _).trans (lin3_apply (V8 m ρ) c p q)) hin (carry_arg7_8_0 m ρ c)
    (hostOps4_v70 (W9 m ρ c)) ((carry_v3_9_3 m ρ c).trans (W3_v3 m ρ c)) ((carry_v6_9_3 m ρ c).trans (W3_v6 m ρ c))
    ((carry_v31_9_3 m ρ c).trans (W3_v31 m ρ c)) ((hostOps4_v71 (W9 m ρ c)).trans (congrArg rowK (carry_arg8_9_0 m ρ c)))
    (fun q => (congrFun (W11_arr m ρ c 2) _).trans (stats4_sum (V10 m ρ) c q))
    (fun q => (congrFun (W11_arr m ρ c 3) _).trans (stats4_sq (V10 m ρ) c q))
    (hostOps5_v74 (W11 m ρ c)) (hostOps5_v78 (W11 m ρ c)) ((hostOps5_v79 (W11 m ρ c)).trans (congrArg rowK (carry_arg9_11_0 m ρ c)))
    ((hostOps5_v80 (W11 m ρ c)).trans (congrArg rowK (carry_arg10_11_0 m ρ c))) (carry_v70_12_10 m ρ c) (carry_v71_12_10 m ρ c) p q)

theorem k_layer3 (c : Dev nD) (H : Fin 50000 → Fin 128 → EReal)
    (hin : ∀ p k, (W13 m ρ c (Proc.devRef .tc main_v81) : S50000x128.Idx → EReal) (ix2 p k) = H p k) (p : Fin 50000) (q : Fin 128) :
    (W18 m ρ c (Proc.devRef .tc main_v106) : S50000x128.Idx → EReal) (ix2 p q) = bnM (zM H (fun k q => (m ((c : Thread nD τ).loc main_arg11) : S128x128.Idx → EReal) (ix2 k q)) (fun q => (m ((c : Thread nD τ).loc main_arg12) : S128.Idx → EReal) (ix1 q)) (srcwK m c) (dstwK m c) (normwK m c)) (varM (zM H (fun k q => (m ((c : Thread nD τ).loc main_arg11) : S128x128.Idx → EReal) (ix2 k q)) (fun q => (m ((c : Thread nD τ).loc main_arg12) : S128.Idx → EReal) (ix1 q)) (srcwK m c) (dstwK m c) (normwK m c))) (fun q => (m ((c : Thread nD τ).loc main_arg13) : S128.Idx → EReal) (ix1 q)) (fun q => (m ((c : Thread nD τ).loc main_arg14) : S128.Idx → EReal) (ix1 q)) p q := by
  rw [show W18 m ρ c (Proc.devRef .tc main_v106) = (dat8 (V17 m ρ) c).arrAt 6 cfg8.N from W18_arr m ρ c 6,
    aff8 (V17 m ρ) c p q]
  exact layer_pre
    (fun p q => (congrFun (W14_arr m ρ c 2) _).trans (lin6_apply (V13 m ρ) c p q)) hin (carry_arg11_13_0 m ρ c)
    (hostOps7_v95 (W14 m ρ c)) ((carry_v3_14_3 m ρ c).trans (W3_v3 m ρ c)) ((carry_v6_14_3 m ρ c).trans (W3_v6 m ρ c))
    ((carry_v31_14_3 m ρ c).trans (W3_v31 m ρ c)) ((hostOps7_v96 (W14 m ρ c)).trans (congrArg rowK (carry_arg12_14_0 m ρ c)))
    (fun q => (congrFun (W16_arr m ρ c 2) _).trans (stats7_sum (V15 m ρ) c q))
    (fun q => (congrFun (W16_arr m ρ c 3) _).trans (stats7_sq (V15 m ρ) c q))
    (hostOps8_v99 (W16 m ρ c)) (hostOps8_v103 (W16 m ρ c)) ((hostOps8_v104 (W16 m ρ c)).trans (congrArg rowK (carry_arg13_16_0 m ρ c)))
    ((hostOps8_v105 (W16 m ρ c)).trans (congrArg rowK (carry_arg14_16_0 m ρ c))) (carry_v95_17_15 m ρ c) (carry_v96_17_15 m ρ c) p q

end Cert.KernelIdeal.Val
-- ==== Proof.KHostC.lean ====
import proofs.«400876_j79998060855858_1_alg».proof.Proof.Gen.KernelIdeal.Frame
import Idealize.ShloMosaic.Lib.StableHlo.Run
import Idealize.ShloMosaic.Lib.ValueLayout
import Idealize.ShloMosaic.Lib.IdealHost

set_option maxRecDepth 16384

noncomputable section

namespace Cert.KernelIdeal.Val

open Cert.KernelIdeal Cert.KernelIdeal.Gen Idealize.ShloMosaic Idealize.ShloMosaic.TcCoe Idealize.ShloMosaic.StableHlo
open Idealize.ShloMosaic.ValueIdx

variable {F : FTy → Type} [FloatOps F]

def colK (b : IVec S50000 32) : IVec S50000x1 32 := shapeCast S50000x1 b shapeCasts_S50000_S50000x1

def gembK (sums : FVec F S64x128 .f32) (cnt : FVec F S1x64 .f32) : FVec F S64x128 .f32 :=
  Host.divf sums (broadcastInDim S64x128 ![0, 1] bcast_S64x1_S64x128_0_1
    (maximumf (shapeCast S64x1 cnt shapeCasts_S1x64_S64x1)
      (broadcastInDim S64x1 ![] bcast_S_S64x1 (constant S_ .f32 0x3F800000#32))))

def row64K (v : FVec F S64 .f32) : FVec F S1x64 .f32 := shapeCast S1x64 v shapeCasts_S64_S1x64

def row2K (v : FVec F S2 .f32) : FVec F S1x2 .f32 := shapeCast S1x2 v shapeCasts_S2_S1x2

theorem hostOps9_v107 (W : Valuation τ sig (Elt F)) :
    StableHlo.after (hostOps9 (F := F)) W (Proc.devRef .tc main_v107) = colK (W (Proc.devRef .tc main_arg2)) := by
  after_results
  rfl

theorem hostOps10_v113 (W : Valuation τ sig (Elt F)) :
    StableHlo.after (hostOps10 (F := F)) W (Proc.devRef .tc main_v113)
      = gembK (W (Proc.devRef .tc main_v108_0)) (W (Proc.devRef .tc main_v108_1)) := by
  after_results
  rfl

theorem hostOps10_v114 (W : Valuation τ sig (Elt F)) :
    StableHlo.after (hostOps10 (F := F)) W (Proc.devRef .tc main_v114) = row64K (W (Proc.devRef .tc main_arg16)) := by
  after_results
  rfl

theorem hostOps10_v115 (W : Valuation τ sig (Elt F)) :
    StableHlo.after (hostOps10 (F := F)) W (Proc.devRef .tc main_v115) = row2K (W (Proc.devRef .tc main_arg18)) := by
  after_results
  rfl

theorem colK_apply (b : IVec S50000 32) (r : Fin 50000) : colK b (ix2 r (0 : Fin 1)) = b (ix1 r) :=
  shapeCast_apply b shapeCasts_S50000_S50000x1 (ix2 r (0 : Fin 1)) (ix1 r) (by
    rw [Shape.rowMajor_val_two, Shape.rowMajor_val_one]
    show r.val = r.val * 1 + 0
    omega)

theorem row64K_apply (v : FVec F S64 .f32) (j : Fin 64) : row64K v (ix2 (0 : Fin 1) j) = v (ix1 j) :=
  shapeCast_a_1a_apply v shapeCasts_S64_S1x64 0 j

theorem row2K_apply (v : FVec F S2 .f32) (k : Fin 2) : row2K v (ix2 (0 : Fin 1) k) = v (ix1 k) :=
  shapeCast_a_1a_apply v shapeCasts_S2_S1x2 0 k

theorem cntCol_apply {α : Type} (cnt : S1x64.Idx → α) (g : Fin 64) :
    shapeCast S64x1 cnt shapeCasts_S1x64_S64x1 (ix2 g (0 : Fin 1)) = cnt (ix2 (0 : Fin 1) g) :=
  shapeCast_apply cnt shapeCasts_S1x64_S64x1 (ix2 g (0 : Fin 1)) (ix2 (0 : Fin 1) g) (by
    rw [Shape.rowMajor_val_two, Shape.rowMajor_val_two]
    show 0 * 64 + g.val = g.val * 1 + 0
    omega)

theorem gembK_apply (sums : FVec Ideal S64x128 .f32) (cnt : FVec Ideal S1x64 .f32) (g : Fin 64) (f : Fin 128) :
    gembK sums cnt (ix2 g f)
      = Ideal.div (sums (ix2 g f)) (max (cnt (ix2 (0 : Fin 1) g)) (Ideal.ofBits .f32 0x3F800000#32)) := by
  unfold gembK
  rw [hostDivf_apply,
    broadcastInDim_apply (![0, 1] : Fin S64x1.rank → Fin S64x128.rank) bcast_S64x1_S64x128_0_1 _ (ix2 g f) (ix2 g (0 : Fin 1))
      (fun a => by match a with | ⟨0, _⟩ => rfl | ⟨1, _⟩ => rfl),
    maximumf_apply, cntCol_apply, broadcastInDim_scalar_apply, constant_apply]

end Cert.KernelIdeal.Val
-- ==== Proof.KPool.lean ====
import proofs.«400876_j79998060855858_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.ShloMosaic.ValueIdx Idealize.ShloMosaic.Pipeline

theorem pool_hz2 : (![0, 0] : Fin 2 → Nat) = fun _ => 0 := funext fun a => by fin_cases a <;> rfl

-- The contraction index is its one coordinate.
theorem pool_matmul_plain {M K N : ℕ} {φ ψ : FTy} (D : DotDims ⟨2, ![M, K]⟩ ⟨2, ![K, N]⟩ ⟨2, ![M, N]⟩) (hD : D = DotDims.plain M K N)
    (l : FVec Ideal ⟨2, ![M, K]⟩ φ) (r : FVec Ideal ⟨2, ![K, N]⟩ ψ) (i : Fin M) (j : Fin N) :
    matmul D none l r (constant (F := Ideal) ⟨2, ![M, N]⟩ .f32 0x00000000#32) (ix2 i j) = ∑ k : Fin K, l (ix2 i k) * r (ix2 k j) := by
  subst hD
  simp only [matmul]
  rw [Ideal.matmul_constant_zero_apply]
  exact Fintype.sum_equiv (contrEquiv1 (DotDims.plain M K N) K rfl rfl) _ _ fun q =>
    congrArg₂ (fun a b => l a * r b) (Shape.idx_ext₂ rfl rfl) (Shape.idx_ext₂ rfl rfl)

-- Every offset is a block index times a size, so zero.
theorem pool_rect_emb {G : Grid} (w : Window sig G) (t : Fin G.N) (h : ∀ a, w.index t a = 0)
    (y : (w.xblock (G.coords t)).Idx) (i : w.shape.Idx) (hi : ∀ a, (i a : ℕ) = y a) : (w.rect t).emb y = i :=
  funext fun a => Fin.ext ((w.rect_emb_val_of_index_zero t a (h a) y).trans (hi a).symm)

-- The compare bit is 1 or 0; widening and the signed reading keep it.
theorem pool_sitofp_bit (a b : BitVec 32) :
    (FloatOps.sitofp (F := Ideal) .f32 ((IntOp.cmpi .eq a b).setWidth 32) : EReal) = if b = a then (1 : EReal) else 0 := by
  show ((((BitVec.ofBool (a == b)).setWidth 32).toInt : ℝ) : EReal) = _
  by_cases h : b = a
  · rw [if_pos h, beq_iff_eq.mpr h.symm]
    show ((((1#1 : BitVec 1).setWidth 32).toInt : ℝ) : EReal) = 1
    norm_num
  · rw [if_neg h, beq_eq_false_iff_ne.mpr fun e => h e.symm]
    show ((((0#1 : BitVec 1).setWidth 32).toInt : ℝ) : EReal) = 0
    norm_num

theorem pool_pay3_apply (x1 : Vec Ideal S2000x1 .i32) (r : Fin 2000) (g : Fin 64) :
    k9_pay3 (F := Ideal) x1 (ix2 r g) = if x1 (ix2 r (0 : Fin 1)) = BitVec.ofNat 32 g.val then (1 : EReal) else 0 := by
  unfold k9_pay3
  refine (pool_sitofp_bit _ _).trans ?_
  rw [iota_single_apply, shapeCast_self, broadcastTo_apply x1 broadcasts_S2000x1_S2000x64 (ix2 r g) (ix2 r (0 : Fin 1)) fun a => by
    match a with
    | ⟨0, _⟩ => rfl
    | ⟨1, _⟩ => rfl]

theorem pool_pay4_apply (x0 : Vec Ideal S2000x128 .f32) (x1 : Vec Ideal S2000x1 .i32) (acc : Vec Ideal S64x128 .f32) (g : Fin 64) (f : Fin 128) :
    k9_pay4 (F := Ideal) x0 x1 acc (ix2 g f)
      = acc (ix2 g f) + ∑ r : Fin 2000, (if x1 (ix2 r (0 : Fin 1)) = BitVec.ofNat 32 g.val then (1 : EReal) else 0) * x0 (ix2 r f) := by
  unfold k9_pay4
  dsimp only
  rw [addf_apply, shapeCast_self, shapeCast_self, pool_matmul_plain dot_S64x2000_S2000x128_S64x128_1_0_0_1_n_n rfl]
  refine congrArg (acc (ix2 g f) + ·) (Finset.sum_congr rfl fun r _ => ?_)
  rw [transpose_ix2_apply, truncf_apply, truncf_apply, pool_pay3_apply]

theorem pool_pay5_apply (x1 : Vec Ideal S2000x1 .i32) (acc : Vec Ideal S1x64 .f32) (g : Fin 64) :
    k9_pay5 (F := Ideal) x1 acc (ix2 (0 : Fin 1) g)
      = acc (ix2 (0 : Fin 1) g) + ∑ r : Fin 2000, (if x1 (ix2 r (0 : Fin 1)) = BitVec.ofNat 32 g.val then (1 : EReal) else 0) := by
  unfold k9_pay5
  dsimp only
  rw [addf_apply, shapeCast_self, shapeCast_a_1a_apply]
  refine congrArg (acc (ix2 (0 : Fin 1) g) + ·) ((Ideal.multiReduction_add_single _ _ _ _ _ _).trans (Finset.sum_congr rfl fun r _ => ?_))
  rw [show reduces_S2000x64_S64.lift (ix1 g) r = ix2 r g from eq_ix2 _]
  exact pool_pay3_apply x1 r g

section Pieces
variable {F : FTy → Type} [FloatOps F] (c : Dev nD) (i : grid9.Coords) (a1 : Memref sig .tc .vmem S2000x128 .f32) (h1 : a1.IsWhole)
  (a2 : Memref sig .tc .vmem S2000x1 .i32) (h2 : a2.IsWhole) (a3 : Memref sig .tc .vmem S64x128 .f32) (h3 : a3.IsWhole)
  (a4 : Memref sig .tc .vmem S1x64 .f32) (h4 : a4.IsWhole) (x0 : Vec F S2000x128 .f32) (x1 : Vec F S2000x1 .i32)

-- The stored pieces cover both blocks, so each block reads as its last payload.
theorem pool_out_A (hc : cond9_0 i) :
    (out9_A_2 c i a1 h1 a2 h2 a3 h3 a4 h4 hc x0 x1, out9_A_3 c i a1 h1 a2 h2 a3 h3 a4 h4 hc x0 x1)
      = (k9_pay4 x0 x1 (k9_pay1 (F := F)), k9_pay5 x1 (k9_pay2 (F := F))) := by
  unfold out9_A_2 out9_A_3
  rw [View.read_writes_eq_canon _ _ _ (cover9_A_2 c i a1 h1 a2 h2 a3 h3 a4 h4 hc x0 x1),
    View.read_writes_eq_canon _ _ _ (cover9_A_3 c i a1 h1 a2 h2 a3 h3 a4 h4 hc x0 x1)]
  unfold kernelRun9_A
  dsimp only
  sl_unfold_words
  rw [View.canon_cons_unit_zero (S := S64x128) pool_hz2, View.canon_cons_unit_zero (S := S1x64) pool_hz2]
  simp only [View.readAt_eq_ld, h1.read_unread, h2.read_unread, View.ld_unit_zero (S := S2000x128) pool_hz2, View.ld_unit_zero (S := S2000x1) pool_hz2,
    View.readCov_unit_zero (S := S64x128) _ pool_hz2, View.readCov_unit_zero (S := S1x64) _ pool_hz2]

theorem pool_out_B (hc : ¬cond9_0 i) (xo2 : Vec F S64x128 .f32) (xo3 : Vec F S1x64 .f32) :
    (out9_B_2 c i a1 h1 a2 h2 a3 h3 a4 h4 hc x0 x1 xo2 xo3, out9_B_3 c i a1 h1 a2 h2 a3 h3 a4 h4 hc x0 x1 xo2 xo3)
      = (k9_pay4 x0 x1 xo2, k9_pay5 x1 xo3) := by
  unfold out9_B_2 out9_B_3
  rw [View.read_writes_eq_canon _ _ _ (cover9_B_2 c i a1 h1 a2 h2 a3 h3 a4 h4 hc x0 x1 xo2 xo3),
    View.read_writes_eq_canon _ _ _ (cover9_B_3 c i a1 h1 a2 h2 a3 h3 a4 h4 hc x0 x1 xo2 xo3)]
  unfold kernelRun9_B
  dsimp only
  sl_unfold_words
  rw [View.canon_unit_zero (S := S64x128) pool_hz2, View.canon_unit_zero (S := S1x64) pool_hz2]
  simp only [View.readAt_eq_ld, h1.read_unread, h2.read_unread, h3.read_unread, h4.read_unread, View.ld_unit_zero (S := S2000x128) pool_hz2,
    View.ld_unit_zero (S := S2000x1) pool_hz2, View.ld_unit_zero (S := S64x128) pool_hz2, View.ld_unit_zero (S := S1x64) pool_hz2]

end Pieces

-- Row r + 2000 s is the pair (s, r).
theorem pool_sum_blocks (T : ℕ → EReal) :
    ∑ s ∈ Finset.range 25, ∑ r : Fin 2000, T (r.val + 2000 * s) = ∑ j : Fin 50000, T j.val :=
  ((Fin.sum_univ_eq_sum_range (fun s => ∑ r : Fin 2000, T (r.val + 2000 * s)) 25).symm.trans
    (Fintype.sum_prod_type fun p : Fin 25 × Fin 2000 => T (finProdFinEquiv p).val).symm).trans
    (Equiv.sum_comp finProdFinEquiv fun j : Fin (25 * 2000) => T j.val)

section Fold

variable (V : (c : Dev nD) → (b : Ref sig .tc) → Buf (Elt Ideal) ((c : Thread nD τ).loc b))

abbrev poolH (c : Dev nD) : Vec Ideal S50000x128 .f32 := V c (Pipeline.arrRef spec9 0)
abbrev poolB (c : Dev nD) : Vec Ideal S50000x1 .i32 := V c (Pipeline.arrRef spec9 1)

theorem pool_idx : ∀ t : Fin cfg9.N, (win9_0.index t 0 = t.val ∧ win9_0.index t 1 = 0) ∧ (win9_1.index t 0 = t.val ∧ win9_1.index t 1 = 0)
    ∧ (∀ a, win9_2.index t a = 0) ∧ ∀ a, win9_3.index t a = 0 :=
  (by decide +kernel : ∀ t : Fin grid9.N, _)

-- The offsets are 2000 t on the rows and 0 on the columns.
theorem poolHblk_apply (c : Dev nD) (t : Fin cfg9.N) (r : Fin 2000) (f : Fin 128) (j : Fin 50000) (hj : j.val = r.val + 2000 * t.val) :
    (iblk9 V c 0 t : Vec Ideal S2000x128 .f32) (ix2 r f) = poolH V c (ix2 j f) := by
  show poolH V c (((cfg9.win 0).blk t).view.emb (ix2 r f)) = _
  refine congrArg _ (Shape.idx_ext₂ ?_ ?_)
  · show win9_0.index t 0 * 2000 + 1 * r.val = j.val
    rw [(pool_idx t).1.1]; omega
  · show win9_0.index t 1 * 128 + 1 * f.val = f.val
    rw [(pool_idx t).1.2]; omega

theorem poolBblk_apply (c : Dev nD) (t : Fin cfg9.N) (r : Fin 2000) (j : Fin 50000) (hj : j.val = r.val + 2000 * t.val) :
    (iblk9 V c 1 t : Vec Ideal S2000x1 .i32) (ix2 r (0 : Fin 1)) = poolB V c (ix2 j (0 : Fin 1)) := by
  show poolB V c (((cfg9.win 1).blk t).view.emb (ix2 r (0 : Fin 1))) = _
  refine congrArg _ (Shape.idx_ext₂ ?_ ?_)
  · show win9_1.index t 0 * 2000 + 1 * r.val = j.val
    rw [(pool_idx t).2.1.1]; omega
  · show win9_1.index t 1 * 1 + 1 * 0 = 0
    rw [(pool_idx t).2.1.2]

/-- Row j's share of class g's total of X, over every natural (zero past the last row). -/
def poolTerm (Bt : Vec Ideal S50000x1 .i32) (X : Fin 50000 → EReal) (g : Fin 64) (j : ℕ) : EReal :=
  if h : j < 50000 then (if Bt (ix2 ⟨j, h⟩ (0 : Fin 1)) = BitVec.ofNat 32 g.val then (1 : EReal) else 0) * X ⟨j, h⟩ else 0

theorem pool_row_lt (t : Fin cfg9.N) (r : Fin 2000) : r.val + 2000 * t.val < 50000 := by
  have := lt_of_lt_of_eq t.isLt (show cfg9.N = 25 from N_9); omega

theorem poolTerm_blk (c : Dev nD) (t : Fin cfg9.N) (X : Fin 50000 → EReal) (g : Fin 64) (r : Fin 2000) :
    poolTerm (poolB V c) X g (r.val + 2000 * t.val)
      = (if (iblk9 V c 1 t : Vec Ideal S2000x1 .i32) (ix2 r (0 : Fin 1)) = BitVec.ofNat 32 g.val then (1 : EReal) else 0) * X ⟨_, pool_row_lt t r⟩ := by
  unfold poolTerm
  rw [dif_pos (pool_row_lt t r), poolBblk_apply V c t r ⟨_, pool_row_lt t r⟩ rfl]

theorem pool_step_sums (c : Dev nD) (t : Fin cfg9.N) (acc : Vec Ideal S64x128 .f32) (g : Fin 64) (f : Fin 128) :
    k9_pay4 (F := Ideal) (iblk9 V c 0 t) (iblk9 V c 1 t) acc (ix2 g f)
      = acc (ix2 g f) + ∑ r : Fin 2000, poolTerm (poolB V c) (fun j => poolH V c (ix2 j f)) g (r.val + 2000 * t.val) := by
  rw [pool_pay4_apply]
  refine congrArg (acc (ix2 g f) + ·) (Finset.sum_congr rfl fun r _ => ?_)
  rw [poolTerm_blk, poolHblk_apply V c t r f ⟨_, pool_row_lt t r⟩ rfl]

theorem pool_step_cnt (c : Dev nD) (t : Fin cfg9.N) (acc : Vec Ideal S1x64 .f32) (g : Fin 64) :
    k9_pay5 (F := Ideal) (iblk9 V c 1 t) acc (ix2 (0 : Fin 1) g)
      = acc (ix2 (0 : Fin 1) g) + ∑ r : Fin 2000, poolTerm (poolB V c) (fun _ => 1) g (r.val + 2000 * t.val) := by
  rw [pool_pay5_apply]
  refine congrArg (acc (ix2 (0 : Fin 1) g) + ·) (Finset.sum_congr rfl fun r _ => ?_)
  rw [poolTerm_blk, mul_one]

-- Induction on the point: the first starts from zero, each later one adds its block.
theorem pool_outsAt (c : Dev nD) : ∀ (n : ℕ) (h : n < cfg9.N),
    (∀ (g : Fin 64) (f : Fin 128), (outsAt9 V c n h).1 (ix2 g f)
        = ∑ s ∈ Finset.range (n + 1), ∑ r : Fin 2000, poolTerm (poolB V c) (fun j => poolH V c (ix2 j f)) g (r.val + 2000 * s))
    ∧ ∀ g : Fin 64, (outsAt9 V c n h).2 (ix2 (0 : Fin 1) g)
        = ∑ s ∈ Finset.range (n + 1), ∑ r : Fin 2000, poolTerm (poolB V c) (fun _ => 1) g (r.val + 2000 * s)
  | 0, h => by
    rw [outsAt9_A V c ⟨0, h⟩ rfl, pool_out_A]
    dsimp only
    refine ⟨fun g f => ?_, fun g => ?_⟩
    · rw [pool_step_sums, Finset.sum_range_one]
      exact (congrArg (· + _) Ideal.ofBits_zero_f32).trans (zero_add _)
    · rw [pool_step_cnt, Finset.sum_range_one]
      exact (congrArg (· + _) Ideal.ofBits_zero_f32).trans (zero_add _)
  | n + 1, h => by
    obtain ⟨ih2, ih3⟩ := pool_outsAt c n (Nat.lt_of_succ_lt h)
    rw [outsAt9_B V c ⟨n + 1, h⟩ (by have := lt_of_lt_of_eq h (show cfg9.N = 25 from N_9); dsimp only; omega), pool_out_B]
    dsimp only
    exact ⟨fun g f => by rw [pool_step_sums, Finset.sum_range_succ _ (n + 1)]; exact congrArg (· + _) (ih2 g f),
      fun g => by rw [pool_step_cnt, Finset.sum_range_succ _ (n + 1)]; exact congrArg (· + _) (ih3 g)⟩

theorem pool_total (Bt : Vec Ideal S50000x1 .i32) (X : Fin 50000 → EReal) (g : Fin 64) :
    ∑ s ∈ Finset.range 25, ∑ r : Fin 2000, poolTerm Bt X g (r.val + 2000 * s)
      = ∑ j : Fin 50000, (if Bt (ix2 j (0 : Fin 1)) = BitVec.ofNat 32 g.val then (1 : EReal) else 0) * X j :=
  (pool_sum_blocks _).trans (Finset.sum_congr rfl fun j _ => dif_pos j.isLt)

def poolLast : Fin cfg9.N := ⟨24, by rw [show cfg9.N = 25 from N_9]; decide⟩

-- Both points are number 24.
theorem pool_disj (w : Fin cfg9.W) (hw : ∀ t, (cfg9.win w).flush t = true → t.val % 25 = 24) (t t' : Fin cfg9.N)
    (h : (cfg9.win w).flush t = true) (h' : (cfg9.win w).flush t' = true) (ne : t ≠ t') :
    Disjoint ((cfg9.win w).blk t).view.set ((cfg9.win w).blk t').view.set :=
  absurd (Fin.ext (by
    have := hw t h; have := hw t' h'
    have := lt_of_lt_of_eq t.isLt (show cfg9.N = 25 from N_9); have := lt_of_lt_of_eq t'.isLt (show cfg9.N = 25 from N_9); omega)) ne

theorem pool_sums (c : Dev nD) : ∀ (g : Fin 64) (f : Fin 128), (dat9 V c).arrAt 2 cfg9.N (ix2 g f)
    = ∑ r : Fin 50000, (if (V c (Pipeline.arrRef spec9 1) : Vec Ideal S50000x1 .i32) (ix2 r (0 : Fin 1)) = BitVec.ofNat 32 g.val then (1 : EReal) else 0)
        * (V c (Pipeline.arrRef spec9 0) : Vec Ideal S50000x128 .f32) (ix2 r f) := fun g f => by
  refine (congrArg ((dat9 V c).arrAt 2 cfg9.N) (pool_rect_emb win9_2 poolLast (pool_idx _).2.2.1 (ix2 g f) (ix2 g f) fun _ => rfl).symm).trans
    (((dat9 V c).arrAt_emb_eq_flushed 2 (pool_disj 2 fun t => (flush9_2 t).mp) poolLast ((flush9_2 _).mpr rfl) (ix2 g f)).trans ?_)
  show (cfg9.win 2).cut (grid9.coords poolLast) ((dat9 V c).after 2 poolLast) (ix2 g f) = _
  rw [after9_2]
  exact ((pool_outsAt V c 24 poolLast.isLt).1 g f).trans (pool_total _ _ g)

theorem pool_cnt (c : Dev nD) : ∀ g : Fin 64, (dat9 V c).arrAt 3 cfg9.N (ix2 (0 : Fin 1) g)
    = ∑ r : Fin 50000, (if (V c (Pipeline.arrRef spec9 1) : Vec Ideal S50000x1 .i32) (ix2 r (0 : Fin 1)) = BitVec.ofNat 32 g.val then (1 : EReal) else 0) := fun g => by
  refine (congrArg ((dat9 V c).arrAt 3 cfg9.N) (pool_rect_emb win9_3 poolLast (pool_idx _).2.2.2 (ix2 0 g) (ix2 0 g) fun _ => rfl).symm).trans
    (((dat9 V c).arrAt_emb_eq_flushed 3 (pool_disj 3 fun t => (flush9_3 t).mp) poolLast ((flush9_3 _).mpr rfl) (ix2 0 g)).trans ?_)
  show (cfg9.win 3).cut (grid9.coords poolLast) ((dat9 V c).after 3 poolLast) (ix2 0 g) = _
  rw [after9_3]
  exact (((pool_outsAt V c 24 poolLast.isLt).2 g).trans (pool_total _ _ g)).trans (Finset.sum_congr rfl fun _ _ => mul_one _)

end Fold

end Cert.KernelIdeal.Val

end
-- ==== Proof.KHead.lean ====
import proofs.«400876_j79998060855858_1_alg».proof.Proof.KPool

set_option maxRecDepth 16384

noncomputable section

namespace Cert.KernelIdeal.Val

open Cert.KernelIdeal Cert.KernelIdeal.Gen Idealize.ShloMosaic Idealize.ShloMosaic.TcCoe Idealize.ShloMosaic.ValueIdx Idealize.ShloMosaic.Pipeline

theorem head_pay (v0 : Vec Ideal S64x128 .f32) (v3 : Vec Ideal S128x64 .f32) (v6 : Vec Ideal S1x64 .f32) (v13 : Vec Ideal S64x2 .f32) (v16 : Vec Ideal S1x2 .f32)
    (g : Fin 64) (k : Fin 2) :
    k10_pay1 (F := Ideal) v0 v3 v6 v13 v16 (ix2 g k)
      = (∑ j : Fin 64, max ((∑ f : Fin 128, v0 (ix2 g f) * v3 (ix2 f j)) + v6 (ix2 0 j)) 0 * v13 (ix2 j k)) + v16 (ix2 0 k) := by
  unfold k10_pay1
  simp only [shapeCast_self]
  rw [addf_apply, pool_matmul_plain dot_S64x64_S64x2_S64x2_1_0_0_1_n_n rfl, broadcastTo_1b_ab_apply]
  refine congrArg (· + v16 (ix2 0 k)) (Finset.sum_congr rfl fun j _ => congrArg (· * v13 (ix2 j k)) ?_)
  rw [truncf_apply, maximumf_apply, addf_apply, pool_matmul_plain dot_S64x128_S128x64_S64x64_1_0_0_1_n_n rfl, broadcastTo_1b_ab_apply]
  exact congrArg (max _) Ideal.ofBits_zero_f32

section Arrays

variable (V : (c : Dev nD) → (b : Ref sig .tc) → Buf (Elt Ideal) ((c : Thread nD τ).loc b))

abbrev headG (c : Dev nD) : Vec Ideal S64x128 .f32 := V c (Pipeline.arrRef spec10 0)
abbrev headW1 (c : Dev nD) : Vec Ideal S128x64 .f32 := V c (Pipeline.arrRef spec10 1)
abbrev headB1 (c : Dev nD) : Vec Ideal S1x64 .f32 := V c (Pipeline.arrRef spec10 2)
abbrev headW2 (c : Dev nD) : Vec Ideal S64x2 .f32 := V c (Pipeline.arrRef spec10 3)
abbrev headB2 (c : Dev nD) : Vec Ideal S1x2 .f32 := V c (Pipeline.arrRef spec10 4)

theorem idx_facts10 : ∀ (w : Fin cfg10.W) (t : Fin cfg10.N) (a : Fin (cfg10.win w).shape.rank), (cfg10.win w).index t a = 0 := by
  decide +kernel

-- Zero offsets: each block is its array.
theorem headBlk (c : Dev nD) (t : Fin cfg10.N) :
    (iblk10 V c 0 t : Vec Ideal S64x128 .f32) = headG V c ∧ (iblk10 V c 1 t : Vec Ideal S128x64 .f32) = headW1 V c
    ∧ (iblk10 V c 2 t : Vec Ideal S1x64 .f32) = headB1 V c ∧ (iblk10 V c 3 t : Vec Ideal S64x2 .f32) = headW2 V c
    ∧ (iblk10 V c 4 t : Vec Ideal S1x2 .f32) = headB2 V c :=
  ⟨funext fun y => congrArg (headG V c) (pool_rect_emb win10_0 t (idx_facts10 0 t) y y fun _ => rfl),
    funext fun y => congrArg (headW1 V c) (pool_rect_emb win10_1 t (idx_facts10 1 t) y y fun _ => rfl),
    funext fun y => congrArg (headB1 V c) (pool_rect_emb win10_2 t (idx_facts10 2 t) y y fun _ => rfl),
    funext fun y => congrArg (headW2 V c) (pool_rect_emb win10_3 t (idx_facts10 3 t) y y fun _ => rfl),
    funext fun y => congrArg (headB2 V c) (pool_rect_emb win10_4 t (idx_facts10 4 t) y y fun _ => rfl)⟩

abbrev result10 (c : Dev nD) : Vec Ideal S64x2 .f32 := (dat10 V c).arrAt 5 cfg10.N

-- There is one point, and its block is the whole result.
theorem head10 (c : Dev nD) (g : Fin 64) (k : Fin 2) :
    result10 V c (ix2 g k)
      = (∑ j : Fin 64, max ((∑ f : Fin 128, headG V c (ix2 g f) * headW1 V c (ix2 f j)) + headB1 V c (ix2 0 j)) 0 * headW2 V c (ix2 j k))
        + headB2 V c (ix2 0 k) := by
  refine (congrArg (result10 V c) (pool_rect_emb win10_5 t10_0 (idx_facts10 5 t10_0) (ix2 g k) (ix2 g k) fun _ => rfl).symm).trans
    (((dat10 V c).arrAt_emb_eq_flushed 5 (fun t t' _ _ ne => absurd ((fin_N10 t).trans (fin_N10 t').symm) ne) t10_0 (flush10_5 _) (ix2 g k)).trans ?_)
  show (cfg10.win 5).cut (grid10.coords t10_0) ((dat10 V c).after 5 t10_0) (ix2 g k) = _
  rw [after10_5]
  unfold out10_5
  rw [View.canon_unit_zero pool_hz2]
  simp only [View.ld_unit_zero (S := S64x128) pool_hz2, View.ld_unit_zero (S := S128x64) pool_hz2, View.ld_unit_zero (S := S1x64) pool_hz2,
    View.ld_unit_zero (S := S64x2) pool_hz2, View.ld_unit_zero (S := S1x2) pool_hz2]
  obtain ⟨e0, e1, e2, e3, e4⟩ := headBlk V c t10_0
  rw [e0, e1, e2, e3, e4]
  exact head_pay _ _ _ _ _ g k

end Arrays

end Cert.KernelIdeal.Val

end
-- ==== Proof.Math1.lean ====
import proofs.«400876_j79998060855858_1_alg».proof.Proof.Layer
import Idealize.ShloMosaic.PureOps.Ideal.Laws
import Idealize.ShloMosaic.Lib.IdealHost
import Mathlib.Analysis.SpecialFunctions.Pow.Real

noncomputable section

namespace Cert.GCN

open Idealize.ShloMosaic
open scoped BigOperators

theorem ofBits_c : Ideal.ofBits .f32 0x47435000#32 = ((50000 : ℝ) : EReal) := by
  simp [Ideal.ofBits, Ideal.ieee, -EReal.coe_mul]; norm_num

theorem ofBits_one' : Ideal.ofBits .f32 0x3F800000#32 = (1 : EReal) := Ideal.ofBits_one_f32

theorem ofBits_zero : Ideal.ofBits .f32 0x00000000#32 = 0 := Ideal.ofBits_zero_f32

theorem ofBits_eps : ∃ e : ℝ, 0 < e ∧ Ideal.ofBits .f32 0x3727C5AC#32 = (e : EReal) :=
  ⟨10995116 * (2 : ℝ) ^ (-40 : Int), by positivity, by simp [Ideal.ofBits, Ideal.ieee, -EReal.coe_mul]⟩

theorem var_guard' :
    FloatOps.cmpf (F := Ideal) (φ := .f32) .ogt
      (Ideal.ofBits .f32 0x47435000#32 - ((0 : ℝ) : EReal)) (Ideal.ofBits .f32 0x00000000#32) = 1#1 := by
  rw [Ideal.cmpf_def, ofBits_c, ofBits_zero, EReal.coe_zero, sub_zero]
  simp [Ideal.cmp, show (0 : EReal) < ((50000 : ℝ) : EReal) from EReal.coe_pos.mpr (by norm_num)]

theorem coe_finsum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

-- The mean of squared deviations from the mean is the mean of squares less the squared mean.
theorem var_real {ι : Type*} [Fintype ι] (z : ι → ℝ) (c : ℝ) (hc : (Fintype.card ι : ℝ) = c) (h0 : c ≠ 0) :
    (∑ r, (z r - (∑ r, z r) * (1 / c)) * (z r - (∑ r, z r) * (1 / c))) * (1 / c)
      = (∑ r, z r * z r) * (1 / c) - ((∑ r, z r) * (1 / c)) * ((∑ r, z r) * (1 / c)) := by
  have e : ∀ m : ℝ, ∑ r, (z r - m) * (z r - m) = (∑ r, z r * z r) - 2 * m * ∑ r, z r + c * (m * m) := fun m => by
    simp only [show ∀ r, (z r - m) * (z r - m) = z r * z r - 2 * m * z r + m * m from fun r => by ring]
    rw [Finset.sum_add_distrib, Finset.sum_sub_distrib, ← Finset.mul_sum, Finset.sum_const, Finset.card_univ,
      nsmul_eq_mul, hc]
  rw [e]
  field_simp
  ring

-- On real entries both spellings of a column's variance are one real number, a mean of squares.
theorem var_forms (z : Fin 50000 → Fin 128 → EReal) (hz : Fin2 z) (q : Fin 128) :
    ∃ v : ℝ, 0 ≤ v ∧ varDevM z q = (v : EReal) ∧ varM z q = (v : EReal) := by
  choose x hx using hz
  obtain rfl : z = fun r q => ((x r q : ℝ) : EReal) := funext fun r => funext (hx r)
  have h5 : (50000 : ℝ) ≠ 0 := by norm_num
  refine ⟨(∑ r, (x r q - (∑ r, x r q) * (1 / 50000)) * (x r q - (∑ r, x r q) * (1 / 50000))) * (1 / 50000),
    mul_nonneg (Finset.sum_nonneg fun r _ => mul_self_nonneg _) (by norm_num), ?_, ?_⟩
  · simp only [varDevM, meanM, ofBits_c, EReal.coe_zero, sub_zero, Ideal.div_coe h5, coe_finsum, ← EReal.coe_mul,
      ← EReal.coe_sub]
  · rw [var_real (fun r => x r q) 50000 (by simp) h5]
    simp only [varM, meanM, ofBits_c, Ideal.div_coe h5, coe_finsum, ← EReal.coe_mul, ← EReal.coe_sub]

theorem varDev_eq_var (z : Fin 50000 → Fin 128 → EReal) (hz : Fin2 z) (q : Fin 128) : varDevM z q = varM z q := by
  obtain ⟨v, _, h1, h2⟩ := var_forms z hz q
  rw [h1, h2]

def IsR (x : EReal) : Prop := ∃ r : ℝ, x = (r : EReal)

namespace IsR

theorem zero : IsR (0 : EReal) := ⟨0, EReal.coe_zero.symm⟩

theorem add {x y : EReal} (hx : IsR x) (hy : IsR y) : IsR (x + y) := by
  obtain ⟨a, rfl⟩ := hx; obtain ⟨b, rfl⟩ := hy; exact ⟨a + b, (EReal.coe_add a b).symm⟩
theorem sub {x y : EReal} (hx : IsR x) (hy : IsR y) : IsR (x - y) := by
  obtain ⟨a, rfl⟩ := hx; obtain ⟨b, rfl⟩ := hy; exact ⟨a - b, (EReal.coe_sub a b).symm⟩
theorem mul {x y : EReal} (hx : IsR x) (hy : IsR y) : IsR (x * y) := by
  obtain ⟨a, rfl⟩ := hx; obtain ⟨b, rfl⟩ := hy; exact ⟨a * b, (EReal.coe_mul a b).symm⟩
theorem max {x y : EReal} (hx : IsR x) (hy : IsR y) : IsR (max x y) := by
  obtain ⟨a, rfl⟩ := hx; obtain ⟨b, rfl⟩ := hy
  exact ⟨Max.max a b, (EReal.coe_strictMono.monotone.map_max).symm⟩

theorem sum {ι : Type*} (s : Finset ι) (f : ι → EReal) (h : ∀ i ∈ s, IsR (f i)) : IsR (∑ i ∈ s, f i) :=
  Finset.sum_induction f IsR (fun _ _ => add) zero h

-- The reciprocal square root of an extended real above zero (the top element included) is a real.
theorem rsqrt_of_pos {x : EReal} (h : 0 < x) : IsR (Ideal.rsqrt x) := by
  induction x using EReal.rec with
  | bot => exact absurd h (not_lt.mpr bot_le)
  | top => exact ⟨0, by rw [Ideal.rsqrt_top, EReal.coe_zero]⟩
  | coe r =>
    have hr : 0 < r := EReal.coe_pos.mp h
    rw [Ideal.rsqrt_coe, if_neg (not_lt.mpr hr.le), if_neg hr.ne']; exact ⟨_, rfl⟩

theorem rsqrt_max_one_word (d : EReal) : IsR (Ideal.rsqrt (Max.max d (Ideal.ofBits .f32 0x3F800000#32))) := by
  rw [ofBits_one']; exact rsqrt_of_pos (lt_of_lt_of_le zero_lt_one (le_max_right d 1))

end IsR

-- The variance is a real that is not negative and the stabiliser is positive, so the normalising factor is a real.
theorem bnM_fin2 (z : Fin 50000 → Fin 128 → EReal) (g be : Fin 128 → EReal) (hz : Fin2 z) (hg : Fin1 g)
    (hbe : Fin1 be) : Fin2 (bnM z (varM z) g be) := fun p q => by
  obtain ⟨v, hv, -, h⟩ := var_forms z hz q
  obtain ⟨e, he, h'⟩ := ofBits_eps
  have hr : IsR (Ideal.rsqrt (varM z q + Ideal.ofBits .f32 0x3727C5AC#32)) := by
    rw [h, h', ← EReal.coe_add]; exact .rsqrt_of_pos (EReal.coe_pos.mpr (by linarith))
  have hm : IsR (meanM z q) := by
    obtain ⟨s, hs⟩ := IsR.sum Finset.univ _ fun r _ => hz r q
    refine ⟨s * (1 / 50000), ?_⟩
    rw [meanM, hs]
    show Ideal.div (s : EReal) (Ideal.ofBits .f32 0x47435000#32) = _
    rw [ofBits_c, Ideal.div_coe (by norm_num), ← EReal.coe_mul]
  exact (((IsR.sub (hz p q) hm).mul hr).mul (hg q)).add (hbe q)

theorem bnM_relu_fin2 (z : Fin 50000 → Fin 128 → EReal) (g be : Fin 128 → EReal) (hz : Fin2 z) (hg : Fin1 g)
    (hbe : Fin1 be) : Fin2 (fun p q => max (bnM z (varM z) g be p q) 0) := fun p q =>
  IsR.max (bnM_fin2 z g be hz hg hbe p q) .zero

end Cert.GCN

end
-- ==== Proof.Math2.lean ====
import proofs.«400876_j79998060855858_1_alg».proof.Proof.Math1

open scoped BigOperators

namespace Cert.GCN

open Idealize.ShloMosaic

theorem real_mul {x y : EReal} (hx : ∃ r : ℝ, x = (r : EReal)) (hy : ∃ r : ℝ, y = (r : EReal)) :
    ∃ r : ℝ, x * y = (r : EReal) :=
  IsR.mul hx hy

theorem fin2_linM {h : Fin 50000 → Fin 128 → EReal} {w : Fin 128 → Fin 128 → EReal} (hh : Fin2 h) (hw : Fin2 w) :
    Fin2 (linM h w) := fun p q =>
  IsR.sum _ _ fun k _ => IsR.mul (hh p k) (hw k q)

theorem fin2_propM {lin : Fin 50000 → Fin 128 → EReal} (srcw dst : Fin 1650000 → BitVec 32) {norm : Fin 1650000 → EReal}
    (hlin : Fin2 lin) (hnorm : Fin1 norm) : Fin2 (propM lin srcw dst norm) := fun _ j =>
  IsR.add .zero (IsR.sum _ _ fun e _ => IsR.mul (hlin _ j) (hnorm e))

-- A gather reads the table at the operand index of the result element.
theorem hostGather_real {s si t : Shape} {w : Nat} (d : GatherDims s si t) (x : s.Idx → EReal) (idx : IVec si w)
    (hx : ∀ k, ∃ r : ℝ, x k = (r : EReal)) (i : t.Idx) : ∃ r : ℝ, Host.gather d x idx i = (r : EReal) :=
  hx (d.operandIdx i idx)

-- A 32-bit word is the word of a class number below 64 exactly when, read signed, it is that number.
theorem eq_ofNat32_iff_toInt (b : BitVec 32) (g : Fin 64) : b = BitVec.ofNat 32 g.val ↔ b.toInt = (g.val : Int) := by
  have hg : (BitVec.ofNat 32 g.val).toInt = (g.val : Int) := by
    rw [BitVec.toInt_eq_toNat_cond, BitVec.toNat_ofNat, Nat.mod_eq_of_lt (by omega), if_pos (by omega)]
  exact ⟨fun h => h ▸ hg, fun h => BitVec.eq_of_toInt_eq (h.trans hg.symm)⟩

theorem sum_onehot_segment (bt : Fin 50000 → BitVec 32) (H : Fin 50000 → EReal) (g : Fin 64) :
    (∑ r : Fin 50000, (if bt r = BitVec.ofNat 32 g.val then (1 : EReal) else 0) * H r) =
      0 + ∑ r ∈ Finset.univ.filter (fun r : Fin 50000 => (bt r).toInt = (g.val : Int)), H r := by
  rw [zero_add, Finset.sum_filter]
  refine Finset.sum_congr rfl fun r _ => ?_
  by_cases h : (bt r).toInt = (g.val : Int)
  · rw [if_pos ((eq_ofNat32_iff_toInt _ g).mpr h), if_pos h, one_mul]
  · rw [if_neg (mt (eq_ofNat32_iff_toInt _ g).mp h), if_neg h, zero_mul]

theorem sum_onehot_count (bt : Fin 50000 → BitVec 32) (g : Fin 64) :
    (∑ r : Fin 50000, (if bt r = BitVec.ofNat 32 g.val then (1 : EReal) else 0)) =
      0 + ∑ r ∈ Finset.univ.filter (fun r : Fin 50000 => (bt r).toInt = (g.val : Int)), (1 : EReal) := by
  simpa only [mul_one] using sum_onehot_segment bt (fun _ => 1) g

end Cert.GCN
-- ==== Proof.KTail.lean ====
import proofs.«400876_j79998060855858_1_alg».proof.Proof.KCarry
import proofs.«400876_j79998060855858_1_alg».proof.Proof.KHostC
import proofs.«400876_j79998060855858_1_alg».proof.Proof.KPool
import proofs.«400876_j79998060855858_1_alg».proof.Proof.KHead
import proofs.«400876_j79998060855858_1_alg».proof.Proof.Math2
import proofs.«400876_j79998060855858_1_alg».proof.Proof.Layer

open scoped BigOperators

noncomputable section

namespace Cert.KernelIdeal.Val

open Cert.KernelIdeal Cert.KernelIdeal.Gen Idealize.ShloMosaic Idealize.ShloMosaic.TcCoe Idealize.ShloMosaic.StableHlo Idealize.ShloMosaic.ValueIdx Idealize.ShloMosaic.Pipeline Cert.GCN

variable (m : (ℓ : Loc nD τ sig) → Buf (Elt Ideal) ℓ) (ρ : Dev nD → PrngReg)

abbrev btK (c : Dev nD) : Fin 50000 → BitVec 32 := fun r => (m ((c : Thread nD τ).loc main_arg2) : S50000.Idx → BitVec 32) (ix1 r)

theorem k_pool (c : Dev nD) (H3 : Fin 50000 → Fin 128 → EReal)
    (hin : ∀ p q, (W18 m ρ c (Proc.devRef .tc main_v106) : S50000x128.Idx → EReal) (ix2 p q) = H3 p q) (g : Fin 64) (f : Fin 128) :
    (W21 m ρ c (Proc.devRef .tc main_v113) : S64x128.Idx → EReal) (ix2 g f)
      = Ideal.div (0 + ∑ r ∈ Finset.univ.filter (fun r : Fin 50000 => (btK m c r).toInt = (g.val : Int)), H3 r f)
          (max (0 + ∑ r ∈ Finset.univ.filter (fun r : Fin 50000 => (btK m c r).toInt = (g.val : Int)), (1 : EReal))
            (Ideal.ofBits .f32 0x3F800000#32)) := by
  have hbt : ∀ r : Fin 50000, (V19 m ρ c (Pipeline.arrRef spec9 1) : Vec Ideal S50000x1 .i32) (ix2 r (0 : Fin 1)) = btK m c r := by
    intro r
    show (W19 m ρ c (Proc.devRef .tc main_v107) : S50000x1.Idx → BitVec 32) (ix2 r (0 : Fin 1)) = _
    rw [show W19 m ρ c (Proc.devRef .tc main_v107) = colK (W18 m ρ c (Proc.devRef .tc main_arg2)) from hostOps9_v107 (W18 m ρ c),
      colK_apply, carry_arg2_18_0 m ρ c]
  have hh : ∀ (r : Fin 50000) (f : Fin 128), (V19 m ρ c (Pipeline.arrRef spec9 0) : Vec Ideal S50000x128 .f32) (ix2 r f) = H3 r f := by
    intro r f
    show (W19 m ρ c (Proc.devRef .tc main_v106) : S50000x128.Idx → EReal) (ix2 r f) = _
    rw [carry_v106_19_18 m ρ c, hin]
  rw [show W21 m ρ c (Proc.devRef .tc main_v113) = gembK (F := Ideal) (W20 m ρ c (Proc.devRef .tc main_v108_0)) (W20 m ρ c (Proc.devRef .tc main_v108_1)) from hostOps10_v113 (W20 m ρ c),
    gembK_apply]
  rw [show W20 m ρ c (Proc.devRef .tc main_v108_0) = (dat9 (V19 m ρ) c).arrAt 2 cfg9.N from W20_arr m ρ c 2,
    show W20 m ρ c (Proc.devRef .tc main_v108_1) = (dat9 (V19 m ρ) c).arrAt 3 cfg9.N from W20_arr m ρ c 3,
    pool_sums (V19 m ρ) c g f, pool_cnt (V19 m ρ) c g]
  simp only [hbt, hh]
  rw [sum_onehot_segment (btK m c) (fun r => H3 r f) g, sum_onehot_count (btK m c) g]

theorem k_head (c : Dev nD) (Gm : Fin 64 → Fin 128 → EReal)
    (hin : ∀ g f, (W21 m ρ c (Proc.devRef .tc main_v113) : S64x128.Idx → EReal) (ix2 g f) = Gm g f) (g : Fin 64) (k : Fin 2) :
    (W22 m ρ c (Proc.devRef .tc main_v116) : S64x2.Idx → EReal) (ix2 g k)
      = (∑ j : Fin 64, max ((∑ f : Fin 128, Gm g f * (m ((c : Thread nD τ).loc main_arg15) : S128x64.Idx → EReal) (ix2 f j))
            + (m ((c : Thread nD τ).loc main_arg16) : S64.Idx → EReal) (ix1 j)) 0
          * (m ((c : Thread nD τ).loc main_arg17) : S64x2.Idx → EReal) (ix2 j k))
        + (m ((c : Thread nD τ).loc main_arg18) : S2.Idx → EReal) (ix1 k) := by
  have hG : ∀ g f, headG (V21 m ρ) c (ix2 g f) = Gm g f := fun g f => hin g f
  have hW1 : ∀ f j, headW1 (V21 m ρ) c (ix2 f j) = (m ((c : Thread nD τ).loc main_arg15) : S128x64.Idx → EReal) (ix2 f j) := by
    intro f j
    show (W21 m ρ c (Proc.devRef .tc main_arg15) : S128x64.Idx → EReal) (ix2 f j) = _
    rw [carry_arg15_21_0 m ρ c]
  have hB1 : ∀ j, headB1 (V21 m ρ) c (ix2 (0 : Fin 1) j) = (m ((c : Thread nD τ).loc main_arg16) : S64.Idx → EReal) (ix1 j) := by
    intro j
    show (W21 m ρ c (Proc.devRef .tc main_v114) : S1x64.Idx → EReal) (ix2 (0 : Fin 1) j) = _
    rw [show W21 m ρ c (Proc.devRef .tc main_v114) = row64K (F := Ideal) (W20 m ρ c (Proc.devRef .tc main_arg16)) from hostOps10_v114 (W20 m ρ c),
      row64K_apply, carry_arg16_20_0 m ρ c]
  have hW2 : ∀ j k, headW2 (V21 m ρ) c (ix2 j k) = (m ((c : Thread nD τ).loc main_arg17) : S64x2.Idx → EReal) (ix2 j k) := by
    intro j k
    show (W21 m ρ c (Proc.devRef .tc main_arg17) : S64x2.Idx → EReal) (ix2 j k) = _
    rw [carry_arg17_21_0 m ρ c]
  have hB2 : ∀ k, headB2 (V21 m ρ) c (ix2 (0 : Fin 1) k) = (m ((c : Thread nD τ).loc main_arg18) : S2.Idx → EReal) (ix1 k) := by
    intro k
    show (W21 m ρ c (Proc.devRef .tc main_v115) : S1x2.Idx → EReal) (ix2 (0 : Fin 1) k) = _
    rw [show W21 m ρ c (Proc.devRef .tc main_v115) = row2K (F := Ideal) (W20 m ρ c (Proc.devRef .tc main_arg18)) from hostOps10_v115 (W20 m ρ c),
      row2K_apply, carry_arg18_20_0 m ρ c]
  rw [show W22 m ρ c (Proc.devRef .tc main_v116) = (dat10 (V21 m ρ) c).arrAt 5 cfg10.N from W22_arr m ρ c 5]
  show result10 (V21 m ρ) c (ix2 g k) = _
  rw [head10]
  simp only [hG, hW1, hB1, hW2, hB2]

end Cert.KernelIdeal.Val

end
-- ==== Proof.Net.lean ====
import proofs.«400876_j79998060855858_1_alg».proof.Proof.Layer
import proofs.«400876_j79998060855858_1_alg».proof.Proof.Math1
import proofs.«400876_j79998060855858_1_alg».proof.Proof.Math2

open scoped BigOperators

namespace Cert.GCN

open Idealize.ShloMosaic

noncomputable def layerReluM (H : Fin 50000 → Fin 128 → EReal) (w : Fin 128 → Fin 128 → EReal) (b g be : Fin 128 → EReal)
    (srcw dst : Fin 1650000 → BitVec 32) (norm : Fin 1650000 → EReal) : Fin 50000 → Fin 128 → EReal :=
  fun p q => max (bnM (zM H w b srcw dst norm) (varM (zM H w b srcw dst norm)) g be p q) 0

noncomputable def layerLinM (H : Fin 50000 → Fin 128 → EReal) (w : Fin 128 → Fin 128 → EReal) (b g be : Fin 128 → EReal)
    (srcw dst : Fin 1650000 → BitVec 32) (norm : Fin 1650000 → EReal) : Fin 50000 → Fin 128 → EReal :=
  fun p q => bnM (zM H w b srcw dst norm) (varM (zM H w b srcw dst norm)) g be p q

noncomputable def poolM (H : Fin 50000 → Fin 128 → EReal) (bt : Fin 50000 → BitVec 32) : Fin 64 → Fin 128 → EReal :=
  fun g f => Ideal.div (0 + ∑ r ∈ Finset.univ.filter (fun r : Fin 50000 => (bt r).toInt = (g.val : Int)), H r f)
    (max (0 + ∑ r ∈ Finset.univ.filter (fun r : Fin 50000 => (bt r).toInt = (g.val : Int)), (1 : EReal))
      (Ideal.ofBits .f32 0x3F800000#32))

noncomputable def headM (G : Fin 64 → Fin 128 → EReal) (w1 : Fin 128 → Fin 64 → EReal) (b1 : Fin 64 → EReal)
    (w2 : Fin 64 → Fin 2 → EReal) (b2 : Fin 2 → EReal) : Fin 64 → Fin 2 → EReal :=
  fun g k => (∑ j : Fin 64, max ((∑ f : Fin 128, G g f * w1 f j) + b1 j) 0 * w2 j k) + b2 k

noncomputable def netM (x : Fin 50000 → Fin 128 → EReal)
    (w1 : Fin 128 → Fin 128 → EReal) (b1 g1 be1 : Fin 128 → EReal)
    (w2 : Fin 128 → Fin 128 → EReal) (b2 g2 be2 : Fin 128 → EReal)
    (w3 : Fin 128 → Fin 128 → EReal) (b3 g3 be3 : Fin 128 → EReal)
    (bt : Fin 50000 → BitVec 32) (srcw dst : Fin 1650000 → BitVec 32) (norm : Fin 1650000 → EReal)
    (wc1 : Fin 128 → Fin 64 → EReal) (bc1 : Fin 64 → EReal) (wc2 : Fin 64 → Fin 2 → EReal) (bc2 : Fin 2 → EReal) :
    Fin 64 → Fin 2 → EReal :=
  headM (poolM (layerLinM (layerReluM (layerReluM x w1 b1 g1 be1 srcw dst norm) w2 b2 g2 be2 srcw dst norm)
    w3 b3 g3 be3 srcw dst norm) bt) wc1 bc1 wc2 bc2

theorem fin2_zM {H : Fin 50000 → Fin 128 → EReal} {w : Fin 128 → Fin 128 → EReal} {b : Fin 128 → EReal}
    (srcw dst : Fin 1650000 → BitVec 32) {norm : Fin 1650000 → EReal} (hH : Fin2 H) (hw : Fin2 w) (hb : Fin1 b)
    (hn : Fin1 norm) : Fin2 (zM H w b srcw dst norm) :=
  fun p q => IsR.add (fin2_propM srcw dst (fin2_linM hH hw) hn p q) (hb q)

theorem fin2_layerReluM {H : Fin 50000 → Fin 128 → EReal} {w : Fin 128 → Fin 128 → EReal} {b g be : Fin 128 → EReal}
    (srcw dst : Fin 1650000 → BitVec 32) {norm : Fin 1650000 → EReal} (hH : Fin2 H) (hw : Fin2 w) (hb : Fin1 b)
    (hg : Fin1 g) (hbe : Fin1 be) (hn : Fin1 norm) : Fin2 (layerReluM H w b g be srcw dst norm) :=
  bnM_relu_fin2 _ g be (fin2_zM srcw dst hH hw hb hn) hg hbe

end Cert.GCN
-- ==== Proof.KValue.lean ====
import proofs.«400876_j79998060855858_1_alg».proof.Proof.KLayers
import proofs.«400876_j79998060855858_1_alg».proof.Proof.KTail
import proofs.«400876_j79998060855858_1_alg».proof.Proof.Net

open scoped BigOperators

noncomputable section

namespace Cert.KernelIdeal.Val

open Cert.KernelIdeal Cert.KernelIdeal.Gen Idealize.ShloMosaic Idealize.ShloMosaic.TcCoe Idealize.ShloMosaic.StableHlo Idealize.ShloMosaic.ValueIdx Idealize.ShloMosaic.Pipeline Cert.GCN

variable (m : (ℓ : Loc nD τ sig) → Buf (Elt Ideal) ℓ) (ρ : Dev nD → PrngReg)

theorem kernel_value (c : Dev nD) (g : Fin 64) (k : Fin 2) :
    (W22 m ρ c (Proc.devRef .tc main_v116) : S64x2.Idx → EReal) (ix2 g k)
      = netM (fun p k => (m ((c : Thread nD τ).loc main_arg0) : S50000x128.Idx → EReal) (ix2 p k))
          (fun k q => (m ((c : Thread nD τ).loc main_arg3) : S128x128.Idx → EReal) (ix2 k q))
          (fun q => (m ((c : Thread nD τ).loc main_arg4) : S128.Idx → EReal) (ix1 q))
          (fun q => (m ((c : Thread nD τ).loc main_arg5) : S128.Idx → EReal) (ix1 q))
          (fun q => (m ((c : Thread nD τ).loc main_arg6) : S128.Idx → EReal) (ix1 q))
          (fun k q => (m ((c : Thread nD τ).loc main_arg7) : S128x128.Idx → EReal) (ix2 k q))
          (fun q => (m ((c : Thread nD τ).loc main_arg8) : S128.Idx → EReal) (ix1 q))
          (fun q => (m ((c : Thread nD τ).loc main_arg9) : S128.Idx → EReal) (ix1 q))
          (fun q => (m ((c : Thread nD τ).loc main_arg10) : S128.Idx → EReal) (ix1 q))
          (fun k q => (m ((c : Thread nD τ).loc main_arg11) : S128x128.Idx → EReal) (ix2 k q))
          (fun q => (m ((c : Thread nD τ).loc main_arg12) : S128.Idx → EReal) (ix1 q))
          (fun q => (m ((c : Thread nD τ).loc main_arg13) : S128.Idx → EReal) (ix1 q))
          (fun q => (m ((c : Thread nD τ).loc main_arg14) : S128.Idx → EReal) (ix1 q))
          (btK m c) (srcwK m c) (dstwK m c) (normwK m c)
          (fun f j => (m ((c : Thread nD τ).loc main_arg15) : S128x64.Idx → EReal) (ix2 f j))
          (fun j => (m ((c : Thread nD τ).loc main_arg16) : S64.Idx → EReal) (ix1 j))
          (fun j k => (m ((c : Thread nD τ).loc main_arg17) : S64x2.Idx → EReal) (ix2 j k))
          (fun k => (m ((c : Thread nD τ).loc main_arg18) : S2.Idx → EReal) (ix1 k)) g k := by
  have h0 : ∀ p k, (W3 m ρ c (Proc.devRef .tc main_arg0) : S50000x128.Idx → EReal) (ix2 p k)
      = (m ((c : Thread nD τ).loc main_arg0) : S50000x128.Idx → EReal) (ix2 p k) := by
    intro p k; rw [carry_arg0_3_0 m ρ c]
  have h1 := k_layer1 m ρ c _ h0
  have h2 := k_layer2 m ρ c _ h1
  have h3 := k_layer3 m ρ c _ h2
  have h4 := k_pool m ρ c _ h3
  have h5 := k_head m ρ c _ h4 g k
  rw [h5]
  rfl

end Cert.KernelIdeal.Val

end
-- ==== Proof.KNormFin.lean ====
import proofs.«400876_j79998060855858_1_alg».proof.Proof.KHostA
import Idealize.ShloMosaic.Lib.IdealHost
import proofs.«400876_j79998060855858_1_alg».proof.Proof.Math1
import proofs.«400876_j79998060855858_1_alg».proof.Proof.Math2

open scoped BigOperators

noncomputable section

namespace Cert.KernelIdeal.Val

open Cert.KernelIdeal Cert.KernelIdeal.Gen Idealize.ShloMosaic Idealize.ShloMosaic.TcCoe Idealize.ShloMosaic.StableHlo Idealize.ShloMosaic.ValueIdx Idealize.ShloMosaic.Pipeline Cert.GCN

theorem select_real {s : Shape} (c : IVec s 1) (a b : s.Idx → EReal) (ha : ∀ i, ∃ r : ℝ, a i = (r : EReal))
    (hb : ∀ i, ∃ r : ℝ, b i = (r : EReal)) (i : s.Idx) : ∃ r : ℝ, select c a b i = (r : EReal) := by
  rw [select_apply]
  unfold Scalar.select
  split
  · exact ha i
  · exact hb i

theorem bcast_const_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w := by
  rw [broadcastInDim_scalar_apply, constant_apply]

theorem rsqrt_max_real {s : Shape} (d one : FVec Ideal s .f32) (hone : ∀ i, one i = Ideal.ofBits .f32 0x3F800000#32) (i : s.Idx) :
    ∃ r : ℝ, Host.rsqrt (maximumf d one) i = (r : EReal) := by
  show ∃ r : ℝ, Ideal.rsqrt (max (d i) (one i)) = (r : EReal)
  rw [hone]
  exact IsR.rsqrt_max_one_word _

theorem dinvK_real (dst : IVec S1650000 32) (k : S50000.Idx) : ∃ r : ℝ, dinvK dst k = (r : EReal) :=
  select_real _ _ _ (rsqrt_max_real _ _ (bcast_const_apply _ _)) (fun i => ⟨0, by rw [bcast_const_apply, ofBits_zero]; rfl⟩) k

theorem mulf_real {s : Shape} (a b : FVec Ideal s .f32) (ha : ∀ i, ∃ r : ℝ, a i = (r : EReal)) (hb : ∀ i, ∃ r : ℝ, b i = (r : EReal))
    (i : s.Idx) : ∃ r : ℝ, mulf a b i = (r : EReal) := by
  rw [mulf_apply]; exact real_mul (ha i) (hb i)

theorem normK_real (src dst : IVec S1650000 32) (e : Fin 1650000) : ∃ r : ℝ, normK src dst (ix1 e) = (r : EReal) :=
  mulf_real _ _ (hostGather_real _ _ _ (dinvK_real dst)) (hostGather_real _ _ _ (dinvK_real dst)) _

end Cert.KernelIdeal.Val

end
-- ==== Proof.PreFin.lean ====
import proofs.«400876_j79998060855858_1_alg».proof.Defs
import Idealize.ShloMosaic.Lib.ReduceAll
import Idealize.ShloMosaic.Lib.ValueIdx

set_option maxRecDepth 16384

noncomputable section

open Idealize.ShloMosaic Idealize.SL.Sem

namespace Cert.KernelIdeal.Val

-- An extended real with max x (-x) below the top element is neither infinite value.
theorem real_of_abs_lt_top (x : EReal) (h : max x (-x) < ⊤) : ∃ r : ℝ, x = (r : EReal) := by
  induction x using EReal.rec with
  | bot => simp at h
  | coe r => exact ⟨r, rfl⟩
  | top => simp at h

theorem real_of_cmp (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases hlt : max (x : EReal) (-(x : EReal)) < ⊤
  · exact real_of_abs_lt_top x hlt
  · simp [hlt] at h

theorem all_real {s : Shape} {axes : List (Fin s.rank)} {x : FVec Ideal s .f32}
    {bc : (⟨0, ![]⟩ : Shape).BroadcastsInDim s (![] : Fin 0 → Fin s.rank)}
    {hr : s.ReducesTo axes (⟨0, ![]⟩ : Shape)} {hu : 0 < (⟨0, ![]⟩ : Shape).numel}
    {init : IVec (⟨0, ![]⟩ : Shape) 1} {j : (⟨0, ![]⟩ : Shape).Idx}
    (e : Host.reduce IntOp.andi
          (cmpf .olt (Host.absf x) (broadcastInDim s ![] bc (constant (F := Ideal) (⟨0, ![]⟩ : Shape) .f32 0x7F800000#32)))
          init hr hu j = 1#1) (i : s.Idx) : ∃ r : ℝ, x i = (r : EReal) :=
  real_of_cmp (x i) (Host.reduce_andi_all _ init hr hu j e i)

theorem andi_apply_eq_one {s : Shape} (x y : IVec s 1) (i : s.Idx) :
    andi x y i = 1#1 ↔ x i = 1#1 ∧ y i = 1#1 := IntOp.andi_eq_one

theorem finite_of_pre [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal))
    ∧ (∀ i, ∃ r : ℝ, m ((c.tc : Thread Cert.KernelIdeal.nD Cert.KernelIdeal.τ).loc Cert.KernelIdeal.main_arg11) i = (r : EReal))
    ∧ (∀ i, ∃ r : ℝ, m ((c.tc : Thread Cert.KernelIdeal.nD Cert.KernelIdeal.τ).loc Cert.KernelIdeal.main_arg12) i = (r : EReal))
    ∧ (∀ i, ∃ r : ℝ, m ((c.tc : Thread Cert.KernelIdeal.nD Cert.KernelIdeal.τ).loc Cert.KernelIdeal.main_arg13) i = (r : EReal))
    ∧ (∀ i, ∃ r : ℝ, m ((c.tc : Thread Cert.KernelIdeal.nD Cert.KernelIdeal.τ).loc Cert.KernelIdeal.main_arg14) i = (r : EReal))
    ∧ (∀ i, ∃ r : ℝ, m ((c.tc : Thread Cert.KernelIdeal.nD Cert.KernelIdeal.τ).loc Cert.KernelIdeal.main_arg15) i = (r : EReal))
    ∧ (∀ i, ∃ r : ℝ, m ((c.tc : Thread Cert.KernelIdeal.nD Cert.KernelIdeal.τ).loc Cert.KernelIdeal.main_arg16) i = (r : EReal))
    ∧ (∀ i, ∃ r : ℝ, m ((c.tc : Thread Cert.KernelIdeal.nD Cert.KernelIdeal.τ).loc Cert.KernelIdeal.main_arg17) i = (r : EReal))
    ∧ (∀ i, ∃ r : ℝ, m ((c.tc : Thread Cert.KernelIdeal.nD Cert.KernelIdeal.τ).loc Cert.KernelIdeal.main_arg18) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  simp only [andi_apply_eq_one, and_assoc] at h0
  obtain ⟨a0, a3, a4, a5, a6, a7, a8, a9, a10, a11, a12, a13, a14, a15, a16, a17, a18⟩ := h0
  exact ⟨all_real a0, all_real a3, all_real a4, all_real a5, all_real a6, all_real a7, all_real a8, all_real a9,
    all_real a10, all_real a11, all_real a12, all_real a13, all_real a14, all_real a15, all_real a16, all_real a17,
    all_real a18⟩

end Cert.KernelIdeal.Val
-- ==== Proof.RLayer1.lean ====
import proofs.«400876_j79998060855858_1_alg».proof.Proof.Gen.ReferenceIdeal
import proofs.«400876_j79998060855858_1_alg».proof.Proof.LibGatherScatter
import proofs.«400876_j79998060855858_1_alg».proof.Proof.Layer
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember
import proofs.«400876_j79998060855858_1_alg».proof.Proof.RefOps

set_option maxRecDepth 16384

open scoped BigOperators

noncomputable section

namespace Cert.ReferenceIdeal.Val

open Cert.ReferenceIdeal Cert.ReferenceIdeal.Gen Cert.GCN Idealize.ShloMosaic Idealize.ShloMosaic.TcCoe Idealize.SL.Sem Idealize.ShloMosaic.StableHlo Idealize.ShloMosaic.ValueIdx

variable {F : FTy → Type} [FloatOps F]

section ReadAt
variable {α : Type}

theorem bc_scalar {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem bc_edgeCol (h : S1650000.BroadcastsInDim S1650000x1 (![0] : Fin 1 → Fin S1650000x1.rank)) (x : S1650000.Idx → α)
    (e : Fin 1650000) (c : Fin 1) : broadcastInDim S1650000x1 ![0] h x (ix2 e c) = x (ix1 e) :=
  broadcastInDim_apply _ h x (ix2 e c) (ix1 e) (fun a => by match a with | ⟨0, _⟩ => rfl)

theorem bc_edgeCols (h : S1650000x1.BroadcastsInDim S1650000x128 (![0, 1] : Fin 2 → Fin S1650000x128.rank))
    (x : S1650000x1.Idx → α) (e : Fin 1650000) (q : Fin 128) :
    broadcastInDim S1650000x128 ![0, 1] h x (ix2 e q) = x (ix2 e 0) :=
  broadcastInDim_apply _ h x (ix2 e q) (ix2 e 0) (fun a => by match a with | ⟨0, _⟩ => rfl | ⟨1, _⟩ => rfl)

theorem bc_row (h : S128.BroadcastsInDim S1x128 (![1] : Fin 1 → Fin S1x128.rank)) (x : S128.Idx → α)
    (c : Fin 1) (q : Fin 128) : broadcastInDim S1x128 ![1] h x (ix2 c q) = x (ix1 q) :=
  broadcastInDim_apply _ h x (ix2 c q) (ix1 q) (fun a => by match a with | ⟨0, _⟩ => rfl)

theorem bc_rows (h : S1x128.BroadcastsInDim S50000x128 (![0, 1] : Fin 2 → Fin S50000x128.rank)) (x : S1x128.Idx → α)
    (p : Fin 50000) (q : Fin 128) : broadcastInDim S50000x128 ![0, 1] h x (ix2 p q) = x (ix2 0 q) :=
  broadcastInDim_apply _ h x (ix2 p q) (ix2 0 q) (fun a => by match a with | ⟨0, _⟩ => rfl | ⟨1, _⟩ => rfl)

end ReadAt

theorem dot_apply (X : FVec Ideal S50000x128 .f32) (Wt : FVec Ideal S128x128 .f32) (p : Fin 50000) (q : Fin 128) :
    Host.dotGeneral (F := Ideal) dot_S50000x128_S128x128_S50000x128_1_0_0_1_n_n none X Wt (ix2 p q)
      = ∑ k : Fin 128, X (ix2 p k) * Wt (ix2 k q) :=
  StackMember.dotGeneral_plain_apply none X Wt p q

theorem reduceRows_apply (x : FVec Ideal S50000x128 .f32) (init : S_.Idx → Ideal .f32) (q : Fin 128) :
    Host.reduceAdd (F := Ideal) x init reducesTo_S50000x128_S128_d0 h_S_ (ix1 q) = init ix0 + ∑ r : Fin 50000, x (ix2 r q) := by
  have h : S50000x128.Reduces [0] S128 := by decide
  have key : Host.reduceAdd (F := Ideal) x init reducesTo_S50000x128_S128_d0 h_S_ (ix1 q)
      = init (Shape.Idx.first h_S_) + ∑ k, x (h.lift (ix1 q) k) :=
    Ideal.hostReduceAdd_single reducesTo_S50000x128_S128_d0 h x (init (Shape.Idx.first h_S_)) (ix1 q)
  have e1 : init (Shape.Idx.first h_S_) = init ix0 := congrArg init (funext fun a => a.elim0)
  rw [key, e1]
  refine congrArg (fun s => init ix0 + s) (Finset.sum_congr rfl fun r _ => congrArg x ?_)
  funext a
  refine Fin.ext ?_
  match a with
  | ⟨0, _⟩ => rfl
  | ⟨1, _⟩ => rfl

def wrapR (s : IVec S1650000 32) : IVec S1650000 32 :=
  select (cmpi .slt s (broadcastInDim S1650000 ![] bcast_S_S1650000 (constantI S_ 32 0#32)))
    (addi s (broadcastInDim S1650000 ![] bcast_S_S1650000 (constantI S_ 32 50000#32))) s

def degR (dst : IVec S1650000 32) : FVec Ideal S50000 .f32 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))

def dinvR (dst : IVec S1650000 32) : FVec Ideal S50000 .f32 :=
  select (cmpf .ogt (degR dst) (broadcastInDim S50000 ![] bcast_S_S50000 (constant S_ .f32 0x00000000#32)))
    (Host.rsqrt (maximumf (degR dst) (broadcastInDim S50000 ![] bcast_S_S50000 (constant S_ .f32 0x3F800000#32))))
    (broadcastInDim S50000 ![] bcast_S_S50000 (id (constant S_ .f32 0x00000000#32)))

def normR (src dst : IVec S1650000 32) : FVec Ideal S1650000 .f32 :=
  mulf
    (Host.gather gather_S50000_S1650000x1_S1650000_n_0_n_n_0_1_1 (dinvR dst)
      (broadcastInDim S1650000x1 ![0] bcast_S1650000_S1650000x1_0 (wrapR src)))
    (Host.gather gather_S50000_S1650000x1_S1650000_n_0_n_n_0_1_1 (dinvR dst)
      (broadcastInDim S1650000x1 ![0] bcast_S1650000_S1650000x1_0 (wrapR dst)))

def dinvOf (c : IVec S50000 1) (a : FVec Ideal S50000 .f32) (z : FVec Ideal S_ .f32) : FVec Ideal S50000 .f32 :=
  select c a (broadcastInDim S50000 ![] bcast_S_S50000 (id z))

def normOf (d : FVec Ideal S50000 .f32) (src dst : IVec S1650000 32) : FVec Ideal S1650000 .f32 :=
  mulf
    (Host.gather gather_S50000_S1650000x1_S1650000_n_0_n_n_0_1_1 d
      (broadcastInDim S1650000x1 ![0] bcast_S1650000_S1650000x1_0 (wrapR src)))
    (Host.gather gather_S50000_S1650000x1_S1650000_n_0_n_n_0_1_1 d
      (broadcastInDim S1650000x1 ![0] bcast_S1650000_S1650000x1_0 (wrapR dst)))

theorem normR_eq (src dst : IVec S1650000 32) :
    normR src dst = normOf (dinvOf
      (cmpf .ogt (degR dst) (broadcastInDim S50000 ![] bcast_S_S50000 (constant S_ .f32 0x00000000#32)))
      (Host.rsqrt (maximumf (degR dst) (broadcastInDim S50000 ![] bcast_S_S50000 (constant S_ .f32 0x3F800000#32))))
      (constant S_ .f32 0x00000000#32)) src dst := rfl

def dotT (X : FVec Ideal S50000x128 .f32) (Wt : FVec Ideal S128x128 .f32) : FVec Ideal S50000x128 .f32 :=
  Host.dotGeneral (F := Ideal) dot_S50000x128_S128x128_S50000x128_1_0_0_1_n_n none X Wt

def zT (lin : FVec Ideal S50000x128 .f32) (b : FVec Ideal S128 .f32) (src dst : IVec S1650000 32)
    (nrm : FVec Ideal S1650000 .f32) : FVec Ideal S50000x128 .f32 :=
  addf
    (Host.scatterAdd scatter_S50000x128_S1650000x1_S1650000x128_1_0_0_1
      (broadcastInDim S50000x128 ![] bcast_S_S50000x128 (constant S_ .f32 0x00000000#32))
      (broadcastInDim S1650000x1 ![0] bcast_S1650000_S1650000x1_0 dst)
      (mulf
        (Host.gather gather_S50000x128_S1650000x1_S1650000x128_1_0_n_n_0_1_1128 lin
          (broadcastInDim S1650000x1 ![0] bcast_S1650000_S1650000x1_0 (wrapR src)))
        (broadcastInDim S1650000x128 ![0, 1] bcast_S1650000x1_S1650000x128_0_1
          (broadcastInDim S1650000x1 ![0] bcast_S1650000_S1650000x1_0 nrm))))
    (broadcastInDim S50000x128 ![0, 1] bcast_S1x128_S50000x128_0_1 (broadcastInDim S1x128 ![1] bcast_S128_S1x128_1 b))

def meanT (z : FVec Ideal S50000x128 .f32) : FVec Ideal S128 .f32 :=
  Host.divf (Host.reduceAdd z (constant S_ .f32 0x00000000#32) reducesTo_S50000x128_S128_d0 h_S_)
    (broadcastInDim S128 ![] bcast_S_S128 (constant S_ .f32 0x47435000#32))

def cntT : FVec Ideal S_ .f32 :=
  subf (constant S_ .f32 0x47435000#32) (sitofp .f32 (constantI S_ 32 0#32))

def devT (z : FVec Ideal S50000x128 .f32) : FVec Ideal S50000x128 .f32 :=
  subf z (broadcastInDim S50000x128 ![0, 1] bcast_S1x128_S50000x128_0_1
    (Host.divf
      (broadcastInDim S1x128 ![1] bcast_S128_S1x128_1
        (Host.reduceAdd z (constant S_ .f32 0x00000000#32) reducesTo_S50000x128_S128_d0 h_S_))
      (broadcastInDim S1x128 ![] bcast_S_S1x128 (constant S_ .f32 0x47435000#32))))

def varT (z : FVec Ideal S50000x128 .f32) : FVec Ideal S128 .f32 :=
  select (broadcastInDim S128 ![] bcast_S_S128 (cmpf .ogt cntT (constant S_ .f32 0x00000000#32)))
    (Host.divf (Host.reduceAdd (mulf (devT z) (devT z)) (constant S_ .f32 0x00000000#32) reducesTo_S50000x128_S128_d0 h_S_)
      (broadcastInDim S128 ![] bcast_S_S128 cntT))
    (broadcastInDim S128 ![] bcast_S_S128 (id (constant S_ .f32 0x7FC00000#32)))

def bnT (z : FVec Ideal S50000x128 .f32) (gam bet : FVec Ideal S128 .f32) : FVec Ideal S50000x128 .f32 :=
  addf
    (mulf
      (mulf
        (subf z (broadcastInDim S50000x128 ![0, 1] bcast_S1x128_S50000x128_0_1
          (broadcastInDim S1x128 ![1] bcast_S128_S1x128_1 (meanT z))))
        (broadcastInDim S50000x128 ![0, 1] bcast_S1x128_S50000x128_0_1
          (broadcastInDim S1x128 ![1] bcast_S128_S1x128_1
            (Host.rsqrt (addf (varT z) (broadcastInDim S128 ![] bcast_S_S128 (constant S_ .f32 0x3727C5AC#32)))))))
      (broadcastInDim S50000x128 ![0, 1] bcast_S1x128_S50000x128_0_1 (broadcastInDim S1x128 ![1] bcast_S128_S1x128_1 gam)))
    (broadcastInDim S50000x128 ![0, 1] bcast_S1x128_S50000x128_0_1 (broadcastInDim S1x128 ![1] bcast_S128_S1x128_1 bet))

def reluT (y : FVec Ideal S50000x128 .f32) : FVec Ideal S50000x128 .f32 :=
  maximumf y (broadcastInDim S50000x128 ![] bcast_S_S50000x128 (constant S_ .f32 0x00000000#32))

theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

theorem zT_apply (lin : FVec Ideal S50000x128 .f32) (b : FVec Ideal S128 .f32) (src dst : IVec S1650000 32)
    (nrm : FVec Ideal S1650000 .f32) (p : Fin 50000) (q : Fin 128) :
    zT lin b src dst nrm (ix2 p q)
      = propM (fun r j => lin (ix2 r j)) (fun e => wrapR src (ix1 e)) (fun e => dst (ix1 e)) (fun e => nrm (ix1 e)) p q
        + b (ix1 q) := by
  have hb : broadcastInDim S50000x128 ![0, 1] bcast_S1x128_S50000x128_0_1
      (broadcastInDim S1x128 ![1] bcast_S128_S1x128_1 b) (ix2 p q) = b (ix1 q) := by
    rw [bc_rows, bc_row]
  have h0 : broadcastInDim S50000x128 ![] bcast_S_S50000x128 (constant (F := Ideal) S_ .f32 0x00000000#32) (ix2 p q) = 0 := by
    rw [bc_scalar]; exact Ideal.ofBits_zero_f32
  have hidx : ∀ e : Fin 1650000,
      broadcastInDim S1650000x1 ![0] bcast_S1650000_S1650000x1_0 dst (ix2 e 0) = dst (ix1 e) :=
    fun e => bc_edgeCol _ dst e 0
  have hupd : ∀ e : Fin 1650000,
      mulf
        (Host.gather gather_S50000x128_S1650000x1_S1650000x128_1_0_n_n_0_1_1128 lin
          (broadcastInDim S1650000x1 ![0] bcast_S1650000_S1650000x1_0 (wrapR src)))
        (broadcastInDim S1650000x128 ![0, 1] bcast_S1650000x1_S1650000x128_0_1
          (broadcastInDim S1650000x1 ![0] bcast_S1650000_S1650000x1_0 nrm)) (ix2 e q)
      = lin (ix2 ⟨min (wrapR src (ix1 e)).toInt.toNat 49999, by omega⟩ q) * nrm (ix1 e) := by
    intro e
    have hi : (⟨min (broadcastInDim S1650000x1 ![0] bcast_S1650000_S1650000x1_0 (wrapR src) (ix2 e 0)).toInt.toNat (50000 - 1),
          by omega⟩ : Fin 50000) = ⟨min (wrapR src (ix1 e)).toInt.toNat 49999, by omega⟩ :=
      Fin.ext (by show min _ _ = min _ _; rw [bc_edgeCol])
    rw [mulf_apply, Cert.Bridge.GS.gather_apply (by decide) gather_S50000x128_S1650000x1_S1650000x128_1_0_n_n_0_1_1128
      rfl rfl rfl rfl rfl, bc_edgeCols, bc_edgeCol _ nrm e 0]
    exact congrArg (fun i => lin (ix2 i q) * nrm (ix1 e)) hi
  unfold zT
  rw [addf_apply, hb, Cert.Bridge.GS.scatterAdd_apply scatter_S50000x128_S1650000x1_S1650000x128_1_0_0_1 rfl rfl rfl rfl, h0]
  unfold propM
  simp only [hidx, hupd]

theorem dotT_rows (X : FVec Ideal S50000x128 .f32) (Wt : FVec Ideal S128x128 .f32) :
    (fun r j => dotT X Wt (ix2 r j)) = linM (fun p k => X (ix2 p k)) (fun k q => Wt (ix2 k q)) := by
  funext r j
  exact dot_apply X Wt r j

theorem meanT_apply (z : FVec Ideal S50000x128 .f32) (q : Fin 128) :
    meanT z (ix1 q) = meanM (fun r j => z (ix2 r j)) q := by
  unfold meanT meanM
  rw [hdivf_apply, reduceRows_apply, bc_scalar]
  show Ideal.div (Ideal.ofBits .f32 0x00000000#32 + _) (Ideal.ofBits .f32 0x47435000#32) = _
  rw [Ideal.ofBits_zero_f32, zero_add]

theorem cntT_eq : cntT ix0 = cN - ((0 : ℝ) : EReal) := by
  show Ideal.ofBits .f32 0x47435000#32 - ((((0#32 : BitVec 32).toInt : ℤ) : ℝ) : EReal) = _
  simp

theorem devT_apply (z : FVec Ideal S50000x128 .f32) (r : Fin 50000) (q : Fin 128) :
    devT z (ix2 r q) = z (ix2 r q) - meanM (fun r j => z (ix2 r j)) q := by
  unfold devT meanM
  rw [subf_apply, bc_rows, hdivf_apply, bc_row, reduceRows_apply, bc_scalar]
  show _ - Ideal.div (Ideal.ofBits .f32 0x00000000#32 + _) (Ideal.ofBits .f32 0x47435000#32) = _
  rw [Ideal.ofBits_zero_f32, zero_add]

def varR (z : Fin 50000 → Fin 128 → EReal) (q : Fin 128) : EReal :=
  Scalar.select (Ideal.cmp .ogt (cN - ((0 : ℝ) : EReal)) 0) (varDevM z q) (Ideal.ofBits .f32 0x7FC00000#32)

theorem varT_apply (z : FVec Ideal S50000x128 .f32) (q : Fin 128) :
    varT z (ix1 q) = varR (fun r j => z (ix2 r j)) q := by
  unfold varT varR varDevM
  rw [select_apply, bc_scalar, bc_scalar, hdivf_apply, bc_scalar, reduceRows_apply, cmpf_apply, cntT_eq]
  show Scalar.select (Ideal.cmp .ogt _ (Ideal.ofBits .f32 0x00000000#32)) (Ideal.div (Ideal.ofBits .f32 0x00000000#32 + _) _) (Ideal.ofBits .f32 0x7FC00000#32) = _
  rw [Ideal.ofBits_zero_f32, zero_add]
  simp only [mulf_apply, devT_apply]

theorem bnT_apply (z : FVec Ideal S50000x128 .f32) (gam bet : FVec Ideal S128 .f32) (p : Fin 50000) (q : Fin 128) :
    bnT z gam bet (ix2 p q)
      = bnM (fun r j => z (ix2 r j)) (varR (fun r j => z (ix2 r j))) (fun j => gam (ix1 j)) (fun j => bet (ix1 j)) p q := by
  unfold bnT bnM
  rw [addf_apply, mulf_apply, mulf_apply, subf_apply, bc_rows, bc_row, bc_rows, bc_row, bc_rows, bc_row, bc_rows, bc_row,
    meanT_apply, hrsqrt_apply, addf_apply, varT_apply, bc_scalar]
  rfl

theorem reluT_apply (y : FVec Ideal S50000x128 .f32) (p : Fin 50000) (q : Fin 128) :
    reluT y (ix2 p q) = max (y (ix2 p q)) 0 := by
  unfold reluT
  rw [maximumf_apply, bc_scalar]
  show max _ (Ideal.ofBits .f32 0x00000000#32) = _
  rw [Ideal.ofBits_zero_f32]

theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

def zOf (X : FVec Ideal S50000x128 .f32) (Wt : FVec Ideal S128x128 .f32) (b : FVec Ideal S128 .f32)
    (src dst : IVec S1650000 32) : Fin 50000 → Fin 128 → EReal :=
  zM (fun p k => X (ix2 p k)) (fun k q => Wt (ix2 k q)) (fun q => b (ix1 q)) (fun e => wrapR src (ix1 e))
    (fun e => dst (ix1 e)) (fun e => normR src dst (ix1 e))

def bnOf (z : Fin 50000 → Fin 128 → EReal) (gam bet : FVec Ideal S128 .f32) : Fin 50000 → Fin 128 → EReal :=
  bnM z (varR z) (fun j => gam (ix1 j)) (fun j => bet (ix1 j))

theorem zT_rows (X : FVec Ideal S50000x128 .f32) (Wt : FVec Ideal S128x128 .f32) (b : FVec Ideal S128 .f32)
    (src dst : IVec S1650000 32) :
    (fun r j => zT (dotT X Wt) b src dst (normR src dst) (ix2 r j)) = zOf X Wt b src dst := by
  funext r j
  rw [zT_apply, dotT_rows]
  rfl

theorem layer_apply_lin (X : FVec Ideal S50000x128 .f32) (Wt : FVec Ideal S128x128 .f32) (b : FVec Ideal S128 .f32)
    (src dst : IVec S1650000 32) (gam bet : FVec Ideal S128 .f32) (p : Fin 50000) (q : Fin 128) :
    bnT (zT (dotT X Wt) b src dst (normR src dst)) gam bet (ix2 p q) = bnOf (zOf X Wt b src dst) gam bet p q := by
  rw [bnT_apply, zT_rows]
  rfl

theorem layer_apply (X : FVec Ideal S50000x128 .f32) (Wt : FVec Ideal S128x128 .f32) (b : FVec Ideal S128 .f32)
    (src dst : IVec S1650000 32) (gam bet : FVec Ideal S128 .f32) (p : Fin 50000) (q : Fin 128) :
    reluT (bnT (zT (dotT X Wt) b src dst (normR src dst)) gam bet) (ix2 p q)
      = max (bnOf (zOf X Wt b src dst) gam bet p q) 0 := by
  rw [reluT_apply, layer_apply_lin]

theorem ropsL1_split : (ropsL1 : List (HloOp τ sig (Elt F))) = ropsL1.take 15 ++ ((ropsL1.drop 15).take 22 ++ ((ropsL1.drop 37).take 19 ++ ropsL1.drop 56)) := rfl

section
variable (V : Valuation τ sig (Elt Ideal))

theorem l1a_lin : after ((ropsL1 (F := Ideal)).take 15) V (Proc.devRef .tc main_v7) = dotT (V (Proc.devRef .tc main_arg0)) (V (Proc.devRef .tc main_arg3)) := by
  simp only [List.take_succ_cons, List.take_zero]
  after_results_simp; rfl
theorem l1a_mask : after ((ropsL1 (F := Ideal)).take 15) V (Proc.devRef .tc main_v13)
    = cmpf .ogt (degR (V (Proc.devRef .tc main_v6))) (broadcastInDim S50000 ![] bcast_S_S50000 (constant S_ .f32 0x00000000#32)) := by
  simp only [List.take_succ_cons, List.take_zero]
  after_results_simp; rfl
theorem l1a_root : after ((ropsL1 (F := Ideal)).take 15) V (Proc.devRef .tc main_v16)
    = Host.rsqrt (maximumf (degR (V (Proc.devRef .tc main_v6))) (broadcastInDim S50000 ![] bcast_S_S50000 (constant S_ .f32 0x3F800000#32))) := by
  simp only [List.take_succ_cons, List.take_zero]
  after_results_simp; rfl
theorem l1a_zero : after ((ropsL1 (F := Ideal)).take 15) V (Proc.devRef .tc main_cst_3) = constant (F := Ideal) S_ .f32 0x00000000#32 := by
  simp only [List.take_succ_cons, List.take_zero]
  after_results_simp
theorem l1s_nrm : after (((ropsL1 (F := Ideal)).drop 15).take 22) V (Proc.devRef .tc main_v32)
    = normOf (dinvOf (V (Proc.devRef .tc main_v13)) (V (Proc.devRef .tc main_v16)) (V (Proc.devRef .tc main_cst_3))) (V (Proc.devRef .tc main_v3)) (V (Proc.devRef .tc main_v6)) := by
  simp only [List.drop_succ_cons, List.drop_zero, List.take_succ_cons, List.take_zero]
  after_results_simp; rfl
theorem l1b_z : after (((ropsL1 (F := Ideal)).drop 37).take 19) V (Proc.devRef .tc main_v48)
    = zT (V (Proc.devRef .tc main_v7)) (V (Proc.devRef .tc main_arg4)) (V (Proc.devRef .tc main_v3)) (V (Proc.devRef .tc main_v6)) (V (Proc.devRef .tc main_v32)) := by
  simp only [List.drop_succ_cons, List.drop_zero, List.take_succ_cons, List.take_zero]
  after_results_simp; rfl
theorem l1c_out : after ((ropsL1 (F := Ideal)).drop 56) V (Proc.devRef .tc main_v68) = reluT (bnT (V (Proc.devRef .tc main_v48)) (V (Proc.devRef .tc main_arg5)) (V (Proc.devRef .tc main_arg6))) := by
  simp only [List.drop_succ_cons, List.drop_zero]
  after_results_simp; rfl

end

theorem layer1R_arr (W : Valuation τ sig (Elt Ideal)) :
    after (ropsL1 (F := Ideal)) W (Proc.devRef .tc main_v68)
      = reluT (bnT (zT (dotT (W (Proc.devRef .tc main_arg0)) (W (Proc.devRef .tc main_arg3))) (W (Proc.devRef .tc main_arg4)) (W (Proc.devRef .tc main_v3)) (W (Proc.devRef .tc main_v6))
          (normR (W (Proc.devRef .tc main_v3)) (W (Proc.devRef .tc main_v6)))) (W (Proc.devRef .tc main_arg5)) (W (Proc.devRef .tc main_arg6))) := by
  rw [ropsL1_split, after_app, after_app, after_app, l1c_out, l1b_z,
    (fun V => by simp only [List.drop_succ_cons, List.drop_zero, List.take_succ_cons, List.take_zero]; after_results_simp : ∀ V, after (((ropsL1 (F := Ideal)).drop 37).take 19) V (Proc.devRef .tc main_arg5) = V (Proc.devRef .tc main_arg5)), (fun V => by simp only [List.drop_succ_cons, List.drop_zero, List.take_succ_cons, List.take_zero]; after_results_simp : ∀ V, after (((ropsL1 (F := Ideal)).drop 37).take 19) V (Proc.devRef .tc main_arg6) = V (Proc.devRef .tc main_arg6)),
    l1s_nrm, (fun V => by simp only [List.drop_succ_cons, List.drop_zero, List.take_succ_cons, List.take_zero]; after_results_simp : ∀ V, after (((ropsL1 (F := Ideal)).drop 15).take 22) V (Proc.devRef .tc main_v7) = V (Proc.devRef .tc main_v7)), (fun V => by simp only [List.drop_succ_cons, List.drop_zero, List.take_succ_cons, List.take_zero]; after_results_simp : ∀ V, after (((ropsL1 (F := Ideal)).drop 15).take 22) V (Proc.devRef .tc main_v3) = V (Proc.devRef .tc main_v3)), (fun V => by simp only [List.drop_succ_cons, List.drop_zero, List.take_succ_cons, List.take_zero]; after_results_simp : ∀ V, after (((ropsL1 (F := Ideal)).drop 15).take 22) V (Proc.devRef .tc main_v6) = V (Proc.devRef .tc main_v6)),
    (fun V => by simp only [List.drop_succ_cons, List.drop_zero, List.take_succ_cons, List.take_zero]; after_results_simp : ∀ V, after (((ropsL1 (F := Ideal)).drop 15).take 22) V (Proc.devRef .tc main_arg4) = V (Proc.devRef .tc main_arg4)), (fun V => by simp only [List.drop_succ_cons, List.drop_zero, List.take_succ_cons, List.take_zero]; after_results_simp : ∀ V, after (((ropsL1 (F := Ideal)).drop 15).take 22) V (Proc.devRef .tc main_arg5) = V (Proc.devRef .tc main_arg5)), (fun V => by simp only [List.drop_succ_cons, List.drop_zero, List.take_succ_cons, List.take_zero]; after_results_simp : ∀ V, after (((ropsL1 (F := Ideal)).drop 15).take 22) V (Proc.devRef .tc main_arg6) = V (Proc.devRef .tc main_arg6)),
    l1a_lin, l1a_mask, l1a_root, l1a_zero, (fun V => by simp only [List.take_succ_cons, List.take_zero]; after_results_simp : ∀ V, after ((ropsL1 (F := Ideal)).take 15) V (Proc.devRef .tc main_v3) = V (Proc.devRef .tc main_v3)), (fun V => by simp only [List.take_succ_cons, List.take_zero]; after_results_simp : ∀ V, after ((ropsL1 (F := Ideal)).take 15) V (Proc.devRef .tc main_v6) = V (Proc.devRef .tc main_v6)),
    (fun V => by simp only [List.take_succ_cons, List.take_zero]; after_results_simp : ∀ V, after ((ropsL1 (F := Ideal)).take 15) V (Proc.devRef .tc main_arg4) = V (Proc.devRef .tc main_arg4)), (fun V => by simp only [List.take_succ_cons, List.take_zero]; after_results_simp : ∀ V, after ((ropsL1 (F := Ideal)).take 15) V (Proc.devRef .tc main_arg5) = V (Proc.devRef .tc main_arg5)), (fun V => by simp only [List.take_succ_cons, List.take_zero]; after_results_simp : ∀ V, after ((ropsL1 (F := Ideal)).take 15) V (Proc.devRef .tc main_arg6) = V (Proc.devRef .tc main_arg6)), ← normR_eq]

theorem layer1R (W : Valuation τ sig (Elt Ideal)) (p : Fin 50000) (q : Fin 128) :
    after (ropsL1 (F := Ideal)) W (Proc.devRef .tc main_v68) (ix2 p q)
      = max (bnOf (zOf (W (Proc.devRef .tc main_arg0)) (W (Proc.devRef .tc main_arg3)) (W (Proc.devRef .tc main_arg4)) (W (Proc.devRef .tc main_v3)) (W (Proc.devRef .tc main_v6)))
          (W (Proc.devRef .tc main_arg5)) (W (Proc.devRef .tc main_arg6)) p q) 0 := by
  rw [layer1R_arr]
  exact layer_apply _ _ _ _ _ _ _ p q

end Cert.ReferenceIdeal.Val

end
-- ==== Proof.RLayer2.lean ====
import proofs.«400876_j79998060855858_1_alg».proof.Proof.RLayer1

set_option maxRecDepth 16384

open scoped BigOperators

noncomputable section

namespace Cert.ReferenceIdeal.Val

open Cert.ReferenceIdeal Cert.ReferenceIdeal.Gen Cert.GCN Idealize.ShloMosaic Idealize.ShloMosaic.TcCoe Idealize.SL.Sem Idealize.ShloMosaic.StableHlo Idealize.ShloMosaic.ValueIdx

variable {F : FTy → Type} [FloatOps F]

theorem ropsL2_split : (ropsL2 : List (HloOp τ sig (Elt F))) = ropsL2.take 15 ++ ((ropsL2.drop 15).take 22 ++ ((ropsL2.drop 37).take 19 ++ ropsL2.drop 56)) := rfl

section
variable (V : Valuation τ sig (Elt Ideal))

theorem l2a_lin : after ((ropsL2 (F := Ideal)).take 15) V (Proc.devRef .tc main_v69) = dotT (V (Proc.devRef .tc main_v68)) (V (Proc.devRef .tc main_arg7)) := by
  simp only [List.take_succ_cons, List.take_zero]
  after_results_simp; rfl
theorem l2a_mask : after ((ropsL2 (F := Ideal)).take 15) V (Proc.devRef .tc main_v75)
    = cmpf .ogt (degR (V (Proc.devRef .tc main_v6))) (broadcastInDim S50000 ![] bcast_S_S50000 (constant S_ .f32 0x00000000#32)) := by
  simp only [List.take_succ_cons, List.take_zero]
  after_results_simp; rfl
theorem l2a_root : after ((ropsL2 (F := Ideal)).take 15) V (Proc.devRef .tc main_v78)
    = Host.rsqrt (maximumf (degR (V (Proc.devRef .tc main_v6))) (broadcastInDim S50000 ![] bcast_S_S50000 (constant S_ .f32 0x3F800000#32))) := by
  simp only [List.take_succ_cons, List.take_zero]
  after_results_simp; rfl
theorem l2a_zero : after ((ropsL2 (F := Ideal)).take 15) V (Proc.devRef .tc main_cst_18) = constant (F := Ideal) S_ .f32 0x00000000#32 := by
  simp only [List.take_succ_cons, List.take_zero]
  after_results_simp
theorem l2s_nrm : after (((ropsL2 (F := Ideal)).drop 15).take 22) V (Proc.devRef .tc main_v94)
    = normOf (dinvOf (V (Proc.devRef .tc main_v75)) (V (Proc.devRef .tc main_v78)) (V (Proc.devRef .tc main_cst_18))) (V (Proc.devRef .tc main_v3)) (V (Proc.devRef .tc main_v6)) := by
  simp only [List.drop_succ_cons, List.drop_zero, List.take_succ_cons, List.take_zero]
  after_results_simp; rfl
theorem l2b_z : after (((ropsL2 (F := Ideal)).drop 37).take 19) V (Proc.devRef .tc main_v110)
    = zT (V (Proc.devRef .tc main_v69)) (V (Proc.devRef .tc main_arg8)) (V (Proc.devRef .tc main_v3)) (V (Proc.devRef .tc main_v6)) (V (Proc.devRef .tc main_v94)) := by
  simp only [List.drop_succ_cons, List.drop_zero, List.take_succ_cons, List.take_zero]
  after_results_simp; rfl
theorem l2c_out : after ((ropsL2 (F := Ideal)).drop 56) V (Proc.devRef .tc main_v130) = reluT (bnT (V (Proc.devRef .tc main_v110)) (V (Proc.devRef .tc main_arg9)) (V (Proc.devRef .tc main_arg10))) := by
  simp only [List.drop_succ_cons, List.drop_zero]
  after_results_simp; rfl

end

theorem layer2R_arr (W : Valuation τ sig (Elt Ideal)) :
    after (ropsL2 (F := Ideal)) W (Proc.devRef .tc main_v130)
      = reluT (bnT (zT (dotT (W (Proc.devRef .tc main_v68)) (W (Proc.devRef .tc main_arg7))) (W (Proc.devRef .tc main_arg8)) (W (Proc.devRef .tc main_v3)) (W (Proc.devRef .tc main_v6))
          (normR (W (Proc.devRef .tc main_v3)) (W (Proc.devRef .tc main_v6)))) (W (Proc.devRef .tc main_arg9)) (W (Proc.devRef .tc main_arg10))) := by
  rw [ropsL2_split, after_app, after_app, after_app, l2c_out, l2b_z,
    (fun V => by simp only [List.drop_succ_cons, List.drop_zero, List.take_succ_cons, List.take_zero]; after_results_simp : ∀ V, after (((ropsL2 (F := Ideal)).drop 37).take 19) V (Proc.devRef .tc main_arg9) = V (Proc.devRef .tc main_arg9)), (fun V => by simp only [List.drop_succ_cons, List.drop_zero, List.take_succ_cons, List.take_zero]; after_results_simp : ∀ V, after (((ropsL2 (F := Ideal)).drop 37).take 19) V (Proc.devRef .tc main_arg10) = V (Proc.devRef .tc main_arg10)),
    l2s_nrm, (fun V => by simp only [List.drop_succ_cons, List.drop_zero, List.take_succ_cons, List.take_zero]; after_results_simp : ∀ V, after (((ropsL2 (F := Ideal)).drop 15).take 22) V (Proc.devRef .tc main_v69) = V (Proc.devRef .tc main_v69)), (fun V => by simp only [List.drop_succ_cons, List.drop_zero, List.take_succ_cons, List.take_zero]; after_results_simp : ∀ V, after (((ropsL2 (F := Ideal)).drop 15).take 22) V (Proc.devRef .tc main_v3) = V (Proc.devRef .tc main_v3)), (fun V => by simp only [List.drop_succ_cons, List.drop_zero, List.take_succ_cons, List.take_zero]; after_results_simp : ∀ V, after (((ropsL2 (F := Ideal)).drop 15).take 22) V (Proc.devRef .tc main_v6) = V (Proc.devRef .tc main_v6)),
    (fun V => by simp only [List.drop_succ_cons, List.drop_zero, List.take_succ_cons, List.take_zero]; after_results_simp : ∀ V, after (((ropsL2 (F := Ideal)).drop 15).take 22) V (Proc.devRef .tc main_arg8) = V (Proc.devRef .tc main_arg8)), (fun V => by simp only [List.drop_succ_cons, List.drop_zero, List.take_succ_cons, List.take_zero]; after_results_simp : ∀ V, after (((ropsL2 (F := Ideal)).drop 15).take 22) V (Proc.devRef .tc main_arg9) = V (Proc.devRef .tc main_arg9)), (fun V => by simp only [List.drop_succ_cons, List.drop_zero, List.take_succ_cons, List.take_zero]; after_results_simp : ∀ V, after (((ropsL2 (F := Ideal)).drop 15).take 22) V (Proc.devRef .tc main_arg10) = V (Proc.devRef .tc main_arg10)),
    l2a_lin, l2a_mask, l2a_root, l2a_zero, (fun V => by simp only [List.take_succ_cons, List.take_zero]; after_results_simp : ∀ V, after ((ropsL2 (F := Ideal)).take 15) V (Proc.devRef .tc main_v3) = V (Proc.devRef .tc main_v3)), (fun V => by simp only [List.take_succ_cons, List.take_zero]; after_results_simp : ∀ V, after ((ropsL2 (F := Ideal)).take 15) V (Proc.devRef .tc main_v6) = V (Proc.devRef .tc main_v6)),
    (fun V => by simp only [List.take_succ_cons, List.take_zero]; after_results_simp : ∀ V, after ((ropsL2 (F := Ideal)).take 15) V (Proc.devRef .tc main_arg8) = V (Proc.devRef .tc main_arg8)), (fun V => by simp only [List.take_succ_cons, List.take_zero]; after_results_simp : ∀ V, after ((ropsL2 (F := Ideal)).take 15) V (Proc.devRef .tc main_arg9) = V (Proc.devRef .tc main_arg9)), (fun V => by simp only [List.take_succ_cons, List.take_zero]; after_results_simp : ∀ V, after ((ropsL2 (F := Ideal)).take 15) V (Proc.devRef .tc main_arg10) = V (Proc.devRef .tc main_arg10)), ← normR_eq]

theorem layer2R (W : Valuation τ sig (Elt Ideal)) (p : Fin 50000) (q : Fin 128) :
    after (ropsL2 (F := Ideal)) W (Proc.devRef .tc main_v130) (ix2 p q)
      = max (bnOf (zOf (W (Proc.devRef .tc main_v68)) (W (Proc.devRef .tc main_arg7)) (W (Proc.devRef .tc main_arg8)) (W (Proc.devRef .tc main_v3)) (W (Proc.devRef .tc main_v6)))
          (W (Proc.devRef .tc main_arg9)) (W (Proc.devRef .tc main_arg10)) p q) 0 := by
  rw [layer2R_arr]
  exact layer_apply _ _ _ _ _ _ _ p q

end Cert.ReferenceIdeal.Val

end
-- ==== Proof.RLayer3.lean ====
import proofs.«400876_j79998060855858_1_alg».proof.Proof.RLayer1

set_option maxRecDepth 16384

open scoped BigOperators

noncomputable section

namespace Cert.ReferenceIdeal.Val

open Cert.ReferenceIdeal Cert.ReferenceIdeal.Gen Cert.GCN Idealize.ShloMosaic Idealize.ShloMosaic.TcCoe Idealize.SL.Sem Idealize.ShloMosaic.StableHlo Idealize.ShloMosaic.ValueIdx

variable {F : FTy → Type} [FloatOps F]

theorem ropsL3_split : (ropsL3 : List (HloOp τ sig (Elt F))) = ropsL3.take 15 ++ ((ropsL3.drop 15).take 22 ++ ((ropsL3.drop 37).take 19 ++ ropsL3.drop 56)) := rfl

section
variable (V : Valuation τ sig (Elt Ideal))

theorem l3a_lin : after ((ropsL3 (F := Ideal)).take 15) V (Proc.devRef .tc main_v131) = dotT (V (Proc.devRef .tc main_v130)) (V (Proc.devRef .tc main_arg11)) := by
  simp only [List.take_succ_cons, List.take_zero]
  after_results_simp; rfl
theorem l3a_mask : after ((ropsL3 (F := Ideal)).take 15) V (Proc.devRef .tc main_v137)
    = cmpf .ogt (degR (V (Proc.devRef .tc main_v6))) (broadcastInDim S50000 ![] bcast_S_S50000 (constant S_ .f32 0x00000000#32)) := by
  simp only [List.take_succ_cons, List.take_zero]
  after_results_simp; rfl
theorem l3a_root : after ((ropsL3 (F := Ideal)).take 15) V (Proc.devRef .tc main_v140)
    = Host.rsqrt (maximumf (degR (V (Proc.devRef .tc main_v6))) (broadcastInDim S50000 ![] bcast_S_S50000 (constant S_ .f32 0x3F800000#32))) := by
  simp only [List.take_succ_cons, List.take_zero]
  after_results_simp; rfl
theorem l3a_zero : after ((ropsL3 (F := Ideal)).take 15) V (Proc.devRef .tc main_cst_34) = constant (F := Ideal) S_ .f32 0x00000000#32 := by
  simp only [List.take_succ_cons, List.take_zero]
  after_results_simp
theorem l3s_nrm : after (((ropsL3 (F := Ideal)).drop 15).take 22) V (Proc.devRef .tc main_v156)
    = normOf (dinvOf (V (Proc.devRef .tc main_v137)) (V (Proc.devRef .tc main_v140)) (V (Proc.devRef .tc main_cst_34))) (V (Proc.devRef .tc main_v3)) (V (Proc.devRef .tc main_v6)) := by
  simp only [List.drop_succ_cons, List.drop_zero, List.take_succ_cons, List.take_zero]
  after_results_simp; rfl
theorem l3b_z : after (((ropsL3 (F := Ideal)).drop 37).take 19) V (Proc.devRef .tc main_v172)
    = zT (V (Proc.devRef .tc main_v131)) (V (Proc.devRef .tc main_arg12)) (V (Proc.devRef .tc main_v3)) (V (Proc.devRef .tc main_v6)) (V (Proc.devRef .tc main_v156)) := by
  simp only [List.drop_succ_cons, List.drop_zero, List.take_succ_cons, List.take_zero]
  after_results_simp; rfl
theorem l3c_out : after ((ropsL3 (F := Ideal)).drop 56) V (Proc.devRef .tc main_v191) = bnT (V (Proc.devRef .tc main_v172)) (V (Proc.devRef .tc main_arg13)) (V (Proc.devRef .tc main_arg14)) := by
  simp only [List.drop_succ_cons, List.drop_zero]
  after_results_simp; rfl

end

theorem layer3R_arr (W : Valuation τ sig (Elt Ideal)) :
    after (ropsL3 (F := Ideal)) W (Proc.devRef .tc main_v191)
      = bnT (zT (dotT (W (Proc.devRef .tc main_v130)) (W (Proc.devRef .tc main_arg11))) (W (Proc.devRef .tc main_arg12)) (W (Proc.devRef .tc main_v3)) (W (Proc.devRef .tc main_v6))
          (normR (W (Proc.devRef .tc main_v3)) (W (Proc.devRef .tc main_v6)))) (W (Proc.devRef .tc main_arg13)) (W (Proc.devRef .tc main_arg14)) := by
  rw [ropsL3_split, after_app, after_app, after_app, l3c_out, l3b_z,
    (fun V => by simp only [List.drop_succ_cons, List.drop_zero, List.take_succ_cons, List.take_zero]; after_results_simp : ∀ V, after (((ropsL3 (F := Ideal)).drop 37).take 19) V (Proc.devRef .tc main_arg13) = V (Proc.devRef .tc main_arg13)), (fun V => by simp only [List.drop_succ_cons, List.drop_zero, List.take_succ_cons, List.take_zero]; after_results_simp : ∀ V, after (((ropsL3 (F := Ideal)).drop 37).take 19) V (Proc.devRef .tc main_arg14) = V (Proc.devRef .tc main_arg14)),
    l3s_nrm, (fun V => by simp only [List.drop_succ_cons, List.drop_zero, List.take_succ_cons, List.take_zero]; after_results_simp : ∀ V, after (((ropsL3 (F := Ideal)).drop 15).take 22) V (Proc.devRef .tc main_v131) = V (Proc.devRef .tc main_v131)), (fun V => by simp only [List.drop_succ_cons, List.drop_zero, List.take_succ_cons, List.take_zero]; after_results_simp : ∀ V, after (((ropsL3 (F := Ideal)).drop 15).take 22) V (Proc.devRef .tc main_v3) = V (Proc.devRef .tc main_v3)), (fun V => by simp only [List.drop_succ_cons, List.drop_zero, List.take_succ_cons, List.take_zero]; after_results_simp : ∀ V, after (((ropsL3 (F := Ideal)).drop 15).take 22) V (Proc.devRef .tc main_v6) = V (Proc.devRef .tc main_v6)),
    (fun V => by simp only [List.drop_succ_cons, List.drop_zero, List.take_succ_cons, List.take_zero]; after_results_simp : ∀ V, after (((ropsL3 (F := Ideal)).drop 15).take 22) V (Proc.devRef .tc main_arg12) = V (Proc.devRef .tc main_arg12)), (fun V => by simp only [List.drop_succ_cons, List.drop_zero, List.take_succ_cons, List.take_zero]; after_results_simp : ∀ V, after (((ropsL3 (F := Ideal)).drop 15).take 22) V (Proc.devRef .tc main_arg13) = V (Proc.devRef .tc main_arg13)), (fun V => by simp only [List.drop_succ_cons, List.drop_zero, List.take_succ_cons, List.take_zero]; after_results_simp : ∀ V, after (((ropsL3 (F := Ideal)).drop 15).take 22) V (Proc.devRef .tc main_arg14) = V (Proc.devRef .tc main_arg14)),
    l3a_lin, l3a_mask, l3a_root, l3a_zero, (fun V => by simp only [List.take_succ_cons, List.take_zero]; after_results_simp : ∀ V, after ((ropsL3 (F := Ideal)).take 15) V (Proc.devRef .tc main_v3) = V (Proc.devRef .tc main_v3)), (fun V => by simp only [List.take_succ_cons, List.take_zero]; after_results_simp : ∀ V, after ((ropsL3 (F := Ideal)).take 15) V (Proc.devRef .tc main_v6) = V (Proc.devRef .tc main_v6)),
    (fun V => by simp only [List.take_succ_cons, List.take_zero]; after_results_simp : ∀ V, after ((ropsL3 (F := Ideal)).take 15) V (Proc.devRef .tc main_arg12) = V (Proc.devRef .tc main_arg12)), (fun V => by simp only [List.take_succ_cons, List.take_zero]; after_results_simp : ∀ V, after ((ropsL3 (F := Ideal)).take 15) V (Proc.devRef .tc main_arg13) = V (Proc.devRef .tc main_arg13)), (fun V => by simp only [List.take_succ_cons, List.take_zero]; after_results_simp : ∀ V, after ((ropsL3 (F := Ideal)).take 15) V (Proc.devRef .tc main_arg14) = V (Proc.devRef .tc main_arg14)), ← normR_eq]

theorem layer3R (W : Valuation τ sig (Elt Ideal)) (p : Fin 50000) (q : Fin 128) :
    after (ropsL3 (F := Ideal)) W (Proc.devRef .tc main_v191) (ix2 p q)
      = bnOf (zOf (W (Proc.devRef .tc main_v130)) (W (Proc.devRef .tc main_arg11)) (W (Proc.devRef .tc main_arg12)) (W (Proc.devRef .tc main_v3)) (W (Proc.devRef .tc main_v6)))
          (W (Proc.devRef .tc main_arg13)) (W (Proc.devRef .tc main_arg14)) p q := by
  rw [layer3R_arr]
  exact layer_apply_lin _ _ _ _ _ _ _ p q

end Cert.ReferenceIdeal.Val

end
-- ==== Proof.RStageI.lean ====
import proofs.«400876_j79998060855858_1_alg».proof.Proof.RefOps

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

def edgeRowR (r : Fin 2 → Nat) (hs : S2x1600000.Slices r S1x1600000) (ei : IVec S2x1600000 32) : IVec S1650000 32 :=
  concatenate S1650000 0 [⟨S1600000, shapeCast S1600000 (extractStridedSlice S1x1600000 r ei hs) shapeCasts_S1x1600000_S1600000⟩, ⟨S50000, iotaInDim S50000 32 0⟩] concatenates_S1600000_S50000_S1650000_d0

theorem ropsI_v3 (W : Valuation τ sig (Elt F)) :
    StableHlo.after (ropsI (F := F)) W (Proc.devRef .tc main_v3) = edgeRowR ![0, 0] slices_S2x1600000_S1x1600000_0_0 (W (Proc.devRef .tc main_arg1)) := by
  unfold edgeRowR
  after_results
  rfl

theorem ropsI_v6 (W : Valuation τ sig (Elt F)) :
    StableHlo.after (ropsI (F := F)) W (Proc.devRef .tc main_v6) = edgeRowR ![1, 0] slices_S2x1600000_S1x1600000_1_0 (W (Proc.devRef .tc main_arg1)) := by
  unfold edgeRowR
  after_results
  rfl

end Cert.ReferenceIdeal.Val

end
-- ==== Proof.LibScatter1.lean ====
import proofs.«400876_j79998060855858_1_alg».proof.Proof.LibGatherScatter
import Idealize.ShloMosaic.Lib.ValueIdxRank1

open scoped BigOperators

namespace Cert.Bridge.GS1

open Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable {N E w : Nat} {φ : FTy}

-- The start on the one axis is the position read signed (not clamped); there is no window.
theorem resultIdx?_flat_iff (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (n : Fin N) :
    d.resultIdx? (ix1 e) idx = some (ix1 n) ↔ (idx (ix2 e 0)).toInt = (n.val : Int) := by
  obtain ⟨uw, iw, sd, ivd, wf⟩ := d
  dsimp only at huw hiw hsd hivd
  subst huw hiw hsd hivd
  have hs : ScatterDims.start ⟨[], [0], [0], 1, wf⟩ (ix1 e) idx 0 = (idx (ix2 e 0)).toInt := by
    unfold ScatterDims.start
    rw [dif_pos (List.mem_singleton.mpr rfl)]
    exact congrArg (fun k => (idx k).toInt) (eq_ix2 _)
  rw [GS.resultIdx?_eq_some_iff, Fin.forall_fin_one, hs]
  show _ + ((0 : ℕ) : ℤ) = (n.val : ℤ) ↔ _
  omega

-- An update whose position is no element of the table lands nowhere: no range condition is needed.
theorem scatterAdd_apply (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n) =
      x (ix1 n) + ∑ e ∈ Finset.univ.filter (fun e : Fin E => (idx (ix2 e 0)).toInt = (n.val : Int)), upd (ix1 e) := by
  show Ideal.hostScatterAdd d x idx upd (ix1 n) = _
  unfold Ideal.hostScatterAdd
  congr 1
  rw [Finset.sum_filter, sum_idx1, Finset.sum_filter]
  exact Finset.sum_congr rfl fun e _ => by simp only [resultIdx?_flat_iff d huw hiw hsd hivd idx e n]

end Cert.Bridge.GS1
-- ==== Proof.RTail.lean ====
import proofs.«400876_j79998060855858_1_alg».proof.Proof.RefOps
import proofs.«400876_j79998060855858_1_alg».proof.Proof.LibGatherScatter
import proofs.«400876_j79998060855858_1_alg».proof.Proof.LibScatter1
import Idealize.ShloMosaic.Lib.StableHlo.Run
import Idealize.ShloMosaic.Lib.IdealHost
import Idealize.ShloMosaic.Lib.StackMember
import Idealize.ShloMosaic.Lib.KernelVsHost
import Idealize.ShloMosaic.Lib.Pipeline.Value
import Idealize.ShloMosaic.PureOps.Ideal.Laws

set_option maxRecDepth 16384

noncomputable section

namespace Cert.ReferenceIdeal.Val

open Cert.ReferenceIdeal Cert.ReferenceIdeal.Gen Idealize.ShloMosaic Idealize.ShloMosaic.TcCoe Idealize.SL.Sem Idealize.ShloMosaic.StableHlo
open Idealize.ShloMosaic.ValueIdx
open scoped BigOperators

namespace Tail

section Bcast
variable {α : Type}

theorem bc_col_apply {n : Nat} (h : (⟨1, ![n]⟩ : Shape).BroadcastsInDim ⟨2, ![n, 1]⟩ ![0])
    (x : (⟨1, ![n]⟩ : Shape).Idx → α) (e : Fin n) (z : Fin 1) :
    broadcastInDim ⟨2, ![n, 1]⟩ ![0] h x (ix2 e z) = x (ix1 e) := by
  refine broadcastInDim_apply ![0] h x (ix2 e z) (ix1 e) ?_
  intro a
  fin_cases a
  show e.val = if n = 1 then 0 else e.val
  split_ifs <;> omega

theorem bc_row_apply {n : Nat} (h : (⟨1, ![n]⟩ : Shape).BroadcastsInDim ⟨2, ![1, n]⟩ ![1])
    (x : (⟨1, ![n]⟩ : Shape).Idx → α) (z : Fin 1) (t : Fin n) :
    broadcastInDim ⟨2, ![1, n]⟩ ![1] h x (ix2 z t) = x (ix1 t) := by
  refine broadcastInDim_apply ![1] h x (ix2 z t) (ix1 t) ?_
  intro a
  fin_cases a
  show t.val = if n = 1 then 0 else t.val
  split_ifs <;> omega

theorem bc_oneCol_apply {m n : Nat} (h : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] h y (ix2 r t) = y (ix2 r (0 : Fin 1)) := by
  refine broadcastInDim_apply ![0, 1] h y (ix2 r t) (ix2 r (0 : Fin 1)) ?_
  intro a
  fin_cases a
  · show r.val = if m = 1 then 0 else r.val
    split_ifs <;> omega
  · show (0 : ℕ) = if (1 : ℕ) = 1 then 0 else _
    simp

end Bcast

theorem dotH1_apply (A : FVec Ideal S64x128 .f32) (B : FVec Ideal S128x64 .f32) (g j : Fin 64) :
    Host.dotGeneral dot_S64x128_S128x64_S64x64_1_0_0_1_n_n none A B (ix2 g j) = ∑ f : Fin 128, A (ix2 g f) * B (ix2 f j) :=
  StackMember.dotGeneral_plain_apply (m := 64) (k := 128) (n := 64) none A B g j

theorem dotH2_apply (A : FVec Ideal S64x64 .f32) (B : FVec Ideal S64x2 .f32) (g : Fin 64) (k : Fin 2) :
    Host.dotGeneral dot_S64x64_S64x2_S64x2_1_0_0_1_n_n none A B (ix2 g k) = ∑ j : Fin 64, A (ix2 g j) * B (ix2 j k) :=
  StackMember.dotGeneral_plain_apply (m := 64) (k := 64) (n := 2) none A B g k

end Tail

open Tail

theorem poolR (W : Valuation τ sig (Elt Ideal)) (g : Fin 64) (f : Fin 128) :
    after ropsP W (Proc.devRef .tc main_v203) (ix2 g f)
      = Ideal.div
          (∑ r ∈ Finset.univ.filter (fun r : Fin 50000 => (W (Proc.devRef .tc main_arg2) (ix1 r)).toInt = (g.val : Int)),
            W (Proc.devRef .tc main_v191) (ix2 r f))
          (max (∑ r ∈ Finset.univ.filter (fun r : Fin 50000 => (W (Proc.devRef .tc main_arg2) (ix1 r)).toInt = (g.val : Int)),
            (1 : EReal)) 1) := by
  after_results
  rw [hostDivf_apply, Cert.Bridge.GS.scatterAdd_apply _ rfl rfl rfl rfl, bc_oneCol_apply, bc_col_apply,
    maximumf_apply, Cert.Bridge.GS1.scatterAdd_apply _ rfl rfl rfl rfl]
  have e0 : ∀ j, broadcastInDim S64x128 ![] bcast_S_S64x128 (constant (F := Ideal) S_ .f32 0x00000000#32) j = (0 : EReal) :=
    fun j => by rw [broadcastInDim_scalar_apply, constant_apply, Ideal.ofBits_zero_f32]
  have e1 : ∀ j, broadcastInDim S64 ![] bcast_S_S64 (constant (F := Ideal) S_ .f32 0x00000000#32) j = (0 : EReal) :=
    fun j => by rw [broadcastInDim_scalar_apply, constant_apply, Ideal.ofBits_zero_f32]
  have e2 : ∀ j, broadcastInDim S50000 ![] bcast_S_S50000 (constant (F := Ideal) S_ .f32 0x3F800000#32) j = (1 : EReal) :=
    fun j => by rw [broadcastInDim_scalar_apply, constant_apply, Ideal.ofBits_one_f32]
  have e3 : ∀ j, broadcastInDim S64 ![] bcast_S_S64 (constant (F := Ideal) S_ .f32 0x3F800000#32) j = (1 : EReal) :=
    fun j => by rw [broadcastInDim_scalar_apply, constant_apply, Ideal.ofBits_one_f32]
  have e4 : ∀ e : Fin 50000, broadcastInDim S50000x1 ![0] bcast_S50000_S50000x1_0 (W (Proc.devRef .tc main_arg2)) (ix2 e 0)
      = W (Proc.devRef .tc main_arg2) (ix1 e) := fun e => bc_col_apply _ _ e 0
  simp only [e0, e1, e2, e3, e4, zero_add]

local notation:70 a:70 " *ₑ " b:71 => @HMul.hMul EReal EReal EReal instHMul a b
local notation:65 a:65 " +ₑ " b:66 => @HAdd.hAdd EReal EReal EReal instHAdd a b

theorem headR (W : Valuation τ sig (Elt Ideal)) (g : Fin 64) (k : Fin 2) :
    after ropsH W (Proc.devRef .tc main_v212) (ix2 g k)
      = (∑ j : Fin 64,
          (@max EReal _
            ((∑ f : Fin 128, (W (Proc.devRef .tc main_v203) (ix2 g f) *ₑ W (Proc.devRef .tc main_arg15) (ix2 f j)))
              +ₑ W (Proc.devRef .tc main_arg16) (ix1 j)) 0)
            *ₑ W (Proc.devRef .tc main_arg17) (ix2 j k))
        +ₑ W (Proc.devRef .tc main_arg18) (ix1 k) := by
  after_results
  simp only [TRef.ofBuf, TRef.toBuf, cast_eq]
  rw [addf_apply, dotH2_apply, broadcastInDim_oneRow_apply, bc_row_apply]
  congr 1
  refine Finset.sum_congr rfl fun j _ => ?_
  rw [maximumf_apply, addf_apply, dotH1_apply, broadcastInDim_oneRow_apply, bc_row_apply, broadcastInDim_scalar_apply,
    constant_apply, Ideal.ofBits_zero_f32]

end Cert.ReferenceIdeal.Val

end
-- ==== Proof.RChain.lean ====
import proofs.«400876_j79998060855858_1_alg».proof.Proof.RRun
import proofs.«400876_j79998060855858_1_alg».proof.Proof.RStageI
import proofs.«400876_j79998060855858_1_alg».proof.Proof.RTail
import proofs.«400876_j79998060855858_1_alg».proof.Proof.Net

open scoped BigOperators

noncomputable section

namespace Cert.ReferenceIdeal.Val

open Cert.ReferenceIdeal Cert.ReferenceIdeal.Gen Idealize.ShloMosaic Idealize.ShloMosaic.TcCoe Idealize.SL.Sem Idealize.ShloMosaic.StableHlo Idealize.ShloMosaic.ValueIdx Cert.GCN

variable (m : (ℓ : Loc nD τ sig) → Buf (Elt Ideal) ℓ)

abbrev U0 (c : Dev nD) : Valuation τ sig (Elt Ideal) := launchContents m c
abbrev U1 (c : Dev nD) : Valuation τ sig (Elt Ideal) := after ropsI (U0 m c)
abbrev U2 (c : Dev nD) : Valuation τ sig (Elt Ideal) := after ropsL1 (U1 m c)
abbrev U3 (c : Dev nD) : Valuation τ sig (Elt Ideal) := after ropsL2 (U2 m c)
abbrev U4 (c : Dev nD) : Valuation τ sig (Elt Ideal) := after ropsL3 (U3 m c)
abbrev U5 (c : Dev nD) : Valuation τ sig (Elt Ideal) := after ropsP (U4 m c)
abbrev U6 (c : Dev nD) : Valuation τ sig (Elt Ideal) := after ropsH (U5 m c)

theorem after_rops_U6 (c : Dev nD) : after rops (launchContents m c) = U6 m c := after_rops _

theorem U1_arg0 (c : Dev nD) : U1 m c (Proc.devRef .tc main_arg0) = m ((c.tc : Thread nD τ).loc main_arg0) :=
  ropsI_keep (by decide) _

theorem U1_arg3 (c : Dev nD) : U1 m c (Proc.devRef .tc main_arg3) = m ((c.tc : Thread nD τ).loc main_arg3) :=
  ropsI_keep (by decide) _

theorem U1_arg4 (c : Dev nD) : U1 m c (Proc.devRef .tc main_arg4) = m ((c.tc : Thread nD τ).loc main_arg4) :=
  ropsI_keep (by decide) _

theorem U1_arg5 (c : Dev nD) : U1 m c (Proc.devRef .tc main_arg5) = m ((c.tc : Thread nD τ).loc main_arg5) :=
  ropsI_keep (by decide) _

theorem U1_arg6 (c : Dev nD) : U1 m c (Proc.devRef .tc main_arg6) = m ((c.tc : Thread nD τ).loc main_arg6) :=
  ropsI_keep (by decide) _

theorem U2_arg7 (c : Dev nD) : U2 m c (Proc.devRef .tc main_arg7) = m ((c.tc : Thread nD τ).loc main_arg7) :=
  (ropsL1_keep (by decide) _).trans <| ropsI_keep (by decide) _

theorem U2_arg8 (c : Dev nD) : U2 m c (Proc.devRef .tc main_arg8) = m ((c.tc : Thread nD τ).loc main_arg8) :=
  (ropsL1_keep (by decide) _).trans <| ropsI_keep (by decide) _

theorem U2_arg9 (c : Dev nD) : U2 m c (Proc.devRef .tc main_arg9) = m ((c.tc : Thread nD τ).loc main_arg9) :=
  (ropsL1_keep (by decide) _).trans <| ropsI_keep (by decide) _

theorem U2_arg10 (c : Dev nD) : U2 m c (Proc.devRef .tc main_arg10) = m ((c.tc : Thread nD τ).loc main_arg10) :=
  (ropsL1_keep (by decide) _).trans <| ropsI_keep (by decide) _

theorem U3_arg11 (c : Dev nD) : U3 m c (Proc.devRef .tc main_arg11) = m ((c.tc : Thread nD τ).loc main_arg11) :=
  (ropsL2_keep (by decide) _).trans <| (ropsL1_keep (by decide) _).trans <| ropsI_keep (by decide) _

theorem U3_arg12 (c : Dev nD) : U3 m c (Proc.devRef .tc main_arg12) = m ((c.tc : Thread nD τ).loc main_arg12) :=
  (ropsL2_keep (by decide) _).trans <| (ropsL1_keep (by decide) _).trans <| ropsI_keep (by decide) _

theorem U3_arg13 (c : Dev nD) : U3 m c (Proc.devRef .tc main_arg13) = m ((c.tc : Thread nD τ).loc main_arg13) :=
  (ropsL2_keep (by decide) _).trans <| (ropsL1_keep (by decide) _).trans <| ropsI_keep (by decide) _

theorem U3_arg14 (c : Dev nD) : U3 m c (Proc.devRef .tc main_arg14) = m ((c.tc : Thread nD τ).loc main_arg14) :=
  (ropsL2_keep (by decide) _).trans <| (ropsL1_keep (by decide) _).trans <| ropsI_keep (by decide) _

theorem U4_arg2 (c : Dev nD) : U4 m c (Proc.devRef .tc main_arg2) = m ((c.tc : Thread nD τ).loc main_arg2) :=
  (ropsL3_keep (by decide) _).trans <| (ropsL2_keep (by decide) _).trans <| (ropsL1_keep (by decide) _).trans <| ropsI_keep (by decide) _

theorem U5_arg15 (c : Dev nD) : U5 m c (Proc.devRef .tc main_arg15) = m ((c.tc : Thread nD τ).loc main_arg15) :=
  (ropsP_keep (by decide) _).trans <| (ropsL3_keep (by decide) _).trans <| (ropsL2_keep (by decide) _).trans <| (ropsL1_keep (by decide) _).trans <| ropsI_keep (by decide) _

theorem U5_arg16 (c : Dev nD) : U5 m c (Proc.devRef .tc main_arg16) = m ((c.tc : Thread nD τ).loc main_arg16) :=
  (ropsP_keep (by decide) _).trans <| (ropsL3_keep (by decide) _).trans <| (ropsL2_keep (by decide) _).trans <| (ropsL1_keep (by decide) _).trans <| ropsI_keep (by decide) _

theorem U5_arg17 (c : Dev nD) : U5 m c (Proc.devRef .tc main_arg17) = m ((c.tc : Thread nD τ).loc main_arg17) :=
  (ropsP_keep (by decide) _).trans <| (ropsL3_keep (by decide) _).trans <| (ropsL2_keep (by decide) _).trans <| (ropsL1_keep (by decide) _).trans <| ropsI_keep (by decide) _

theorem U5_arg18 (c : Dev nD) : U5 m c (Proc.devRef .tc main_arg18) = m ((c.tc : Thread nD τ).loc main_arg18) :=
  (ropsP_keep (by decide) _).trans <| (ropsL3_keep (by decide) _).trans <| (ropsL2_keep (by decide) _).trans <| (ropsL1_keep (by decide) _).trans <| ropsI_keep (by decide) _

theorem U1_v3 (c : Dev nD) : U1 m c (Proc.devRef .tc main_v3) = edgeRowR ![0, 0] slices_S2x1600000_S1x1600000_0_0 (m ((c.tc : Thread nD τ).loc main_arg1)) :=
  ropsI_v3 _
theorem U1_v6 (c : Dev nD) : U1 m c (Proc.devRef .tc main_v6) = edgeRowR ![1, 0] slices_S2x1600000_S1x1600000_1_0 (m ((c.tc : Thread nD τ).loc main_arg1)) :=
  ropsI_v6 _
theorem U2_v3 (c : Dev nD) : U2 m c (Proc.devRef .tc main_v3) = U1 m c (Proc.devRef .tc main_v3) := ropsL1_keep (by decide) _
theorem U2_v6 (c : Dev nD) : U2 m c (Proc.devRef .tc main_v6) = U1 m c (Proc.devRef .tc main_v6) := ropsL1_keep (by decide) _
theorem U3_v3 (c : Dev nD) : U3 m c (Proc.devRef .tc main_v3) = U1 m c (Proc.devRef .tc main_v3) := (ropsL2_keep (by decide) _).trans (U2_v3 m c)
theorem U3_v6 (c : Dev nD) : U3 m c (Proc.devRef .tc main_v6) = U1 m c (Proc.devRef .tc main_v6) := (ropsL2_keep (by decide) _).trans (U2_v6 m c)

end Cert.ReferenceIdeal.Val

end
-- ==== Proof.RTail2.lean ====
import proofs.«400876_j79998060855858_1_alg».proof.Proof.RChain

open scoped BigOperators

noncomputable section

namespace Cert.ReferenceIdeal.Val

open Cert.ReferenceIdeal Cert.ReferenceIdeal.Gen Idealize.ShloMosaic Idealize.ShloMosaic.TcCoe Idealize.SL.Sem Idealize.ShloMosaic.StableHlo Idealize.ShloMosaic.ValueIdx Cert.GCN

variable (m : (ℓ : Loc nD τ sig) → Buf (Elt Ideal) ℓ)

abbrev btR (c : Dev nD) : Fin 50000 → BitVec 32 := fun r => (m ((c.tc : Thread nD τ).loc main_arg2) : S50000.Idx → BitVec 32) (ix1 r)

theorem r_tail (c : Dev nD) (H3 : Fin 50000 → Fin 128 → EReal)
    (hin : ∀ p q, (U4 m c (Proc.devRef .tc main_v191) : S50000x128.Idx → EReal) (ix2 p q) = H3 p q) (g : Fin 64) (k : Fin 2) :
    (U6 m c (Proc.devRef .tc main_v212) : S64x2.Idx → EReal) (ix2 g k)
      = headM (poolM H3 (btR m c))
          (fun f j => (m ((c.tc : Thread nD τ).loc main_arg15) : S128x64.Idx → EReal) (ix2 f j))
          (fun j => (m ((c.tc : Thread nD τ).loc main_arg16) : S64.Idx → EReal) (ix1 j))
          (fun j k => (m ((c.tc : Thread nD τ).loc main_arg17) : S64x2.Idx → EReal) (ix2 j k))
          (fun k => (m ((c.tc : Thread nD τ).loc main_arg18) : S2.Idx → EReal) (ix1 k)) g k := by
  have hp : ∀ g f, (U5 m c (Proc.devRef .tc main_v203) : S64x128.Idx → EReal) (ix2 g f) = poolM H3 (btR m c) g f := by
    intro g f
    rw [show U5 m c (Proc.devRef .tc main_v203) (ix2 g f) = _ from poolR (U4 m c) g f]
    simp only [U4_arg2 m c, hin]
    unfold poolM
    rw [zero_add, zero_add, ofBits_one']
  rw [show U6 m c (Proc.devRef .tc main_v212) (ix2 g k) = _ from headR (U5 m c) g k]
  simp only [hp, U5_arg15 m c, U5_arg16 m c, U5_arg17 m c, U5_arg18 m c]
  rfl

end Cert.ReferenceIdeal.Val

end
-- ==== Proof.RValue.lean ====
import proofs.«400876_j79998060855858_1_alg».proof.Proof.RLayer1
import proofs.«400876_j79998060855858_1_alg».proof.Proof.RLayer2
import proofs.«400876_j79998060855858_1_alg».proof.Proof.RLayer3
import proofs.«400876_j79998060855858_1_alg».proof.Proof.RTail2
import proofs.«400876_j79998060855858_1_alg».proof.Proof.Math1
import proofs.«400876_j79998060855858_1_alg».proof.Proof.Net

open scoped BigOperators

noncomputable section

namespace Cert.ReferenceIdeal.Val

open Cert.ReferenceIdeal Cert.ReferenceIdeal.Gen Idealize.ShloMosaic Idealize.ShloMosaic.TcCoe Idealize.SL.Sem Idealize.ShloMosaic.StableHlo Idealize.ShloMosaic.ValueIdx Cert.GCN

variable (m : (ℓ : Loc nD τ sig) → Buf (Elt Ideal) ℓ)

theorem varR_eq (z : Fin 50000 → Fin 128 → EReal) (q : Fin 128) : varR z q = varDevM z q := by
  unfold varR
  have h : Ideal.cmp .ogt (cN - ((0 : ℝ) : EReal)) 0 = 1#1 := by
    have h' := var_guard'
    rw [ofBits_zero] at h'
    exact h'
  rw [h]
  rfl

theorem varR_eq_varM (z : Fin 50000 → Fin 128 → EReal) (hz : Fin2 z) : varR z = varM z :=
  funext fun q => (varR_eq z q).trans (varDev_eq_var z hz q)

abbrev srcwR (c : Dev nD) : Fin 1650000 → BitVec 32 := fun e => wrapR (edgeRowR ![0, 0] slices_S2x1600000_S1x1600000_0_0 (m ((c.tc : Thread nD τ).loc main_arg1))) (ix1 e)
abbrev dstwR (c : Dev nD) : Fin 1650000 → BitVec 32 := fun e => (edgeRowR ![1, 0] slices_S2x1600000_S1x1600000_1_0 (m ((c.tc : Thread nD τ).loc main_arg1))) (ix1 e)
abbrev normwR (c : Dev nD) : Fin 1650000 → EReal := fun e => normR (edgeRowR ![0, 0] slices_S2x1600000_S1x1600000_0_0 (m ((c.tc : Thread nD τ).loc main_arg1))) (edgeRowR ![1, 0] slices_S2x1600000_S1x1600000_1_0 (m ((c.tc : Thread nD τ).loc main_arg1))) (ix1 e)

theorem r_layer1 (c : Dev nD) (H : Fin 50000 → Fin 128 → EReal)
    (hin : ∀ p k, (U1 m c (Proc.devRef .tc main_arg0) : S50000x128.Idx → EReal) (ix2 p k) = H p k)
    (hH : Fin2 H) (hw : Fin2 (fun k q => (m ((c.tc : Thread nD τ).loc main_arg3) : S128x128.Idx → EReal) (ix2 k q))) (hb : Fin1 (fun q => (m ((c.tc : Thread nD τ).loc main_arg4) : S128.Idx → EReal) (ix1 q))) (hn : Fin1 (normwR m c)) (p : Fin 50000) (q : Fin 128) :
    (U2 m c (Proc.devRef .tc main_v68) : S50000x128.Idx → EReal) (ix2 p q)
      = layerReluM H (fun k q => (m ((c.tc : Thread nD τ).loc main_arg3) : S128x128.Idx → EReal) (ix2 k q)) (fun q => (m ((c.tc : Thread nD τ).loc main_arg4) : S128.Idx → EReal) (ix1 q)) (fun q => (m ((c.tc : Thread nD τ).loc main_arg5) : S128.Idx → EReal) (ix1 q)) (fun q => (m ((c.tc : Thread nD τ).loc main_arg6) : S128.Idx → EReal) (ix1 q)) (srcwR m c) (dstwR m c) (normwR m c) p q := by
  have hX : (fun p k => (U1 m c (Proc.devRef .tc main_arg0) : S50000x128.Idx → EReal) (ix2 p k)) = H :=
    funext fun p => funext fun k => hin p k
  have hz : zOf (U1 m c (Proc.devRef .tc main_arg0)) (m ((c.tc : Thread nD τ).loc main_arg3)) (m ((c.tc : Thread nD τ).loc main_arg4)) (edgeRowR ![0, 0] slices_S2x1600000_S1x1600000_0_0 (m ((c.tc : Thread nD τ).loc main_arg1))) (edgeRowR ![1, 0] slices_S2x1600000_S1x1600000_1_0 (m ((c.tc : Thread nD τ).loc main_arg1)))
      = zM H (fun k q => (m ((c.tc : Thread nD τ).loc main_arg3) : S128x128.Idx → EReal) (ix2 k q)) (fun q => (m ((c.tc : Thread nD τ).loc main_arg4) : S128.Idx → EReal) (ix1 q)) (srcwR m c) (dstwR m c) (normwR m c) := by
    unfold zOf
    rw [hX]
  rw [show U2 m c (Proc.devRef .tc main_v68) (ix2 p q) = _ from layer1R (U1 m c) p q,
    U1_arg3 m c, U1_arg4 m c, U1_arg5 m c, U1_arg6 m c, U1_v3 m c, U1_v6 m c, hz]
  unfold bnOf
  rw [varR_eq_varM _ (fin2_zM _ _ hH hw hb hn)]
  rfl

theorem r_layer2 (c : Dev nD) (H : Fin 50000 → Fin 128 → EReal)
    (hin : ∀ p k, (U2 m c (Proc.devRef .tc main_v68) : S50000x128.Idx → EReal) (ix2 p k) = H p k)
    (hH : Fin2 H) (hw : Fin2 (fun k q => (m ((c.tc : Thread nD τ).loc main_arg7) : S128x128.Idx → EReal) (ix2 k q))) (hb : Fin1 (fun q => (m ((c.tc : Thread nD τ).loc main_arg8) : S128.Idx → EReal) (ix1 q))) (hn : Fin1 (normwR m c)) (p : Fin 50000) (q : Fin 128) :
    (U3 m c (Proc.devRef .tc main_v130) : S50000x128.Idx → EReal) (ix2 p q)
      = layerReluM H (fun k q => (m ((c.tc : Thread nD τ).loc main_arg7) : S128x128.Idx → EReal) (ix2 k q)) (fun q => (m ((c.tc : Thread nD τ).loc main_arg8) : S128.Idx → EReal) (ix1 q)) (fun q => (m ((c.tc : Thread nD τ).loc main_arg9) : S128.Idx → EReal) (ix1 q)) (fun q => (m ((c.tc : Thread nD τ).loc main_arg10) : S128.Idx → EReal) (ix1 q)) (srcwR m c) (dstwR m c) (normwR m c) p q := by
  have hX : (fun p k => (U2 m c (Proc.devRef .tc main_v68) : S50000x128.Idx → EReal) (ix2 p k)) = H :=
    funext fun p => funext fun k => hin p k
  have hz : zOf (U2 m c (Proc.devRef .tc main_v68)) (m ((c.tc : Thread nD τ).loc main_arg7)) (m ((c.tc : Thread nD τ).loc main_arg8)) (edgeRowR ![0, 0] slices_S2x1600000_S1x1600000_0_0 (m ((c.tc : Thread nD τ).loc main_arg1))) (edgeRowR ![1, 0] slices_S2x1600000_S1x1600000_1_0 (m ((c.tc : Thread nD τ).loc main_arg1)))
      = zM H (fun k q => (m ((c.tc : Thread nD τ).loc main_arg7) : S128x128.Idx → EReal) (ix2 k q)) (fun q => (m ((c.tc : Thread nD τ).loc main_arg8) : S128.Idx → EReal) (ix1 q)) (srcwR m c) (dstwR m c) (normwR m c) := by
    unfold zOf
    rw [hX]
  rw [show U3 m c (Proc.devRef .tc main_v130) (ix2 p q) = _ from layer2R (U2 m c) p q,
    U2_arg7 m c, U2_arg8 m c, U2_arg9 m c, U2_arg10 m c, U2_v3 m c, U2_v6 m c, U1_v3 m c, U1_v6 m c, hz]
  unfold bnOf
  rw [varR_eq_varM _ (fin2_zM _ _ hH hw hb hn)]
  rfl

theorem r_layer3 (c : Dev nD) (H : Fin 50000 → Fin 128 → EReal)
    (hin : ∀ p k, (U3 m c (Proc.devRef .tc main_v130) : S50000x128.Idx → EReal) (ix2 p k) = H p k)
    (hH : Fin2 H) (hw : Fin2 (fun k q => (m ((c.tc : Thread nD τ).loc main_arg11) : S128x128.Idx → EReal) (ix2 k q))) (hb : Fin1 (fun q => (m ((c.tc : Thread nD τ).loc main_arg12) : S128.Idx → EReal) (ix1 q))) (hn : Fin1 (normwR m c)) (p : Fin 50000) (q : Fin 128) :
    (U4 m c (Proc.devRef .tc main_v191) : S50000x128.Idx → EReal) (ix2 p q)
      = layerLinM H (fun k q => (m ((c.tc : Thread nD τ).loc main_arg11) : S128x128.Idx → EReal) (ix2 k q)) (fun q => (m ((c.tc : Thread nD τ).loc main_arg12) : S128.Idx → EReal) (ix1 q)) (fun q => (m ((c.tc : Thread nD τ).loc main_arg13) : S128.Idx → EReal) (ix1 q)) (fun q => (m ((c.tc : Thread nD τ).loc main_arg14) : S128.Idx → EReal) (ix1 q)) (srcwR m c) (dstwR m c) (normwR m c) p q := by
  have hX : (fun p k => (U3 m c (Proc.devRef .tc main_v130) : S50000x128.Idx → EReal) (ix2 p k)) = H :=
    funext fun p => funext fun k => hin p k
  have hz : zOf (U3 m c (Proc.devRef .tc main_v130)) (m ((c.tc : Thread nD τ).loc main_arg11)) (m ((c.tc : Thread nD τ).loc main_arg12)) (edgeRowR ![0, 0] slices_S2x1600000_S1x1600000_0_0 (m ((c.tc : Thread nD τ).loc main_arg1))) (edgeRowR ![1, 0] slices_S2x1600000_S1x1600000_1_0 (m ((c.tc : Thread nD τ).loc main_arg1)))
      = zM H (fun k q => (m ((c.tc : Thread nD τ).loc main_arg11) : S128x128.Idx → EReal) (ix2 k q)) (fun q => (m ((c.tc : Thread nD τ).loc main_arg12) : S128.Idx → EReal) (ix1 q)) (srcwR m c) (dstwR m c) (normwR m c) := by
    unfold zOf
    rw [hX]
  rw [show U4 m c (Proc.devRef .tc main_v191) (ix2 p q) = _ from layer3R (U3 m c) p q,
    U3_arg11 m c, U3_arg12 m c, U3_arg13 m c, U3_arg14 m c, U3_v3 m c, U3_v6 m c, U1_v3 m c, U1_v6 m c, hz]
  unfold bnOf
  rw [varR_eq_varM _ (fin2_zM _ _ hH hw hb hn)]
  rfl

theorem ref_value (c : Dev nD)
    (hx : Fin2 (fun p k => (m ((c.tc : Thread nD τ).loc main_arg0) : S50000x128.Idx → EReal) (ix2 p k)))
    (hw1 : Fin2 (fun k q => (m ((c.tc : Thread nD τ).loc main_arg3) : S128x128.Idx → EReal) (ix2 k q))) (hb1 : Fin1 (fun q => (m ((c.tc : Thread nD τ).loc main_arg4) : S128.Idx → EReal) (ix1 q))) (hg1 : Fin1 (fun q => (m ((c.tc : Thread nD τ).loc main_arg5) : S128.Idx → EReal) (ix1 q))) (hbe1 : Fin1 (fun q => (m ((c.tc : Thread nD τ).loc main_arg6) : S128.Idx → EReal) (ix1 q)))
    (hw2 : Fin2 (fun k q => (m ((c.tc : Thread nD τ).loc main_arg7) : S128x128.Idx → EReal) (ix2 k q))) (hb2 : Fin1 (fun q => (m ((c.tc : Thread nD τ).loc main_arg8) : S128.Idx → EReal) (ix1 q))) (hg2 : Fin1 (fun q => (m ((c.tc : Thread nD τ).loc main_arg9) : S128.Idx → EReal) (ix1 q))) (hbe2 : Fin1 (fun q => (m ((c.tc : Thread nD τ).loc main_arg10) : S128.Idx → EReal) (ix1 q)))
    (hw3 : Fin2 (fun k q => (m ((c.tc : Thread nD τ).loc main_arg11) : S128x128.Idx → EReal) (ix2 k q))) (hb3 : Fin1 (fun q => (m ((c.tc : Thread nD τ).loc main_arg12) : S128.Idx → EReal) (ix1 q)))
    (hn : Fin1 (normwR m c)) (g : Fin 64) (k : Fin 2) :
    (after rops (launchContents m c) (Proc.devRef .tc main_v212) : S64x2.Idx → EReal) (ix2 g k)
      = netM (fun p k => (m ((c.tc : Thread nD τ).loc main_arg0) : S50000x128.Idx → EReal) (ix2 p k))
          (fun k q => (m ((c.tc : Thread nD τ).loc main_arg3) : S128x128.Idx → EReal) (ix2 k q)) (fun q => (m ((c.tc : Thread nD τ).loc main_arg4) : S128.Idx → EReal) (ix1 q)) (fun q => (m ((c.tc : Thread nD τ).loc main_arg5) : S128.Idx → EReal) (ix1 q)) (fun q => (m ((c.tc : Thread nD τ).loc main_arg6) : S128.Idx → EReal) (ix1 q))
          (fun k q => (m ((c.tc : Thread nD τ).loc main_arg7) : S128x128.Idx → EReal) (ix2 k q)) (fun q => (m ((c.tc : Thread nD τ).loc main_arg8) : S128.Idx → EReal) (ix1 q)) (fun q => (m ((c.tc : Thread nD τ).loc main_arg9) : S128.Idx → EReal) (ix1 q)) (fun q => (m ((c.tc : Thread nD τ).loc main_arg10) : S128.Idx → EReal) (ix1 q))
          (fun k q => (m ((c.tc : Thread nD τ).loc main_arg11) : S128x128.Idx → EReal) (ix2 k q)) (fun q => (m ((c.tc : Thread nD τ).loc main_arg12) : S128.Idx → EReal) (ix1 q)) (fun q => (m ((c.tc : Thread nD τ).loc main_arg13) : S128.Idx → EReal) (ix1 q)) (fun q => (m ((c.tc : Thread nD τ).loc main_arg14) : S128.Idx → EReal) (ix1 q))
          (btR m c) (srcwR m c) (dstwR m c) (normwR m c)
          (fun f j => (m ((c.tc : Thread nD τ).loc main_arg15) : S128x64.Idx → EReal) (ix2 f j))
          (fun j => (m ((c.tc : Thread nD τ).loc main_arg16) : S64.Idx → EReal) (ix1 j))
          (fun j k => (m ((c.tc : Thread nD τ).loc main_arg17) : S64x2.Idx → EReal) (ix2 j k))
          (fun k => (m ((c.tc : Thread nD τ).loc main_arg18) : S2.Idx → EReal) (ix1 k)) g k := by
  have h0 : ∀ p k, (U1 m c (Proc.devRef .tc main_arg0) : S50000x128.Idx → EReal) (ix2 p k)
      = (m ((c.tc : Thread nD τ).loc main_arg0) : S50000x128.Idx → EReal) (ix2 p k) := by
    intro p k; rw [U1_arg0 m c]
  have h1 := r_layer1 m c _ h0 hx hw1 hb1 hn
  have f1 := fin2_layerReluM (srcwR m c) (dstwR m c) hx hw1 hb1 hg1 hbe1 hn
  have h2 := r_layer2 m c _ h1 f1 hw2 hb2 hn
  have f2 := fin2_layerReluM (srcwR m c) (dstwR m c) f1 hw2 hb2 hg2 hbe2 hn
  have h3 := r_layer3 m c _ h2 f2 hw3 hb3 hn
  rw [after_rops_U6 m c, r_tail m c _ h3 g k]
  rfl

end Cert.ReferenceIdeal.Val

end
-- ==== Proof.Bridge.lean ====
import proofs.«400876_j79998060855858_1_alg».proof.Proof.KValue
import proofs.«400876_j79998060855858_1_alg».proof.Proof.KNormFin
import proofs.«400876_j79998060855858_1_alg».proof.Proof.PreFin
import proofs.«400876_j79998060855858_1_alg».proof.Proof.RValue

open scoped BigOperators

noncomputable section

namespace Cert.Bridge

open Idealize.ShloMosaic Idealize.ShloMosaic.TcCoe Idealize.SL.Sem Idealize.ShloMosaic.StableHlo Idealize.ShloMosaic.ValueIdx Cert.GCN

variable [hKI : Cert.KernelIdeal.Facts] [hRI : Cert.ReferenceIdeal.Facts] [hP : Cert.Pre_finite_inputs.Facts]

-- Both results are the network of the arguments; the two programs' arguments agree, and they derive the same edge words
-- and normalisations from the edge table.
theorem final_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (c : Dev Cert.ReferenceIdeal.nD) :
    StableHlo.after Cert.ReferenceIdeal.Val.rops (launchContents m' c) (Proc.devRef .tc Cert.ReferenceIdeal.main_v212)
      = Cert.KernelIdeal.Gen.W22 m ρ c (Proc.devRef .tc Cert.KernelIdeal.main_v116) := by
  obtain ⟨e0, e1, e2, e3, e4, e5, e6, e7, e8, e9, e10, e11, e12, e13, e14, e15, e16, e17, e18⟩ := hagree c
  obtain ⟨f0, f3, f4, f5, f6, f7, f8, f9, f10, f11, f12, f13, f14, f15, f16, f17, f18⟩ := Cert.KernelIdeal.Val.finite_of_pre m hpre c
  funext i
  obtain ⟨g, k, rfl⟩ : ∃ (g : Fin 64) (k : Fin 2), i = ix2 g k := ⟨i 0, i 1, eq_ix2 i⟩
  refine (Cert.ReferenceIdeal.Val.ref_value m' c
    (by rw [e0]; exact fun a b => f0 (ix2 a b))
    (by rw [e3]; exact fun a b => f3 (ix2 a b))
    (by rw [e4]; exact fun a => f4 (ix1 a))
    (by rw [e5]; exact fun a => f5 (ix1 a))
    (by rw [e6]; exact fun a => f6 (ix1 a))
    (by rw [e7]; exact fun a b => f7 (ix2 a b))
    (by rw [e8]; exact fun a => f8 (ix1 a))
    (by rw [e9]; exact fun a => f9 (ix1 a))
    (by rw [e10]; exact fun a => f10 (ix1 a))
    (by rw [e11]; exact fun a b => f11 (ix2 a b))
    (by rw [e12]; exact fun a => f12 (ix1 a))
    (by delta Cert.ReferenceIdeal.Val.normwR; beta_reduce; rw [e1]; exact fun e => Cert.KernelIdeal.Val.normK_real _ _ e) g k).trans ?_
  refine Eq.trans ?_ (Cert.KernelIdeal.Val.kernel_value m ρ c g k).symm
  delta Cert.ReferenceIdeal.Val.srcwR Cert.ReferenceIdeal.Val.dstwR Cert.ReferenceIdeal.Val.normwR Cert.ReferenceIdeal.Val.btR
  beta_reduce
  rw [e0, e1, e2, e3, e4, e5, e6, e7, e8, e9, e10, e11, e12, e13, e14, e15, e16, e17, e18]
  rfl

end Cert.Bridge
-- ==== Proof.lean ====
import proofs.«400876_j79998060855858_1_alg».proof.Defs
import proofs.«400876_j79998060855858_1_alg».proof.Proof.Gen.Kernel
import proofs.«400876_j79998060855858_1_alg».proof.Proof.Gen.Kernel.Frame
import proofs.«400876_j79998060855858_1_alg».proof.Proof.Gen.KernelIdeal
import proofs.«400876_j79998060855858_1_alg».proof.Proof.Gen.KernelIdeal.Frame
import proofs.«400876_j79998060855858_1_alg».proof.Proof.Gen.ReferenceIdeal
import proofs.«400876_j79998060855858_1_alg».proof.Proof.Gen.Pre_finite_inputs
import proofs.«400876_j79998060855858_1_alg».proof.Proof.KRun
import proofs.«400876_j79998060855858_1_alg».proof.Proof.RRun
import proofs.«400876_j79998060855858_1_alg».proof.Proof.Bridge
import Idealize.ShloMosaic.Adequacy
import Idealize.ShloMosaic.Init

noncomputable section

namespace Cert.Proof

open Idealize.ShloMosaic Idealize.SL.Sem

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono (fun r h c => by
    obtain ⟨a0, a1, a2, a3, a4, a5, a6, a7, a8, a9, a10, a11, a12, a13, a14, a15, a16, a17, a18⟩ := Cert.ReferenceIdeal.Val.args_kept (F := Ideal) m c
    exact ⟨(h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11, (h c Cert.ReferenceIdeal.main_arg12).trans a12, (h c Cert.ReferenceIdeal.main_arg13).trans a13, (h c Cert.ReferenceIdeal.main_arg14).trans a14, (h c Cert.ReferenceIdeal.main_arg15).trans a15, (h c Cert.ReferenceIdeal.main_arg16).trans a16, (h c Cert.ReferenceIdeal.main_arg17).trans a17, (h c Cert.ReferenceIdeal.main_arg18).trans a18⟩)
    (Cert.ReferenceIdeal.Val.run_all (F := Ideal) m ρ)

-- Both runs end with the network of the arguments in their result buffer, and the arguments agree.
theorem algebraic : Cert.algebraic_KernelIdeal_ReferenceIdeal := by
  intro m ρ m' ρ' hpre hagree
  refine ⟨fun c => Cert.KernelIdeal.Gen.W22 m ρ c (Proc.devRef .tc Cert.KernelIdeal.main_v116), Cert.KernelIdeal.Val.run_value (F := Ideal) m ρ, ?_⟩
  refine (θ_run Cert.ReferenceIdeal.defs _ _).mono (fun r h c => ?_) (Cert.ReferenceIdeal.Val.run_all (F := Ideal) m' ρ')
  obtain ⟨a0, a1, a2, a3, a4, a5, a6, a7, a8, a9, a10, a11, a12, a13, a14, a15, a16, a17, a18⟩ := Cert.ReferenceIdeal.Val.args_kept (F := Ideal) m' c
  exact ⟨(h c Cert.ReferenceIdeal.main_v212).trans (Cert.Bridge.final_eq m ρ m' hpre hagree c), (h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11, (h c Cert.ReferenceIdeal.main_arg12).trans a12, (h c Cert.ReferenceIdeal.main_arg13).trans a13, (h c Cert.ReferenceIdeal.main_arg14).trans a14, (h c Cert.ReferenceIdeal.main_arg15).trans a15, (h c Cert.ReferenceIdeal.main_arg16).trans a16, (h c Cert.ReferenceIdeal.main_arg17).trans a17, (h c Cert.ReferenceIdeal.main_arg18).trans a18⟩

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, trivial, Cert.Proof.algebraic⟩

end
